-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v116)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v116) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v234) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x800000 : Shape := ⟨2, ![2, 800000]⟩
abbrev S100000 : Shape := ⟨1, ![100000]⟩
abbrev S800000 : Shape := ⟨1, ![800000]⟩
abbrev S64x64 : Shape := ⟨2, ![64, 64]⟩
abbrev S3x64x128 : Shape := ⟨3, ![3, 64, 128]⟩
abbrev S3x128 : Shape := ⟨2, ![3, 128]⟩
abbrev S3x128x64 : Shape := ⟨3, ![3, 128, 64]⟩
abbrev S3x64 : Shape := ⟨2, ![3, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S800000 : S_.BroadcastsInDim S800000 (![] : Fin 0 → Fin S800000.rank)
  reducesTo_S800000_S_d0 : S800000.ReducesTo [0] S_
  bcast_S_S64x64 : S_.BroadcastsInDim S64x64 (![] : Fin 0 → Fin S64x64.rank)
  reducesTo_S64x64_S_d0_1 : S64x64.ReducesTo [0, 1] S_
  bcast_S_S3x64x128 : S_.BroadcastsInDim S3x64x128 (![] : Fin 0 → Fin S3x64x128.rank)
  reducesTo_S3x64x128_S_d0_1_2 : S3x64x128.ReducesTo [0, 1, 2] S_
  bcast_S_S3x128 : S_.BroadcastsInDim S3x128 (![] : Fin 0 → Fin S3x128.rank)
  reducesTo_S3x128_S_d0_1 : S3x128.ReducesTo [0, 1] S_
  bcast_S_S3x128x64 : S_.BroadcastsInDim S3x128x64 (![] : Fin 0 → Fin S3x128x64.rank)
  reducesTo_S3x128x64_S_d0_1_2 : S3x128x64.ReducesTo [0, 1, 2] S_
  bcast_S_S3x64 : S_.BroadcastsInDim S3x64 (![] : Fin 0 → Fin S3x64.rank)
  reducesTo_S3x64_S_d0_1 : S3x64.ReducesTo [0, 1] S_

variable [Facts]

def fn_part2 {F : FTy → Type} [FloatOps F] (main_arg9 : FVec F S3x128x64 .f32) (main_arg10 : FVec F S3x64 .f32) (main_v33 : IVec S_ 1) : IVec S_ 1 :=
  let main_v34 : FVec F S3x128x64 .f32 := Host.absf main_arg9
  let main_cst_12 : FVec F S_ .f32 := constant S_ .f32 0x7F800000#32
  let main_v35 : FVec F S3x128x64 .f32 := broadcastInDim S3x128x64 ![] bcast_S_S3x128x64 main_cst_12
  let main_v36 : IVec S3x128x64 1 := cmpf .olt main_v34 main_v35
  let main_c_13 : IVec S_ 1 := constantI S_ 1 1#1
  let main_v37 : IVec S_ 1 := (fun x v => Host.reduce IntOp.andi x v reducesTo_S3x128x64_S_d0_1_2 h_S_) main_v36 main_c_13
  let main_v38 : IVec S_ 1 := andi main_v33 main_v37
  let main_v39 : FVec F S3x64 .f32 := Host.absf main_arg10
  let main_cst_14 : FVec F S_ .f32 := constant S_ .f32 0x7F800000#32
  let main_v40 : FVec F S3x64 .f32 := broadcastInDim S3x64 ![] bcast_S_S3x64 main_cst_14
  let main_v41 : IVec S3x64 1 := cmpf .olt main_v39 main_v40
  let main_c_15 : IVec S_ 1 := constantI S_ 1 1#1
  let main_v42 : IVec S_ 1 := (fun x v => Host.reduce IntOp.andi x v reducesTo_S3x64_S_d0_1 h_S_) main_v41 main_c_15
  let main_v43 : IVec S_ 1 := andi main_v38 main_v42
  main_v43

def fn_part1 {F : FTy → Type} [FloatOps F] (main_arg6 : FVec F S3x128 .f32) (main_arg7 : FVec F S3x128x64 .f32) (main_arg8 : FVec F S3x64 .f32) (main_arg9 : FVec F S3x128x64 .f32) (main_arg10 : FVec F S3x64 .f32) (main_v13 : IVec S_ 1) (main_v16 : IVec S3x64x128 1) : IVec S_ 1 :=
  let main_c_5 : IVec S_ 1 := constantI S_ 1 1#1
  let main_v17 : IVec S_ 1 := (fun x v => Host.reduce IntOp.andi x v reducesTo_S3x64x128_S_d0_1_2 h_S_) main_v16 main_c_5
  let main_v18 : IVec S_ 1 := andi main_v13 main_v17
  let main_v19 : FVec F S3x128 .f32 := Host.absf main_arg6
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128x64 .f32 := Host.absf main_arg7
  let main_cst_8 : FVec F S_ .f32 := constant S_ .f32 0x7F800000#32
  let main_v25 : FVec F S3x128x64 .f32 := broadcastInDim S3x128x64 ![] bcast_S_S3x128x64 main_cst_8
  let main_v26 : IVec S3x128x64 1 := cmpf .olt main_v24 main_v25
  let main_c_9 : IVec S_ 1 := constantI S_ 1 1#1
  let main_v27 : IVec S_ 1 := (fun x v => Host.reduce IntOp.andi x v reducesTo_S3x128x64_S_d0_1_2 h_S_) main_v26 main_c_9
  let main_v28 : IVec S_ 1 := andi main_v23 main_v27
  let main_v29 : FVec F S3x64 .f32 := Host.absf main_arg8
  let main_cst_10 : FVec F S_ .f32 := constant S_ .f32 0x7F800000#32
  let main_v30 : FVec F S3x64 .f32 := broadcastInDim S3x64 ![] bcast_S_S3x64 main_cst_10
  let main_v31 : IVec S3x64 1 := cmpf .olt main_v29 main_v30
  let main_c_11 : IVec S_ 1 := constantI S_ 1 1#1
  let main_v32 : IVec S_ 1 := (fun x v => Host.reduce IntOp.andi x v reducesTo_S3x64_S_d0_1 h_S_) main_v31 main_c_11
  let main_v33 : IVec S_ 1 := andi main_v28 main_v32
  fn_part2 (F := F) main_arg9 main_arg10 main_v33

def fn {F : FTy → Type} [FloatOps F] (main_arg0 : FVec F S100000x64 .f32) (main_arg1 : IVec S2x800000 32) (main_arg2 : IVec S100000 32) (main_arg3 : FVec F S800000 .f32) (main_arg4 : FVec F S64x64 .f32) (main_arg5 : FVec F S3x64x128 .f32) (main_arg6 : FVec F S3x128 .f32) (main_arg7 : FVec F S3x128x64 .f32) (main_arg8 : FVec F S3x64 .f32) (main_arg9 : FVec F S3x128x64 .f32) (main_arg10 : FVec F S3x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S3x64x128 .f32 := Host.absf main_arg5
  let main_cst_4 : FVec F S_ .f32 := constant S_ .f32 0x7F800000#32
  let main_v15 : FVec F S3x64x128 .f32 := broadcastInDim S3x64x128 ![] bcast_S_S3x64x128 main_cst_4
  let main_v16 : IVec S3x64x128 1 := cmpf .olt main_v14 main_v15
  fn_part1 (F := F) main_arg6 main_arg7 main_arg8 main_arg9 main_arg10 main_v13 main_v16
-- ==== Kernel.lean ====
abbrev S100000x64 : Shape := ⟨2, ![100000, 64]⟩
abbrev S2x800000 : Shape := ⟨2, ![2, 800000]⟩
abbrev S100000 : Shape := ⟨1, ![100000]⟩
abbrev S800000 : Shape := ⟨1, ![800000]⟩
abbrev S64x64 : Shape := ⟨2, ![64, 64]⟩
abbrev S3x64x128 : Shape := ⟨3, ![3, 64, 128]⟩
abbrev S3x128 : Shape := ⟨2, ![3, 128]⟩
abbrev S3x128x64 : Shape := ⟨3, ![3, 128, 64]⟩
abbrev S3x64 : Shape := ⟨2, ![3, 64]⟩
abbrev S1x800000 : Shape := ⟨2, ![1, 800000]⟩
abbrev S900000 : Shape := ⟨1, ![900000]⟩
abbrev S_ : Shape := ⟨0, ![]⟩
abbrev S900000x1 : Shape := ⟨2, ![900000, 1]⟩
abbrev S100000x1 : Shape := ⟨2, ![100000, 1]⟩
abbrev S1x64x128 : Shape := ⟨3, ![1, 64, 128]⟩
abbrev S64x128 : Shape := ⟨2, ![64, 128]⟩
abbrev S64x256 : Shape := ⟨2, ![64, 256]⟩
abbrev S1x128 : Shape := ⟨2, ![1, 128]⟩
abbrev S128 : Shape := ⟨1, ![128]⟩
abbrev S256 : Shape := ⟨1, ![256]⟩
abbrev S1x256 : Shape := ⟨2, ![1, 256]⟩
abbrev S1x128x64 : Shape := ⟨3, ![1, 128, 64]⟩
abbrev S128x64 : Shape := ⟨2, ![128, 64]⟩
abbrev S2x128x64 : Shape := ⟨3, ![2, 128, 64]⟩
abbrev S1x64 : Shape := ⟨2, ![1, 64]⟩
abbrev S64 : Shape := ⟨1, ![64]⟩
abbrev S900000x64 : Shape := ⟨2, ![900000, 64]⟩
abbrev S100000x128 : Shape := ⟨2, ![100000, 128]⟩
abbrev S5000x64 : Shape := ⟨2, ![5000, 64]⟩
abbrev S5000x1 : Shape := ⟨2, ![5000, 1]⟩
abbrev S5000x128 : Shape := ⟨2, ![5000, 128]⟩
abbrev S5000x256 : Shape := ⟨2, ![5000, 256]⟩
abbrev S900000x128 : Shape := ⟨2, ![900000, 128]⟩
abbrev S64x1 : Shape := ⟨2, ![64, 1]⟩

abbrev nBuf : Space → Nat
  | .hbm => 148
  | .vmem => 20
  | .smem => 0
  | _ => 0

abbrev hbmTy0_0 (i : Nat) : BufTy := match i % 128 with
  | 0 => ⟨S100000x64, .f32⟩
  | 1 => ⟨S2x800000, .i32⟩
  | 2 => ⟨S100000, .i32⟩
  | 3 => ⟨S800000, .f32⟩
  | 4 => ⟨S64x64, .f32⟩
  | 5 => ⟨S3x64x128, .f32⟩
  | 6 => ⟨S3x128, .f32⟩
  | 7 => ⟨S3x128x64, .f32⟩
  | 8 => ⟨S3x64, .f32⟩
  | 9 => ⟨S3x128x64, .f32⟩
  | 10 => ⟨S3x64, .f32⟩
  | 11 => ⟨S100000, .i32⟩
  | 12 => ⟨S1x800000, .i32⟩
  | 13 => ⟨S800000, .i32⟩
  | 14 => ⟨S900000, .i32⟩
  | 15 => ⟨S1x800000, .i32⟩
  | 16 => ⟨S800000, .i32⟩
  | 17 => ⟨S900000, .i32⟩
  | 18 => ⟨S_, .f32⟩
  | 19 => ⟨S100000, .f32⟩
  | 20 => ⟨S900000, .f32⟩
  | 21 => ⟨S_, .f32⟩
  | 22 => ⟨S100000, .f32⟩
  | 23 => ⟨S900000x1, .i32⟩
  | 24 => ⟨S100000, .f32⟩
  | 25 => ⟨S_, .f32⟩
  | 26 => ⟨S100000, .f32⟩
  | 27 => ⟨S100000, .i1⟩
  | 28 => ⟨S_, .f32⟩
  | 29 => ⟨S100000, .f32⟩
  | 30 => ⟨S100000, .f32⟩
  | 31 => ⟨S100000, .f32⟩
  | 32 => ⟨S_, .f32⟩
  | 33 => ⟨S_, .f32⟩
  | 34 => ⟨S100000, .f32⟩
  | 35 => ⟨S100000, .f32⟩
  | 36 => ⟨S100000x1, .f32⟩
  | 37 => ⟨S1x64x128, .f32⟩
  | 38 => ⟨S64x128, .f32⟩
  | 39 => ⟨S1x64x128, .f32⟩
  | 40 => ⟨S64x128, .f32⟩
  | 41 => ⟨S64x256, .f32⟩
  | 42 => ⟨S1x128, .f32⟩
  | 43 => ⟨S128, .f32⟩
  | 44 => ⟨S1x128, .f32⟩
  | 45 => ⟨S128, .f32⟩
  | 46 => ⟨S256, .f32⟩
  | 47 => ⟨S1x256, .f32⟩
  | 48 => ⟨S1x128x64, .f32⟩
  | 49 => ⟨S128x64, .f32⟩
  | 50 => ⟨S1x128x64, .f32⟩
  | 51 => ⟨S128x64, .f32⟩
  | 52 => ⟨S1x128x64, .f32⟩
  | 53 => ⟨S1x128x64, .f32⟩
  | 54 => ⟨S2x128x64, .f32⟩
  | 55 => ⟨S1x64, .f32⟩
  | 56 => ⟨S64, .f32⟩
  | 57 => ⟨S1x64, .f32⟩
  | 58 => ⟨S64, .f32⟩
  | 59 => ⟨S128, .f32⟩
  | 60 => ⟨S1x128, .f32⟩
  | 61 => ⟨S_, .i32⟩
  | 62 => ⟨S900000, .i32⟩
  | 63 => ⟨S900000, .i1⟩
  | 64 => ⟨S_, .i32⟩
  | 65 => ⟨S900000, .i32⟩
  | 66 => ⟨S900000, .i32⟩
  | 67 => ⟨S900000, .i32⟩
  | 68 => ⟨S900000x1, .i32⟩
  | 69 => ⟨S900000, .f32⟩
  | 70 => ⟨S900000, .f32⟩
  | 71 => ⟨S_, .i32⟩
  | 72 => ⟨S900000, .i32⟩
  | 73 => ⟨S900000, .i1⟩
  | 74 => ⟨S_, .i32⟩
  | 75 => ⟨S900000, .i32⟩
  | 76 => ⟨S900000, .i32⟩
  | 77 => ⟨S900000, .i32⟩
  | 78 => ⟨S900000x1, .i32⟩
  | 79 => ⟨S900000x64, .f32⟩
  | 80 => ⟨S900000x1, .f32⟩
  | 81 => ⟨S900000x64, .f32⟩
  | 82 => ⟨S900000x64, .f32⟩
  | 83 => ⟨S_, .f32⟩
  | 84 => ⟨S100000x64, .f32⟩
  | 85 => ⟨S900000x1, .i32⟩
  | 86 => ⟨S100000x64, .f32⟩
  | 87 => ⟨S100000x128, .f32⟩
  | 88 => ⟨S900000x1, .f32⟩
  | 89 => ⟨S_, .i32⟩
  | 90 => ⟨S900000, .i32⟩
  | 91 => ⟨S900000, .i1⟩
  | 92 => ⟨S_, .i32⟩
  | 93 => ⟨S900000, .i32⟩
  | 94 => ⟨S900000, .i32⟩
  | 95 => ⟨S900000, .i32⟩
  | 96 => ⟨S900000x1, .i32⟩
  | 97 => ⟨S900000x128, .f32⟩
  | 98 => ⟨S900000x128, .f32⟩
  | 99 => ⟨S900000x128, .f32⟩
  | 100 => ⟨S_, .f32⟩
  | 101 => ⟨S100000x128, .f32⟩
  | 102 => ⟨S900000x1, .i32⟩
  | 103 => ⟨S100000x128, .f32⟩
  | 104 => ⟨S100000x1, .i32⟩
  | 105 => ⟨S64x128, .f32⟩
  | 106 => ⟨S1x64, .f32⟩
  | 107 => ⟨S_, .f32⟩
  | 108 => ⟨S1x64, .f32⟩
  | 109 => ⟨S1x64, .f32⟩
  | 110 => ⟨S64x1, .f32⟩
  | 111 => ⟨S64x128, .f32⟩
  | 112 => ⟨S64x128, .f32⟩
  | 113 => ⟨S64x64, .f32⟩
  | 114 => ⟨S64x64, .f32⟩
  | 115 => ⟨S64x128, .f32⟩
  | 116 => ⟨S64x128, .f32⟩
  | 117 => ⟨S1x128x64, .f32⟩
  | 118 => ⟨S128x64, .f32⟩
  | 119 => ⟨S64x64, .f32⟩
  | 120 => ⟨S1x64, .f32⟩
  | 121 => ⟨S64, .f32⟩
  | 122 => ⟨S1x64, .f32⟩
  | 123 => ⟨S64x64, .f32⟩
  | 124 => ⟨S64x64, .f32⟩
  | 125 => ⟨S64x64, .f32⟩
  | 126 => ⟨S64x64, .f32⟩
  | 127 => ⟨S_, .f32⟩
  | _ => ⟨S100000x64, .f32⟩

abbrev hbmTy0_1 (i : Nat) : BufTy := match i % 128 with
  | 0 => ⟨S64x64, .f32⟩
  | 1 => ⟨S64x64, .f32⟩
  | 2 => ⟨S_, .f32⟩
  | 3 => ⟨S64x64, .f32⟩
  | 4 => ⟨S64x64, .f32⟩
  | 5 => ⟨S1x128x64, .f32⟩
  | 6 => ⟨S128x64, .f32⟩
  | 7 => ⟨S64x64, .f32⟩
  | 8 => ⟨S1x64, .f32⟩
  | 9 => ⟨S64, .f32⟩
  | 10 => ⟨S1x64, .f32⟩
  | 11 => ⟨S64x64, .f32⟩
  | 12 => ⟨S64x64, .f32⟩
  | 13 => ⟨S64x64, .f32⟩
  | 14 => ⟨S64x64, .f32⟩
  | 15 => ⟨S_, .f32⟩
  | 16 => ⟨S64x64, .f32⟩
  | 17 => ⟨S64x64, .f32⟩
  | 18 => ⟨S64x64, .f32⟩
  | 19 => ⟨S64x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S64x256, .f32⟩
  | .local _ .vmem, ⟨5, _⟩ => ⟨S1x256, .f32⟩
  | .local _ .vmem, ⟨6, _⟩ => ⟨S2x128x64, .f32⟩
  | .local _ .vmem, ⟨7, _⟩ => ⟨S5000x128, .f32⟩
  | .local _ .vmem, ⟨8, _⟩ => ⟨S5000x128, .f32⟩
  | .local _ .vmem, ⟨9, _⟩ => ⟨S5000x1, .i32⟩
  | .local _ .vmem, ⟨10, _⟩ => ⟨S5000x1, .i32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S5000x1, .f32⟩
  | .local _ .vmem, ⟨15, _⟩ => ⟨S5000x1, .f32⟩
  | .local _ .vmem, ⟨16, _⟩ => ⟨S64x128, .f32⟩
  | .local _ .vmem, ⟨17, _⟩ => ⟨S1x64, .f32⟩
  | .local _ .vmem, ⟨18, _⟩ => ⟨S64x128, .f32⟩
  | .local _ .vmem, ⟨19, _⟩ => ⟨S1x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_c : Ref sig .tc := ⟨.hbm, 61, rfl⟩
abbrev main_v43 : Ref sig .tc := ⟨.hbm, 62, rfl⟩
abbrev main_v44 : Ref sig .tc := ⟨.hbm, 63, rfl⟩
abbrev main_c_4 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_c_5 : Ref sig .tc := ⟨.hbm, 71, rfl⟩
abbrev main_v51 : Ref sig .tc := ⟨.hbm, 72, rfl⟩
abbrev main_v52 : Ref sig .tc := ⟨.hbm, 73, rfl⟩
abbrev main_c_6 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_7 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_c_8 : Ref sig .tc := ⟨.hbm, 89, rfl⟩
abbrev main_v66 : Ref sig .tc := ⟨.hbm, 90, rfl⟩
abbrev main_v67 : Ref sig .tc := ⟨.hbm, 91, rfl⟩
abbrev main_c_9 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_10 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79_0 : Ref sig .tc := ⟨.hbm, 105, rfl⟩
abbrev main_v79_1 : Ref sig .tc := ⟨.hbm, 106, rfl⟩
abbrev main_cst_11 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_cst_12 : Ref sig .tc := ⟨.hbm, 127, rfl⟩
abbrev main_v99 : Ref sig .tc := ⟨.hbm, 128, rfl⟩
abbrev main_v100 : Ref sig .tc := ⟨.hbm, 129, rfl⟩
abbrev main_cst_13 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_cst_14 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg5_0 : Ref sig .tc := ⟨.vmem, 17, rfl⟩
abbrev cc1_scratch0 : Ref sig .tc := ⟨.vmem, 18, rfl⟩
abbrev cc1_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem3_1 : DmaSem sig := 15
abbrev cc1_sem4_0 : DmaSem sig := 16
abbrev cc1_sem5_0 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def k1_cond2 (i : grid1.Coords) : BitVec 1 :=
  let arg0 : BitVec 32 := BitVec.ofNat 32 (i 0).val
  let c19_i32 : BitVec 32 := 19#32
  let v35 : BitVec 1 := Scalar.cmpi .eq arg0 c19_i32
  let v36 : BitVec 32 := Scalar.extui v35
  let c0_i32_18 : BitVec 32 := 0#32
  let v37 : BitVec 1 := Scalar.cmpi .ne v36 c0_i32_18
  v37

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S64x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

class Facts₀ : Prop where
  slices_S2x800000_S1x800000_0_0 : S2x800000.Slices ![0, 0] S1x800000
  shapeCasts_S1x800000_S800000 : S1x800000.ShapeCasts S800000
  concatenates_S800000_S100000_S900000_d0 : Shape.Concatenates [S800000, S100000] S900000 0
  slices_S2x800000_S1x800000_1_0 : S2x800000.Slices ![1, 0] S1x800000
  bcast_S_S100000 : S_.BroadcastsInDim S100000 (![] : Fin 0 → Fin S100000.rank)
  bcast_S900000_S900000x1_0 : S900000.BroadcastsInDim S900000x1 (![0] : Fin 1 → Fin S900000x1.rank)
  shapeCasts_S100000_S100000x1 : S100000.ShapeCasts S100000x1
  slices_S3x64x128_S1x64x128_0_0_0 : S3x64x128.Slices ![0, 0, 0] S1x64x128
  shapeCasts_S1x64x128_S64x128 : S1x64x128.ShapeCasts S64x128
  slices_S3x64x128_S1x64x128_2_0_0 : S3x64x128.Slices ![2, 0, 0] S1x64x128
  concatenates_S64x128_S64x128_S64x256_d1 : Shape.Concatenates [S64x128, S64x128] S64x256 1
  slices_S3x128_S1x128_0_0 : S3x128.Slices ![0, 0] S1x128
  shapeCasts_S1x128_S128 : S1x128.ShapeCasts S128
  slices_S3x128_S1x128_2_0 : S3x128.Slices ![2, 0] S1x128
  concatenates_S128_S128_S256_d0 : Shape.Concatenates [S128, S128] S256 0
  shapeCasts_S256_S1x256 : S256.ShapeCasts S1x256
  slices_S3x128x64_S1x128x64_0_0_0 : S3x128x64.Slices ![0, 0, 0] S1x128x64
  shapeCasts_S1x128x64_S128x64 : S1x128x64.ShapeCasts S128x64
  slices_S3x128x64_S1x128x64_2_0_0 : S3x128x64.Slices ![2, 0, 0] S1x128x64
  bcast_S128x64_S1x128x64_1_2 : S128x64.BroadcastsInDim S1x128x64 (![1, 2] : Fin 2 → Fin S1x128x64.rank)
  concatenates_S1x128x64_S1x128x64_S2x128x64_d0 : Shape.Concatenates [S1x128x64, S1x128x64] S2x128x64 0
  slices_S3x64_S1x64_0_0 : S3x64.Slices ![0, 0] S1x64
  shapeCasts_S1x64_S64 : S1x64.ShapeCasts S64
  slices_S3x64_S1x64_2_0 : S3x64.Slices ![2, 0] S1x64
  concatenates_S64_S64_S128_d0 : Shape.Concatenates [S64, S64] S128 0
  shapeCasts_S128_S1x128 : S128.ShapeCasts S1x128
  bcast_S_S900000 : S_.BroadcastsInDim S900000 (![] : Fin 0 → Fin S900000.rank)
  bcast_S900000x1_S900000x64_0_1 : S900000x1.BroadcastsInDim S900000x64 (![0, 1] : Fin 2 → Fin S900000x64.rank)
  bcast_S_S100000x64 : S_.BroadcastsInDim S100000x64 (![] : Fin 0 → Fin S100000x64.rank)
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S5000x1_S5000x64 : S5000x1.Broadcasts S5000x64
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  slices_S5000x256_o0_0_S5000x128 : S5000x256.Slices ![0, 0] S5000x128
  slices_S5000x256_o0_128_S5000x128 : S5000x256.Slices ![0, 128] S5000x128
  inb_S2x128x64_S2x128x64_0_0_0 : ∀ a, (![0, 0, 0] : Fin 3 → Nat) a + S2x128x64.size a ≤ S2x128x64.size a
  h_S2x128x64 : 0 < S2x128x64.numel
  shapeCasts_S2x128x64_S2x128x64 : S2x128x64.ShapeCasts S2x128x64
  slices_S2x128x64_o0_0_0_S1x128x64 : S2x128x64.Slices ![0, 0, 0] S1x128x64
  slices_S2x128x64_o1_0_0_S1x128x64 : S2x128x64.Slices ![1, 0, 0] S1x128x64
  concatenates_S5000x64_S5000x64_S5000x128_d1 : Shape.Concatenates [S5000x64, S5000x64] S5000x128 1
  broadcasts_S5000x1_S5000x128 : S5000x1.Broadcasts S5000x128
  inb_S5000x128_S5000x128_0_0 : ∀ a, (![0, 0] : Fin 2 → Nat) a + S5000x128.size a ≤ S5000x128.size a
  h_S5000x128 : 0 < S5000x128.numel
  bcast_S900000x1_S900000x128_0_1 : S900000x1.BroadcastsInDim S900000x128 (![0, 1] : Fin 2 → Fin S900000x128.rank)
  bcast_S_S100000x128 : S_.BroadcastsInDim S100000x128 (![] : Fin 0 → Fin S100000x128.rank)
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  iota_S5000x64_d1_w32 : S5000x64.Iotas .tc 32 [1]
  natLt_1_32 : 1 < 32
  reduces_S5000x64_S64 : S5000x64.Reduces [0] S64
  shapeCasts_S64_S1x64 : S64.ShapeCasts S1x64
  bcast_S_S1x64 : S_.BroadcastsInDim S1x64 (![] : Fin 0 → Fin S1x64.rank)
  shapeCasts_S1x64_S64x1 : S1x64.ShapeCasts S64x1
  bcast_S64x1_S64x128_0_1 : S64x1.BroadcastsInDim S64x128 (![0, 1] : Fin 2 → Fin S64x128.rank)
  slices_S64x128_S64x64_0_0 : S64x128.Slices ![0, 0] S64x64
  slices_S64x128_S64x64_0_64 : S64x128.Slices ![0, 64] S64x64
  concatenates_S64x64_S64x64_S64x128_d1 : Shape.Concatenates [S64x64, S64x64] S64x128 1
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  gather_S100000x64_S900000x1_S900000x64_1_0_n_n_0_1_164_wf : GatherDims.WF S100000x64 S900000x1 S900000x64 [1] [0] [] [0] [] 1 ![1, 64]
  scatter_S100000x64_S900000x1_S900000x64_1_0_0_1_wf : ScatterDims.WF S100000x64 S900000x1 S900000x64 [1] [0] [0] 1
  dot_S5000x64_S64x256_S5000x256_1_0_0_1_n_n_wf : DotDims.WF S5000x64 S64x256 S5000x256 [1] [0] [0] [1] [] []
  dot_S5000x128_S128x64_S5000x64_1_0_0_1_n_n_wf : DotDims.WF S5000x128 S128x64 S5000x64 [1] [0] [0] [1] [] []
  gather_S100000x128_S900000x1_S900000x128_1_0_n_n_0_1_1128_wf : GatherDims.WF S100000x128 S900000x1 S900000x128 [1] [0] [] [0] [] 1 ![1, 128]
  scatter_S100000x128_S900000x1_S900000x128_1_0_0_1_wf : ScatterDims.WF S100000x128 S900000x1 S900000x128 [1] [0] [0] 1
  dot_S5000x64_S5000x128_S64x128_0_0_1_1_n_n_wf : DotDims.WF S5000x64 S5000x128 S64x128 [0] [0] [1] [1] [] []
  dot_S64x128_S128x64_S64x64_1_0_0_1_n_n_wf : DotDims.WF S64x128 S128x64 S64x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x256.size a ≤ S64x256.size a
  hwx0_2 : ∀ i : grid0.Coords, EltTy.bits .f32 = 32 ∨ (Rect.block (s := S64x256) S64x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x128x64.size a ≤ S2x128x64.size a
  hwx0_4 : ∀ i : grid0.Coords, EltTy.bits .f32 = 32 ∨ (Rect.block (s := S2x128x64) S2x128x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x1.size a ≤ S100000x1.size a
  hwx1_0 : ∀ i : grid1.Coords, EltTy.bits .i32 = 32 ∨ (Rect.block (s := S100000x1) S5000x1.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S100000x1.size a
  hwx1_3 : ∀ i : grid1.Coords, EltTy.bits .f32 = 32 ∨ (Rect.block (s := S100000x1) S5000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x128.size a ≤ S64x128.size a
  hwx1_4 : ∀ i : grid1.Coords, EltTy.bits .f32 = 32 ∨ (Rect.block (s := S64x128) S64x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)

variable [Facts₀]

def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def gather_S100000x64_S900000x1_S900000x64_1_0_n_n_0_1_164 : GatherDims S100000x64 S900000x1 S900000x64 where
  offsetDims := [1]
  collapsedSliceDims := [0]
  operandBatchingDims := []
  startIndicesBatchingDims := []
  startIndexMap := [0]
  indexVectorDim := 1
  sliceSizes := ![1, 64]
  wf := gather_S100000x64_S900000x1_S900000x64_1_0_n_n_0_1_164_wf
def scatter_S100000x64_S900000x1_S900000x64_1_0_0_1 : ScatterDims S100000x64 S900000x1 S900000x64 where
  updateWindowDims := [1]
  insertedWindowDims := [0]
  scatterDimsToOperandDims := [0]
  indexVectorDim := 1
  wf := scatter_S100000x64_S900000x1_S900000x64_1_0_0_1_wf
def dot_S5000x64_S64x256_S5000x256_1_0_0_1_n_n : DotDims S5000x64 S64x256 S5000x256 where
  lhsContracting := [1]
  rhsContracting := [0]
  lhsNonContracting := [0]
  rhsNonContracting := [1]
  lhsBatch := []
  rhsBatch := []
  wf := dot_S5000x64_S64x256_S5000x256_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x128_S900000x1_S900000x128_1_0_n_n_0_1_1128 : GatherDims S100000x128 S900000x1 S900000x128 where
  offsetDims := [1]
  collapsedSliceDims := [0]
  operandBatchingDims := []
  startIndicesBatchingDims := []
  startIndexMap := [0]
  indexVectorDim := 1
  sliceSizes := ![1, 128]
  wf := gather_S100000x128_S900000x1_S900000x128_1_0_n_n_0_1_1128_wf
def scatter_S100000x128_S900000x1_S900000x128_1_0_0_1 : ScatterDims S100000x128 S900000x1 S900000x128 where
  updateWindowDims := [1]
  insertedWindowDims := [0]
  scatterDimsToOperandDims := [0]
  indexVectorDim := 1
  wf := scatter_S100000x128_S900000x1_S900000x128_1_0_0_1_wf
def dot_S5000x64_S5000x128_S64x128_0_0_1_1_n_n : DotDims S5000x64 S5000x128 S64x128 where
  lhsContracting := [0]
  rhsContracting := [0]
  lhsNonContracting := [1]
  rhsNonContracting := [1]
  lhsBatch := []
  rhsBatch := []
  wf := dot_S5000x64_S5000x128_S64x128_0_0_1_1_n_n_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf

abbrev win0_0 : Pipeline.Window sig grid0 :=
  Pipeline.Window.ofSpec (Memref.whole main_v63) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S64x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v36) S2x128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v64) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v78) S5000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v77) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v79_0) S64x128.size cc1_transform_4 reads1_4 true true 1 stage1_4 sem1_4
    hrank1 hreads1_4 hinb1_4 nbuf1_4 (Memref.isWhole_whole _) hwx1_4 hstage1_4

abbrev win1_5 : Pipeline.Window sig grid1 :=
  Pipeline.Window.ofSpec (Memref.whole main_v79_1) S1x64.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun i => !(k1_cond2 i == 1#1) | 5 => fun i => !(k1_cond2 i == 1#1) | ⟨_ + 6, h⟩ => absurd h (Nat.not_lt.2 (Nat.le_add_left _ _))

class Facts : Prop extends Facts₀ where

variable [Facts]
-- ==== ReferenceIdeal.lean ====
abbrev S100000x64 : Shape := ⟨2, ![100000, 64]⟩
abbrev S2x800000 : Shape := ⟨2, ![2, 800000]⟩
abbrev S100000 : Shape := ⟨1, ![100000]⟩
abbrev S800000 : Shape := ⟨1, ![800000]⟩
abbrev S64x64 : Shape := ⟨2, ![64, 64]⟩
abbrev S3x64x128 : Shape := ⟨3, ![3, 64, 128]⟩
abbrev S3x128 : Shape := ⟨2, ![3, 128]⟩
abbrev S3x128x64 : Shape := ⟨3, ![3, 128, 64]⟩
abbrev S3x64 : Shape := ⟨2, ![3, 64]⟩
abbrev S1x800000 : Shape := ⟨2, ![1, 800000]⟩
abbrev S900000 : Shape := ⟨1, ![900000]⟩
abbrev S_ : Shape := ⟨0, ![]⟩
abbrev S900000x1 : Shape := ⟨2, ![900000, 1]⟩
abbrev S64 : Shape := ⟨1, ![64]⟩
abbrev S100000x1 : Shape := ⟨2, ![100000, 1]⟩
abbrev S1x64x128 : Shape := ⟨3, ![1, 64, 128]⟩
abbrev S64x128 : Shape := ⟨2, ![64, 128]⟩
abbrev S1x128 : Shape := ⟨2, ![1, 128]⟩
abbrev S128 : Shape := ⟨1, ![128]⟩
abbrev S100000x128 : Shape := ⟨2, ![100000, 128]⟩
abbrev S900000x128 : Shape := ⟨2, ![900000, 128]⟩
abbrev S1x128x64 : Shape := ⟨3, ![1, 128, 64]⟩
abbrev S128x64 : Shape := ⟨2, ![128, 64]⟩
abbrev S1x64 : Shape := ⟨2, ![1, 64]⟩
abbrev S900000x64 : Shape := ⟨2, ![900000, 64]⟩
abbrev S64x1 : Shape := ⟨2, ![64, 1]⟩

abbrev nBuf : Space → Nat
  | .hbm => 298
  | .vmem => 0
  | .smem => 0
  | _ => 0

abbrev hbmTy0_0 (i : Nat) : BufTy := match i % 128 with
  | 0 => ⟨S100000x64, .f32⟩
  | 1 => ⟨S2x800000, .i32⟩
  | 2 => ⟨S100000, .i32⟩
  | 3 => ⟨S800000, .f32⟩
  | 4 => ⟨S64x64, .f32⟩
  | 5 => ⟨S3x64x128, .f32⟩
  | 6 => ⟨S3x128, .f32⟩
  | 7 => ⟨S3x128x64, .f32⟩
  | 8 => ⟨S3x64, .f32⟩
  | 9 => ⟨S3x128x64, .f32⟩
  | 10 => ⟨S3x64, .f32⟩
  | 11 => ⟨S100000, .i32⟩
  | 12 => ⟨S1x800000, .i32⟩
  | 13 => ⟨S800000, .i32⟩
  | 14 => ⟨S900000, .i32⟩
  | 15 => ⟨S1x800000, .i32⟩
  | 16 => ⟨S800000, .i32⟩
  | 17 => ⟨S900000, .i32⟩
  | 18 => ⟨S_, .f32⟩
  | 19 => ⟨S100000, .f32⟩
  | 20 => ⟨S900000, .f32⟩
  | 21 => ⟨S_, .f32⟩
  | 22 => ⟨S100000, .f32⟩
  | 23 => ⟨S900000x1, .i32⟩
  | 24 => ⟨S100000, .f32⟩
  | 25 => ⟨S_, .f32⟩
  | 26 => ⟨S100000, .f32⟩
  | 27 => ⟨S100000, .i1⟩
  | 28 => ⟨S_, .f32⟩
  | 29 => ⟨S100000, .f32⟩
  | 30 => ⟨S100000, .f32⟩
  | 31 => ⟨S100000, .f32⟩
  | 32 => ⟨S_, .f32⟩
  | 33 => ⟨S_, .f32⟩
  | 34 => ⟨S100000, .f32⟩
  | 35 => ⟨S100000, .f32⟩
  | 36 => ⟨S_, .i32⟩
  | 37 => ⟨S900000, .i32⟩
  | 38 => ⟨S900000, .i1⟩
  | 39 => ⟨S_, .i32⟩
  | 40 => ⟨S900000, .i32⟩
  | 41 => ⟨S900000, .i32⟩
  | 42 => ⟨S900000, .i32⟩
  | 43 => ⟨S900000x1, .i32⟩
  | 44 => ⟨S900000, .f32⟩
  | 45 => ⟨S900000, .f32⟩
  | 46 => ⟨S_, .i32⟩
  | 47 => ⟨S900000, .i32⟩
  | 48 => ⟨S900000, .i1⟩
  | 49 => ⟨S_, .i32⟩
  | 50 => ⟨S900000, .i32⟩
  | 51 => ⟨S900000, .i32⟩
  | 52 => ⟨S900000, .i32⟩
  | 53 => ⟨S900000x1, .i32⟩
  | 54 => ⟨S900000, .f32⟩
  | 55 => ⟨S900000, .f32⟩
  | 56 => ⟨S_, .f32⟩
  | 57 => ⟨S100000, .f32⟩
  | 58 => ⟨S_, .f32⟩
  | 59 => ⟨S64, .f32⟩
  | 60 => ⟨S100000x1, .i32⟩
  | 61 => ⟨S64, .f32⟩
  | 62 => ⟨S_, .f32⟩
  | 63 => ⟨S64, .f32⟩
  | 64 => ⟨S64, .f32⟩
  | 65 => ⟨S1x64x128, .f32⟩
  | 66 => ⟨S64x128, .f32⟩
  | 67 => ⟨S1x128, .f32⟩
  | 68 => ⟨S128, .f32⟩
  | 69 => ⟨S100000x128, .f32⟩
  | 70 => ⟨S900000x1, .f32⟩
  | 71 => ⟨S_, .i32⟩
  | 72 => ⟨S900000, .i32⟩
  | 73 => ⟨S900000, .i1⟩
  | 74 => ⟨S_, .i32⟩
  | 75 => ⟨S900000, .i32⟩
  | 76 => ⟨S900000, .i32⟩
  | 77 => ⟨S900000, .i32⟩
  | 78 => ⟨S900000x1, .i32⟩
  | 79 => ⟨S900000x128, .f32⟩
  | 80 => ⟨S900000x128, .f32⟩
  | 81 => ⟨S900000x128, .f32⟩
  | 82 => ⟨S_, .f32⟩
  | 83 => ⟨S100000x128, .f32⟩
  | 84 => ⟨S900000x1, .i32⟩
  | 85 => ⟨S100000x128, .f32⟩
  | 86 => ⟨S1x128, .f32⟩
  | 87 => ⟨S100000x128, .f32⟩
  | 88 => ⟨S100000x128, .f32⟩
  | 89 => ⟨S_, .f32⟩
  | 90 => ⟨S100000x128, .f32⟩
  | 91 => ⟨S100000x128, .f32⟩
  | 92 => ⟨S1x128x64, .f32⟩
  | 93 => ⟨S128x64, .f32⟩
  | 94 => ⟨S1x64, .f32⟩
  | 95 => ⟨S64, .f32⟩
  | 96 => ⟨S100000x64, .f32⟩
  | 97 => ⟨S900000x1, .f32⟩
  | 98 => ⟨S_, .i32⟩
  | 99 => ⟨S900000, .i32⟩
  | 100 => ⟨S900000, .i1⟩
  | 101 => ⟨S_, .i32⟩
  | 102 => ⟨S900000, .i32⟩
  | 103 => ⟨S900000, .i32⟩
  | 104 => ⟨S900000, .i32⟩
  | 105 => ⟨S900000x1, .i32⟩
  | 106 => ⟨S900000x64, .f32⟩
  | 107 => ⟨S900000x64, .f32⟩
  | 108 => ⟨S900000x64, .f32⟩
  | 109 => ⟨S_, .f32⟩
  | 110 => ⟨S100000x64, .f32⟩
  | 111 => ⟨S900000x1, .i32⟩
  | 112 => ⟨S100000x64, .f32⟩
  | 113 => ⟨S1x64, .f32⟩
  | 114 => ⟨S100000x64, .f32⟩
  | 115 => ⟨S100000x64, .f32⟩
  | 116 => ⟨S_, .f32⟩
  | 117 => ⟨S100000x64, .f32⟩
  | 118 => ⟨S100000x64, .f32⟩
  | 119 => ⟨S_, .f32⟩
  | 120 => ⟨S64x64, .f32⟩
  | 121 => ⟨S100000x1, .i32⟩
  | 122 => ⟨S64x64, .f32⟩
  | 123 => ⟨S64x1, .f32⟩
  | 124 => ⟨S64x64, .f32⟩
  | 125 => ⟨S64x64, .f32⟩
  | 126 => ⟨S64x128, .f32⟩
  | 127 => ⟨S1x128x64, .f32⟩
  | _ => ⟨S100000x64, .f32⟩

abbrev hbmTy0_1 (i : Nat) : BufTy := match i % 128 with
  | 0 => ⟨S128x64, .f32⟩
  | 1 => ⟨S64x64, .f32⟩
  | 2 => ⟨S1x64, .f32⟩
  | 3 => ⟨S64, .f32⟩
  | 4 => ⟨S1x64, .f32⟩
  | 5 => ⟨S64x64, .f32⟩
  | 6 => ⟨S64x64, .f32⟩
  | 7 => ⟨S64x64, .f32⟩
  | 8 => ⟨S64x64, .f32⟩
  | 9 => ⟨S_, .f32⟩
  | 10 => ⟨S64x64, .f32⟩
  | 11 => ⟨S64x64, .f32⟩
  | 12 => ⟨S_, .f32⟩
  | 13 => ⟨S64x64, .f32⟩
  | 14 => ⟨S64x64, .f32⟩
  | 15 => ⟨S1x64x128, .f32⟩
  | 16 => ⟨S64x128, .f32⟩
  | 17 => ⟨S1x128, .f32⟩
  | 18 => ⟨S128, .f32⟩
  | 19 => ⟨S100000x128, .f32⟩
  | 20 => ⟨S900000x1, .f32⟩
  | 21 => ⟨S_, .i32⟩
  | 22 => ⟨S900000, .i32⟩
  | 23 => ⟨S900000, .i1⟩
  | 24 => ⟨S_, .i32⟩
  | 25 => ⟨S900000, .i32⟩
  | 26 => ⟨S900000, .i32⟩
  | 27 => ⟨S900000, .i32⟩
  | 28 => ⟨S900000x1, .i32⟩
  | 29 => ⟨S900000x128, .f32⟩
  | 30 => ⟨S900000x128, .f32⟩
  | 31 => ⟨S900000x128, .f32⟩
  | 32 => ⟨S_, .f32⟩
  | 33 => ⟨S100000x128, .f32⟩
  | 34 => ⟨S900000x1, .i32⟩
  | 35 => ⟨S100000x128, .f32⟩
  | 36 => ⟨S1x128, .f32⟩
  | 37 => ⟨S100000x128, .f32⟩
  | 38 => ⟨S100000x128, .f32⟩
  | 39 => ⟨S_, .f32⟩
  | 40 => ⟨S100000x128, .f32⟩
  | 41 => ⟨S100000x128, .f32⟩
  | 42 => ⟨S1x128x64, .f32⟩
  | 43 => ⟨S128x64, .f32⟩
  | 44 => ⟨S1x64, .f32⟩
  | 45 => ⟨S64, .f32⟩
  | 46 => ⟨S100000x64, .f32⟩
  | 47 => ⟨S900000x1, .f32⟩
  | 48 => ⟨S_, .i32⟩
  | 49 => ⟨S900000, .i32⟩
  | 50 => ⟨S900000, .i1⟩
  | 51 => ⟨S_, .i32⟩
  | 52 => ⟨S900000, .i32⟩
  | 53 => ⟨S900000, .i32⟩
  | 54 => ⟨S900000, .i32⟩
  | 55 => ⟨S900000x1, .i32⟩
  | 56 => ⟨S900000x64, .f32⟩
  | 57 => ⟨S900000x64, .f32⟩
  | 58 => ⟨S900000x64, .f32⟩
  | 59 => ⟨S_, .f32⟩
  | 60 => ⟨S100000x64, .f32⟩
  | 61 => ⟨S900000x1, .i32⟩
  | 62 => ⟨S100000x64, .f32⟩
  | 63 => ⟨S1x64, .f32⟩
  | 64 => ⟨S100000x64, .f32⟩
  | 65 => ⟨S100000x64, .f32⟩
  | 66 => ⟨S_, .f32⟩
  | 67 => ⟨S100000x64, .f32⟩
  | 68 => ⟨S100000x64, .f32⟩
  | 69 => ⟨S_, .f32⟩
  | 70 => ⟨S64x64, .f32⟩
  | 71 => ⟨S100000x1, .i32⟩
  | 72 => ⟨S64x64, .f32⟩
  | 73 => ⟨S64x1, .f32⟩
  | 74 => ⟨S64x64, .f32⟩
  | 75 => ⟨S64x64, .f32⟩
  | 76 => ⟨S64x128, .f32⟩
  | 77 => ⟨S1x128x64, .f32⟩
  | 78 => ⟨S128x64, .f32⟩
  | 79 => ⟨S64x64, .f32⟩
  | 80 => ⟨S1x64, .f32⟩
  | 81 => ⟨S64, .f32⟩
  | 82 => ⟨S1x64, .f32⟩
  | 83 => ⟨S64x64, .f32⟩
  | 84 => ⟨S64x64, .f32⟩
  | 85 => ⟨S64x64, .f32⟩
  | 86 => ⟨S64x64, .f32⟩
  | 87 => ⟨S_, .f32⟩
  | 88 => ⟨S64x64, .f32⟩
  | 89 => ⟨S64x64, .f32⟩
  | 90 => ⟨S_, .f32⟩
  | 91 => ⟨S64x64, .f32⟩
  | 92 => ⟨S64x64, .f32⟩
  | 93 => ⟨S1x64x128, .f32⟩
  | 94 => ⟨S64x128, .f32⟩
  | 95 => ⟨S1x128, .f32⟩
  | 96 => ⟨S128, .f32⟩
  | 97 => ⟨S100000x128, .f32⟩
  | 98 => ⟨S900000x1, .f32⟩
  | 99 => ⟨S_, .i32⟩
  | 100 => ⟨S900000, .i32⟩
  | 101 => ⟨S900000, .i1⟩
  | 102 => ⟨S_, .i32⟩
  | 103 => ⟨S900000, .i32⟩
  | 104 => ⟨S900000, .i32⟩
  | 105 => ⟨S900000, .i32⟩
  | 106 => ⟨S900000x1, .i32⟩
  | 107 => ⟨S900000x128, .f32⟩
  | 108 => ⟨S900000x128, .f32⟩
  | 109 => ⟨S900000x128, .f32⟩
  | 110 => ⟨S_, .f32⟩
  | 111 => ⟨S100000x128, .f32⟩
  | 112 => ⟨S900000x1, .i32⟩
  | 113 => ⟨S100000x128, .f32⟩
  | 114 => ⟨S1x128, .f32⟩
  | 115 => ⟨S100000x128, .f32⟩
  | 116 => ⟨S100000x128, .f32⟩
  | 117 => ⟨S_, .f32⟩
  | 118 => ⟨S100000x128, .f32⟩
  | 119 => ⟨S100000x128, .f32⟩
  | 120 => ⟨S1x128x64, .f32⟩
  | 121 => ⟨S128x64, .f32⟩
  | 122 => ⟨S1x64, .f32⟩
  | 123 => ⟨S64, .f32⟩
  | 124 => ⟨S100000x64, .f32⟩
  | 125 => ⟨S900000x1, .f32⟩
  | 126 => ⟨S_, .i32⟩
  | 127 => ⟨S900000, .i32⟩
  | _ => ⟨S100000x64, .f32⟩

abbrev hbmTy0_2 (i : Nat) : BufTy := match i % 128 with
  | 0 => ⟨S900000, .i1⟩
  | 1 => ⟨S_, .i32⟩
  | 2 => ⟨S900000, .i32⟩
  | 3 => ⟨S900000, .i32⟩
  | 4 => ⟨S900000, .i32⟩
  | 5 => ⟨S900000x1, .i32⟩
  | 6 => ⟨S900000x64, .f32⟩
  | 7 => ⟨S900000x64, .f32⟩
  | 8 => ⟨S900000x64, .f32⟩
  | 9 => ⟨S_, .f32⟩
  | 10 => ⟨S100000x64, .f32⟩
  | 11 => ⟨S900000x1, .i32⟩
  | 12 => ⟨S100000x64, .f32⟩
  | 13 => ⟨S1x64, .f32⟩
  | 14 => ⟨S100000x64, .f32⟩
  | 15 => ⟨S100000x64, .f32⟩
  | 16 => ⟨S_, .f32⟩
  | 17 => ⟨S100000x64, .f32⟩
  | 18 => ⟨S100000x64, .f32⟩
  | 19 => ⟨S_, .f32⟩
  | 20 => ⟨S64x64, .f32⟩
  | 21 => ⟨S100000x1, .i32⟩
  | 22 => ⟨S64x64, .f32⟩
  | 23 => ⟨S64x1, .f32⟩
  | 24 => ⟨S64x64, .f32⟩
  | 25 => ⟨S64x64, .f32⟩
  | 26 => ⟨S64x128, .f32⟩
  | 27 => ⟨S1x128x64, .f32⟩
  | 28 => ⟨S128x64, .f32⟩
  | 29 => ⟨S64x64, .f32⟩
  | 30 => ⟨S1x64, .f32⟩
  | 31 => ⟨S64, .f32⟩
  | 32 => ⟨S1x64, .f32⟩
  | 33 => ⟨S64x64, .f32⟩
  | 34 => ⟨S64x64, .f32⟩
  | 35 => ⟨S64x64, .f32⟩
  | 36 => ⟨S64x64, .f32⟩
  | 37 => ⟨S_, .f32⟩
  | 38 => ⟨S64x64, .f32⟩
  | 39 => ⟨S64x64, .f32⟩
  | 40 => ⟨S64x64, .f32⟩
  | 41 => ⟨S64x64, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v17 : Ref sig .tc := ⟨.hbm, 35, rfl⟩
abbrev main_c : Ref sig .tc := ⟨.hbm, 36, rfl⟩
abbrev main_v18 : Ref sig .tc := ⟨.hbm, 37, rfl⟩
abbrev main_v19 : Ref sig .tc := ⟨.hbm, 38, rfl⟩
abbrev main_c_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_5 : Ref sig .tc := ⟨.hbm, 46, rfl⟩
abbrev main_v26 : Ref sig .tc := ⟨.hbm, 47, rfl⟩
abbrev main_v27 : Ref sig .tc := ⟨.hbm, 48, rfl⟩
abbrev main_c_6 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_7 : Ref sig .tc := ⟨.hbm, 56, rfl⟩
abbrev main_v34 : Ref sig .tc := ⟨.hbm, 57, rfl⟩
abbrev main_cst_8 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_9 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_c_10 : Ref sig .tc := ⟨.hbm, 71, rfl⟩
abbrev main_v46 : Ref sig .tc := ⟨.hbm, 72, rfl⟩
abbrev main_v47 : Ref sig .tc := ⟨.hbm, 73, rfl⟩
abbrev main_c_11 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_12 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_call1_cst : Ref sig .tc := ⟨.hbm, 89, rfl⟩
abbrev main_call1_v0 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_c_13 : Ref sig .tc := ⟨.hbm, 98, rfl⟩
abbrev main_v68 : Ref sig .tc := ⟨.hbm, 99, rfl⟩
abbrev main_v69 : Ref sig .tc := ⟨.hbm, 100, rfl⟩
abbrev main_c_14 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_15 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_call2_cst : Ref sig .tc := ⟨.hbm, 116, rfl⟩
abbrev main_call2_v0 : Ref sig .tc := ⟨.hbm, 117, rfl⟩
abbrev main_v83 : Ref sig .tc := ⟨.hbm, 118, rfl⟩
abbrev main_cst_16 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_cst_17 : Ref sig .tc := ⟨.hbm, 137, rfl⟩
abbrev main_v101 : Ref sig .tc := ⟨.hbm, 138, rfl⟩
abbrev main_v102 : Ref sig .tc := ⟨.hbm, 139, rfl⟩
abbrev main_cst_18 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_c_19 : Ref sig .tc := ⟨.hbm, 149, rfl⟩
abbrev main_v111 : Ref sig .tc := ⟨.hbm, 150, rfl⟩
abbrev main_v112 : Ref sig .tc := ⟨.hbm, 151, rfl⟩
abbrev main_c_20 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_cst_21 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_call3_cst : Ref sig .tc := ⟨.hbm, 167, rfl⟩
abbrev main_call3_v0 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_c_22 : Ref sig .tc := ⟨.hbm, 176, rfl⟩
abbrev main_v133 : Ref sig .tc := ⟨.hbm, 177, rfl⟩
abbrev main_v134 : Ref sig .tc := ⟨.hbm, 178, rfl⟩
abbrev main_c_23 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_cst_24 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_call4_cst : Ref sig .tc := ⟨.hbm, 194, rfl⟩
abbrev main_call4_v0 : Ref sig .tc := ⟨.hbm, 195, rfl⟩
abbrev main_v148 : Ref sig .tc := ⟨.hbm, 196, rfl⟩
abbrev main_cst_25 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_cst_26 : Ref sig .tc := ⟨.hbm, 215, rfl⟩
abbrev main_v166 : Ref sig .tc := ⟨.hbm, 216, rfl⟩
abbrev main_v167 : Ref sig .tc := ⟨.hbm, 217, rfl⟩
abbrev main_cst_27 : Ref sig .tc := ⟨.hbm, 218, rfl⟩
abbrev main_v168 : Ref sig .tc := ⟨.hbm, 219, rfl⟩
abbrev main_v169 : Ref sig .tc := ⟨.hbm, 220, rfl⟩
abbrev main_v170 : Ref sig .tc := ⟨.hbm, 221, rfl⟩
abbrev main_v171 : Ref sig .tc := ⟨.hbm, 222, rfl⟩
abbrev main_v172 : Ref sig .tc := ⟨.hbm, 223, rfl⟩
abbrev main_v173 : Ref sig .tc := ⟨.hbm, 224, rfl⟩
abbrev main_v174 : Ref sig .tc := ⟨.hbm, 225, rfl⟩
abbrev main_v175 : Ref sig .tc := ⟨.hbm, 226, rfl⟩
abbrev main_c_28 : Ref sig .tc := ⟨.hbm, 227, rfl⟩
abbrev main_v176 : Ref sig .tc := ⟨.hbm, 228, rfl⟩
abbrev main_v177 : Ref sig .tc := ⟨.hbm, 229, rfl⟩
abbrev main_c_29 : Ref sig .tc := ⟨.hbm, 230, rfl⟩
abbrev main_v178 : Ref sig .tc := ⟨.hbm, 231, rfl⟩
abbrev main_v179 : Ref sig .tc := ⟨.hbm, 232, rfl⟩
abbrev main_v180 : Ref sig .tc := ⟨.hbm, 233, rfl⟩
abbrev main_v181 : Ref sig .tc := ⟨.hbm, 234, rfl⟩
abbrev main_v182 : Ref sig .tc := ⟨.hbm, 235, rfl⟩
abbrev main_v183 : Ref sig .tc := ⟨.hbm, 236, rfl⟩
abbrev main_v184 : Ref sig .tc := ⟨.hbm, 237, rfl⟩
abbrev main_cst_30 : Ref sig .tc := ⟨.hbm, 238, rfl⟩
abbrev main_v185 : Ref sig .tc := ⟨.hbm, 239, rfl⟩
abbrev main_v186 : Ref sig .tc := ⟨.hbm, 240, rfl⟩
abbrev main_v187 : Ref sig .tc := ⟨.hbm, 241, rfl⟩
abbrev main_v188 : Ref sig .tc := ⟨.hbm, 242, rfl⟩
abbrev main_v189 : Ref sig .tc := ⟨.hbm, 243, rfl⟩
abbrev main_v190 : Ref sig .tc := ⟨.hbm, 244, rfl⟩
abbrev main_call5_cst : Ref sig .tc := ⟨.hbm, 245, rfl⟩
abbrev main_call5_v0 : Ref sig .tc := ⟨.hbm, 246, rfl⟩
abbrev main_v191 : Ref sig .tc := ⟨.hbm, 247, rfl⟩
abbrev main_v192 : Ref sig .tc := ⟨.hbm, 248, rfl⟩
abbrev main_v193 : Ref sig .tc := ⟨.hbm, 249, rfl⟩
abbrev main_v194 : Ref sig .tc := ⟨.hbm, 250, rfl⟩
abbrev main_v195 : Ref sig .tc := ⟨.hbm, 251, rfl⟩
abbrev main_v196 : Ref sig .tc := ⟨.hbm, 252, rfl⟩
abbrev main_v197 : Ref sig .tc := ⟨.hbm, 253, rfl⟩
abbrev main_c_31 : Ref sig .tc := ⟨.hbm, 254, rfl⟩
abbrev main_v198 : Ref sig .tc := ⟨.hbm, 255, rfl⟩
abbrev main_v199 : Ref sig .tc := ⟨.hbm, 256, rfl⟩
abbrev main_c_32 : Ref sig .tc := ⟨.hbm, 257, rfl⟩
abbrev main_v200 : Ref sig .tc := ⟨.hbm, 258, rfl⟩
abbrev main_v201 : Ref sig .tc := ⟨.hbm, 259, rfl⟩
abbrev main_v202 : Ref sig .tc := ⟨.hbm, 260, rfl⟩
abbrev main_v203 : Ref sig .tc := ⟨.hbm, 261, rfl⟩
abbrev main_v204 : Ref sig .tc := ⟨.hbm, 262, rfl⟩
abbrev main_v205 : Ref sig .tc := ⟨.hbm, 263, rfl⟩
abbrev main_v206 : Ref sig .tc := ⟨.hbm, 264, rfl⟩
abbrev main_cst_33 : Ref sig .tc := ⟨.hbm, 265, rfl⟩
abbrev main_v207 : Ref sig .tc := ⟨.hbm, 266, rfl⟩
abbrev main_v208 : Ref sig .tc := ⟨.hbm, 267, rfl⟩
abbrev main_v209 : Ref sig .tc := ⟨.hbm, 268, rfl⟩
abbrev main_v210 : Ref sig .tc := ⟨.hbm, 269, rfl⟩
abbrev main_v211 : Ref sig .tc := ⟨.hbm, 270, rfl⟩
abbrev main_v212 : Ref sig .tc := ⟨.hbm, 271, rfl⟩
abbrev main_call6_cst : Ref sig .tc := ⟨.hbm, 272, rfl⟩
abbrev main_call6_v0 : Ref sig .tc := ⟨.hbm, 273, rfl⟩
abbrev main_v213 : Ref sig .tc := ⟨.hbm, 274, rfl⟩
abbrev main_cst_34 : Ref sig .tc := ⟨.hbm, 275, rfl⟩
abbrev main_v214 : Ref sig .tc := ⟨.hbm, 276, rfl⟩
abbrev main_v215 : Ref sig .tc := ⟨.hbm, 277, rfl⟩
abbrev main_v216 : Ref sig .tc := ⟨.hbm, 278, rfl⟩
abbrev main_v217 : Ref sig .tc := ⟨.hbm, 279, rfl⟩
abbrev main_v218 : Ref sig .tc := ⟨.hbm, 280, rfl⟩
abbrev main_v219 : Ref sig .tc := ⟨.hbm, 281, rfl⟩
abbrev main_v220 : Ref sig .tc := ⟨.hbm, 282, rfl⟩
abbrev main_v221 : Ref sig .tc := ⟨.hbm, 283, rfl⟩
abbrev main_v222 : Ref sig .tc := ⟨.hbm, 284, rfl⟩
abbrev main_v223 : Ref sig .tc := ⟨.hbm, 285, rfl⟩
abbrev main_v224 : Ref sig .tc := ⟨.hbm, 286, rfl⟩
abbrev main_v225 : Ref sig .tc := ⟨.hbm, 287, rfl⟩
abbrev main_v226 : Ref sig .tc := ⟨.hbm, 288, rfl⟩
abbrev main_v227 : Ref sig .tc := ⟨.hbm, 289, rfl⟩
abbrev main_v228 : Ref sig .tc := ⟨.hbm, 290, rfl⟩
abbrev main_v229 : Ref sig .tc := ⟨.hbm, 291, rfl⟩
abbrev main_v230 : Ref sig .tc := ⟨.hbm, 292, rfl⟩
abbrev main_cst_35 : Ref sig .tc := ⟨.hbm, 293, rfl⟩
abbrev main_v231 : Ref sig .tc := ⟨.hbm, 294, rfl⟩
abbrev main_v232 : Ref sig .tc := ⟨.hbm, 295, rfl⟩
abbrev main_v233 : Ref sig .tc := ⟨.hbm, 296, rfl⟩
abbrev main_v234 : Ref sig .tc := ⟨.hbm, 297, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S100000_S900000_d0 : Shape.Concatenates [S800000, S100000] S900000 0
  slices_S2x800000_S1x800000_1_0 : S2x800000.Slices ![1, 0] S1x800000
  bcast_S_S100000 : S_.BroadcastsInDim S100000 (![] : Fin 0 → Fin S100000.rank)
  bcast_S900000_S900000x1_0 : S900000.BroadcastsInDim S900000x1 (![0] : Fin 1 → Fin S900000x1.rank)
  bcast_S_S900000 : S_.BroadcastsInDim S900000 (![] : Fin 0 → Fin S900000.rank)
  bcast_S_S64 : S_.BroadcastsInDim S64 (![] : Fin 0 → Fin S64.rank)
  bcast_S100000_S100000x1_0 : S100000.BroadcastsInDim S100000x1 (![0] : Fin 1 → Fin S100000x1.rank)
  slices_S3x64x128_S1x64x128_0_0_0 : S3x64x128.Slices ![0, 0, 0] S1x64x128
  shapeCasts_S1x64x128_S64x128 : S1x64x128.ShapeCasts S64x128
  slices_S3x128_S1x128_0_0 : S3x128.Slices ![0, 0] S1x128
  shapeCasts_S1x128_S128 : S1x128.ShapeCasts S128
  bcast_S900000x1_S900000x128_0_1 : S900000x1.BroadcastsInDim S900000x128 (![0, 1] : Fin 2 → Fin S900000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S3x128x64_S1x128x64_0_0_0 : S3x128x64.Slices ![0, 0, 0] S1x128x64
  shapeCasts_S1x128x64_S128x64 : S1x128x64.ShapeCasts S128x64
  slices_S3x64_S1x64_0_0 : S3x64.Slices ![0, 0] S1x64
  shapeCasts_S1x64_S64 : S1x64.ShapeCasts S64
  bcast_S900000x1_S900000x64_0_1 : S900000x1.BroadcastsInDim S900000x64 (![0, 1] : Fin 2 → Fin S900000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64x64 : S_.BroadcastsInDim S64x64 (![] : Fin 0 → Fin S64x64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  concatenates_S64x64_S64x64_S64x128_d1 : Shape.Concatenates [S64x64, S64x64] S64x128 1
  bcast_S1x64_S64x64_0_1 : S1x64.BroadcastsInDim S64x64 (![0, 1] : Fin 2 → Fin S64x64.rank)
  slices_S3x64x128_S1x64x128_1_0_0 : S3x64x128.Slices ![1, 0, 0] S1x64x128
  slices_S3x128_S1x128_1_0 : S3x128.Slices ![1, 0] S1x128
  slices_S3x128x64_S1x128x64_1_0_0 : S3x128x64.Slices ![1, 0, 0] S1x128x64
  slices_S3x64_S1x64_1_0 : S3x64.Slices ![1, 0] S1x64
  slices_S3x64x128_S1x64x128_2_0_0 : S3x64x128.Slices ![2, 0, 0] S1x64x128
  slices_S3x128_S1x128_2_0 : S3x128.Slices ![2, 0] S1x128
  slices_S3x128x64_S1x128x64_2_0_0 : S3x128x64.Slices ![2, 0, 0] S1x128x64
  slices_S3x64_S1x64_2_0 : S3x64.Slices ![2, 0] S1x64
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  scatter_S64_S100000x1_S100000_n_0_0_1_wf : ScatterDims.WF S64 S100000x1 S100000 [] [0] [0] 1
  dot_S100000x64_S64x128_S100000x128_1_0_0_1_n_n_wf : DotDims.WF S100000x64 S64x128 S100000x128 [1] [0] [0] [1] [] []
  gather_S100000x128_S900000x1_S900000x128_1_0_n_n_0_1_1128_wf : GatherDims.WF S100000x128 S900000x1 S900000x128 [1] [0] [] [0] [] 1 ![1, 128]
  scatter_S100000x128_S900000x1_S900000x128_1_0_0_1_wf : ScatterDims.WF S100000x128 S900000x1 S900000x128 [1] [0] [0] 1
  dot_S100000x128_S128x64_S100000x64_1_0_0_1_n_n_wf : DotDims.WF S100000x128 S128x64 S100000x64 [1] [0] [0] [1] [] []
  gather_S100000x64_S900000x1_S900000x64_1_0_n_n_0_1_164_wf : GatherDims.WF S100000x64 S900000x1 S900000x64 [1] [0] [] [0] [] 1 ![1, 64]
  scatter_S100000x64_S900000x1_S900000x64_1_0_0_1_wf : ScatterDims.WF S100000x64 S900000x1 S900000x64 [1] [0] [0] 1
  scatter_S64x64_S100000x1_S100000x64_1_0_0_1_wf : ScatterDims.WF S64x64 S100000x1 S100000x64 [1] [0] [0] 1
  dot_S64x128_S128x64_S64x64_1_0_0_1_n_n_wf : DotDims.WF S64x128 S128x64 S64x64 [1] [0] [0] [1] [] []

variable [Facts₀]

def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S900000x1_S900000x128_1_0_n_n_0_1_1128 : GatherDims S100000x128 S900000x1 S900000x128 where
  offsetDims := [1]
  collapsedSliceDims := [0]
  operandBatchingDims := []
  startIndicesBatchingDims := []
  startIndexMap := [0]
  indexVectorDim := 1
  sliceSizes := ![1, 128]
  wf := gather_S100000x128_S900000x1_S900000x128_1_0_n_n_0_1_1128_wf
def scatter_S100000x128_S900000x1_S900000x128_1_0_0_1 : ScatterDims S100000x128 S900000x1 S900000x128 where
  updateWindowDims := [1]
  insertedWindowDims := [0]
  scatterDimsToOperandDims := [0]
  indexVectorDim := 1
  wf := scatter_S100000x128_S900000x1_S900000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S900000x1_S900000x64_1_0_n_n_0_1_164 : GatherDims S100000x64 S900000x1 S900000x64 where
  offsetDims := [1]
  collapsedSliceDims := [0]
  operandBatchingDims := []
  startIndicesBatchingDims := []
  startIndexMap := [0]
  indexVectorDim := 1
  sliceSizes := ![1, 64]
  wf := gather_S100000x64_S900000x1_S900000x64_1_0_n_n_0_1_164_wf
def scatter_S100000x64_S900000x1_S900000x64_1_0_0_1 : ScatterDims S100000x64 S900000x1 S900000x64 where
  updateWindowDims := [1]
  insertedWindowDims := [0]
  scatterDimsToOperandDims := [0]
  indexVectorDim := 1
  wf := scatter_S100000x64_S900000x1_S900000x64_1_0_0_1_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf

class Facts : Prop extends Facts₀ where

variable [Facts]
-- ==== Proof.KbR0.lean ====
import proofs.«415816_j88759794139277_3_alg».proof.Proof.Gen.Kernel.Launch
import proofs.«415816_j88759794139277_3_alg».proof.Proof.Gen.Kernel.Skeleton
import proofs.«415816_j88759794139277_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S5000x64 := Rect.unit (s := S5000x64) ![0, 0] S5000x64.size inb_S5000x64_S5000x64_0_0
abbrev r0_1 : Rect S5000x1 := Rect.unit (s := S5000x1) ![0, 0] S5000x1.size inb_S5000x1_S5000x1_0_0
abbrev r0_2 : Rect S64x256 := Rect.unit (s := S64x256) ![0, 0] S64x256.size inb_S64x256_S64x256_0_0
abbrev r0_3 : Rect S1x256 := Rect.unit (s := S1x256) ![0, 0] S1x256.size inb_S1x256_S1x256_0_0
abbrev r0_4 : Rect S2x128x64 := Rect.unit (s := S2x128x64) ![0, 0, 0] S2x128x64.size inb_S2x128x64_S2x128x64_0_0_0
abbrev r0_5 : Rect S5000x128 := Rect.unit (s := S5000x128) ![0, 0] S5000x128.size inb_S5000x128_S5000x128_0_0

def out0_5 (x0 : Vec F S5000x64 .f32) (x1 : Vec F S5000x1 .f32) (x2 : Vec F S64x256 .f32) (x3 : Vec F S1x256 .f32)
    (x4 : Vec F S2x128x64 .f32) : Vec F S5000x128 .f32 :=
  View.canon [⟨r0_5, k0_pay1 (View.ld x1 r0_1) (View.ld x0 r0_0) (View.ld x2 r0_2) (View.ld x3 r0_3) (View.ld x4 r0_4)⟩]

set_option maxHeartbeats 1000000 in
theorem sound_kernel0 (c : Dev nD) (E : Set ℕ) (i : grid0.Coords)
    (arg1 : Memref sig .tc .vmem S5000x64 .f32) (harg1 : arg1.IsWhole) (arg2 : Memref sig .tc .vmem S5000x1 .f32) (harg2 : arg2.IsWhole)
    (arg3 : Memref sig .tc .vmem S64x256 .f32) (harg3 : arg3.IsWhole) (arg4 : Memref sig .tc .vmem S1x256 .f32) (harg4 : arg4.IsWhole)
    (arg5 : Memref sig .tc .vmem S2x128x64 .f32) (harg5 : arg5.IsWhole) (arg6 : Memref sig .tc .vmem S5000x128 .f32) (harg6 : arg6.IsWhole)
    (x0 : Vec F S5000x64 .f32) (x1 : Vec F S5000x1 .f32) (x2 : Vec F S64x256 .f32) (x3 : Vec F S1x256 .f32) (x4 : Vec F S2x128x64 .f32)
    (K : PUnit → sProp 𝕄) :
    iprop(owns c arg1 fullShare x0 ∗ owns c arg2 fullShare x1 ∗ owns c arg3 fullShare x2
        ∗ owns c arg4 fullShare x3 ∗ owns c arg5 fullShare x4 ∗ (∃ d, owns c arg6 fullShare d)
        ∗ (iprop(owns c arg1 fullShare x0 ∗ owns c arg2 fullShare x1 ∗ owns c arg3 fullShare x2
            ∗ owns c arg4 fullShare x3 ∗ owns c arg5 fullShare x4
            ∗ owns c arg6 fullShare (out0_5 x0 x1 x2 x3 x4)) -∗ K ⟨⟩))
      ⊢ wp frame (wpE (defs₀ (F := F)) Variants.none c none) E
          (cc0__layer1_fused_kernel i arg1 harg1 arg2 harg2 arg3 harg3 arg4 harg4 arg5 harg5 arg6 harg6) K := by
  simp only [cc0__layer1_fused_kernel_eq_skeleton]; unfold cc0__layer1_fused_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (View.cover_of_tiled _ S5000x128.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem after0_5 (c : Dev nD) (t : Fin cfg0.N) :
    (dat0 V c).after 5 t = out0_5 (iblk0 V c 0 t) (iblk0 V c 1 t) (iblk0 V c 2 t) (iblk0 V c 3 t) (iblk0 V c 4 t) := by
  dsimp only [dat0]

section

variable (c : Dev nD) (t : Fin cfg0.N)

theorem before0_0 (d) : (dat0 V c).before 0 t d = iblk0 V c 0 t :=
  ((dat0 V c).before_in_eq_fetched 0 rfl (fun _ => rfl) (fun _ _ _ => rfl) (fun _ => rfl) t d).trans rfl
theorem before0_1 (d) : (dat0 V c).before 1 t d = iblk0 V c 1 t :=
  ((dat0 V c).before_in_eq_fetched 1 rfl (fun _ => rfl) (fun _ _ _ => rfl) (fun _ => rfl) t d).trans rfl
theorem before0_2 (d) : (dat0 V c).before 2 t d = iblk0 V c 2 t :=
  ((dat0 V c).before_in_eq_fetched 2 rfl (fun _ => rfl) (fun _ _ _ => rfl) (fun _ => rfl) t d).trans rfl
theorem before0_3 (d) : (dat0 V c).before 3 t d = iblk0 V c 3 t :=
  ((dat0 V c).before_in_eq_fetched 3 rfl (fun _ => rfl) (fun _ _ _ => rfl) (fun _ => rfl) t d).trans rfl
theorem before0_4 (d) : (dat0 V c).before 4 t d = iblk0 V c 4 t :=
  ((dat0 V c).before_in_eq_fetched 4 rfl (fun _ => rfl) (fun _ _ _ => rfl) (fun _ => rfl) t d).trans rfl

theorem sound_body0 (P Q : sProp 𝕄) :
    iprop(P ∗ Q ∗ bigSep Finset.univ fun w : Fin 6 =>
        iprop(∃ d, owns c ((cfg0.win w).stage (cfg0.slots t w)) fullShare ((dat0 V c).before w t d)))
      ⊢ wp frame (wpE (defs₀ (F := F)) Variants.none c none) Set.univ (bodyAt0 t) fun _ => iprop(P ∗ Q
        ∗ bigSep Finset.univ fun w : Fin 6 => owns c ((cfg0.win w).stage (cfg0.slots t w)) fullShare ((dat0 V c).after w t)) := by
  rw [bigSep_W0, bigSep_W0]
  simp only [before0_0, before0_1, before0_2, before0_3, before0_4]
  dsimp only [dat0]
  iintro ⟨HP, HQ, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _
    (iblk0 V c 0 t) (iblk0 V c 1 t) (iblk0 V c 2 t) (iblk0 V c 3 t) (iblk0 V c 4 t) _)
  iframe H0 H1 H2 H3 H4
  isplitl [H5]; · iexists _; iexact H5
  iintro ⟨H0, H1, H2, H3, H4, H5⟩
  iframe

end

theorem body_obligation0 (c : Dev nD) : BodyObligation (dat0 (F := F) V c) (defs₀ (F := F)) Variants.none () Set.univ :=
  fun t => sound_body0 V c t _ _

end Cert.Kernel.Hand

end
-- ==== Proof.KbR1Runs.lean ====
import proofs.«415816_j88759794139277_3_alg».proof.Proof.Gen.Kernel.Launch
import proofs.«415816_j88759794139277_3_alg».proof.Proof.Gen.Kernel.Skeleton
import proofs.«415816_j88759794139277_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end Region1

abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 20 = 0 :=
  (by decide +kernel : ∀ t : Fin grid1.N, cond1_0 (grid1.coords t) ↔ t.val % 20 = 0)

abbrev cond1_1 (i : grid1.Coords) : Prop := k1_cond2 i = 1#1
theorem hcond1_1 : ∀ t : Fin cfg1.N, cond1_1 (grid1.coords t) ↔ t.val % 20 = 19 :=
  (by decide +kernel : ∀ t : Fin grid1.N, cond1_1 (grid1.coords t) ↔ t.val % 20 = 19)

theorem liveAt1 : ∀ (t : Fin cfg1.N) (w : Fin cfg1.W), w.val < 4 ∨ cond1_1 (grid1.coords t) → cfg1.idle w (grid1.coords t) = false := by decide +kernel
theorem idleAt1 : ∀ (t : Fin cfg1.N) (w : Fin cfg1.W), 4 ≤ w.val → ¬cond1_1 (grid1.coords t) → cfg1.idle w (grid1.coords t) = true ∧ (cfg1.win w).flush t = false := by decide +kernel

abbrev VO1_4 : View sig .tc .vmem S64x128 .f32 := (Memref.whole cc1_stg4_0 : Memref sig .tc .vmem S64x128 .f32).view
abbrev VO1_5 : View sig .tc .vmem S1x64 .f32 := (Memref.whole cc1_stg5_0 : Memref sig .tc .vmem S1x64 .f32).view
abbrev ms1_0 (t : Fin cfg1.N) : Memref sig .tc .vmem S5000x1 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S5000x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S5000x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S64x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x64 .f32 := win1_5.stage (cfg1.slots t 5)
abbrev hs1_5 (t : Fin cfg1.N) : (ms1_5 t).IsWhole := hstage1_5 ((cfg1.slots t 5).cast nbuf1_5)
abbrev scM1_0 : Memref sig .tc .vmem S64x128 .f32 := Memref.whole cc1_scratch0
abbrev scM1_1 : Memref sig .tc .vmem S1x64 .f32 := Memref.whole cc1_scratch1
abbrev VS1_0 : View sig .tc .vmem S64x128 .f32 := scM1_0.view
abbrev VS1_1 : View sig .tc .vmem S1x64 .f32 := scM1_1.view

abbrev anyAt (c : Dev nD) (r : Ref sig .tc) : sProp 𝕄 :=
  iprop(∃ f : Buf (Elt F) ((c : Thread nD τ).loc r), ((c : Thread nD τ).loc r) ↦{fullShare} f)

def scopedWith1 (c : Dev nD) (P : sProp 𝕄) : sProp 𝕄 :=
  iprop(anyAt (F := F) c cc0_stg0_0 ∗ anyAt (F := F) c cc0_stg0_1 ∗ anyAt (F := F) c cc0_stg1_0 ∗ anyAt (F := F) c cc0_stg1_1 ∗ anyAt (F := F) c cc0_stg2_0 ∗ anyAt (F := F) c cc0_stg3_0 ∗ anyAt (F := F) c cc0_stg4_0 ∗ anyAt (F := F) c cc0_stg5_0 ∗ anyAt (F := F) c cc0_stg5_1 ∗ P)

def others1 (c : Dev nD) : sProp 𝕄 :=
  iprop(anyAt (F := F) c cc0_stg0_0 ∗ anyAt (F := F) c cc0_stg0_1 ∗ anyAt (F := F) c cc0_stg1_0 ∗ anyAt (F := F) c cc0_stg1_1 ∗ anyAt (F := F) c cc0_stg2_0 ∗ anyAt (F := F) c cc0_stg3_0 ∗ anyAt (F := F) c cc0_stg4_0 ∗ anyAt (F := F) c cc0_stg5_0 ∗ anyAt (F := F) c cc0_stg5_1)

theorem scopedWith1_out (c : Dev nD) (P : sProp 𝕄) : scopedWith1 (F := F) c P ⊢ iprop(others1 (F := F) c ∗ P) := by
  unfold scopedWith1 others1
  iintro ⟨H0, H1, H2, H3, H4, H5, H6, H7, H8, HP⟩
  iframe

theorem scopedWith1_in (c : Dev nD) (P : sProp 𝕄) : iprop(others1 (F := F) c ∗ P) ⊢ scopedWith1 (F := F) c P := by
  unfold scopedWith1 others1
  iintro ⟨⟨H0, H1, H2, H3, H4, H5, H6, H7, H8⟩, HP⟩
  iframe

theorem PhiA1_eq (c : Dev nD) :
    (Pipeline.ΦA spec1 c : sProp 𝕄)
      = iprop(scopedWith1 (F := F) c iprop((∃ d, owns (c : Thread nD τ) scM1_0 fullShare d) ∗ (∃ d, owns (c : Thread nD τ) scM1_1 fullShare d)) ∗ (∃ r, prngReg c r)) := by
  unfold Pipeline.ΦA scopedWith1 anyAt; rw [scopedRest1_eq]; simp only [scM1_0, scM1_1, owns_whole]; try rfl

end Cert.Kernel.Hand

end
-- ==== Proof.KbR1RunA.lean ====
import proofs.«415816_j88759794139277_3_alg».proof.Proof.KbR1Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 1000000 in
noncomputable def kernelRun1_A (c : Dev nD) (i : grid1.Coords) (arg1 : Memref sig .tc .vmem S5000x1 .i32) (harg1 : arg1.IsWhole) (arg2 : Memref sig .tc .vmem S5000x128 .f32) (harg2 : arg2.IsWhole) (arg3 : Memref sig .tc .vmem S1x128 .f32) (harg3 : arg3.IsWhole) (arg4 : Memref sig .tc .vmem S5000x1 .f32) (harg4 : arg4.IsWhole) (arg5 : Memref sig .tc .vmem S64x128 .f32) (harg5 : arg5.IsWhole) (arg6 : Memref sig .tc .vmem S1x64 .f32) (harg6 : arg6.IsWhole) (arg7 : Memref sig .tc .vmem S64x128 .f32) (harg7 : arg7.IsWhole) (arg8 : Memref sig .tc .vmem S1x64 .f32) (harg8 : arg8.IsWhole)
    (x0 : Vec F S5000x1 .i32) (x1 : Vec F S5000x128 .f32) (x2 : Vec F S1x128 .f32) (x3 : Vec F S5000x1 .f32) (hc0 : cond1_0 i) (hc1 : ¬cond1_1 i) :
    Σ' (L4 : List (View.Piece (Elt F) S64x128 .f32)) (L5 : List (View.Piece (Elt F) S1x64 .f32)) (LS0 : List (View.Piece (Elt F) S64x128 .f32)), { LS1 : List (View.Piece (Elt F) S1x64 .f32) //
      ∀ (xi4 : Vec F S64x128 .f32) (xi5 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xi5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__pool_kernel i arg1 harg1 arg2 harg2 arg3 harg3 arg4 harg4 arg5 harg5 arg6 harg6 arg7 harg7 arg8 harg8) K } := by
  refine ⟨[], [], ?_, ?_, fun xi4 xi5 E K => ?run⟩
  case run =>
    simp only [cc1__pool_kernel_eq_skeleton]; unfold cc1__pool_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    iexists _; iexact HS1

end Cert.Kernel.Hand

end
-- ==== Proof.KbR1RunB.lean ====
import proofs.«415816_j88759794139277_3_alg».proof.Proof.KbR1Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 1000000 in
noncomputable def kernelRun1_B (c : Dev nD) (i : grid1.Coords) (arg1 : Memref sig .tc .vmem S5000x1 .i32) (harg1 : arg1.IsWhole) (arg2 : Memref sig .tc .vmem S5000x128 .f32) (harg2 : arg2.IsWhole) (arg3 : Memref sig .tc .vmem S1x128 .f32) (harg3 : arg3.IsWhole) (arg4 : Memref sig .tc .vmem S5000x1 .f32) (harg4 : arg4.IsWhole) (arg5 : Memref sig .tc .vmem S64x128 .f32) (harg5 : arg5.IsWhole) (arg6 : Memref sig .tc .vmem S1x64 .f32) (harg6 : arg6.IsWhole) (arg7 : Memref sig .tc .vmem S64x128 .f32) (harg7 : arg7.IsWhole) (arg8 : Memref sig .tc .vmem S1x64 .f32) (harg8 : arg8.IsWhole)
    (x0 : Vec F S5000x1 .i32) (x1 : Vec F S5000x128 .f32) (x2 : Vec F S1x128 .f32) (x3 : Vec F S5000x1 .f32) (hc0 : ¬cond1_0 i) (hc1 : ¬cond1_1 i) (xs0 : Vec F S64x128 .f32) (xs1 : Vec F S1x64 .f32) :
    Σ' (L4 : List (View.Piece (Elt F) S64x128 .f32)) (L5 : List (View.Piece (Elt F) S1x64 .f32)) (LS0 : List (View.Piece (Elt F) S64x128 .f32)), { LS1 : List (View.Piece (Elt F) S1x64 .f32) //
      ∀ (xi4 : Vec F S64x128 .f32) (xi5 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xi5 ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__pool_kernel i arg1 harg1 arg2 harg2 arg3 harg3 arg4 harg4 arg5 harg5 arg6 harg6 arg7 harg7 arg8 harg8) K } := by
  refine ⟨[], [], ?_, ?_, fun xi4 xi5 E K => ?run⟩
  case run =>
    simp only [cc1__pool_kernel_eq_skeleton]; unfold cc1__pool_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    iexists _; iexact HS1

end Cert.Kernel.Hand

end
-- ==== Proof.KbR1RunC.lean ====
import proofs.«415816_j88759794139277_3_alg».proof.Proof.KbR1Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 1000000 in
noncomputable def kernelRun1_C (c : Dev nD) (i : grid1.Coords) (arg1 : Memref sig .tc .vmem S5000x1 .i32) (harg1 : arg1.IsWhole) (arg2 : Memref sig .tc .vmem S5000x128 .f32) (harg2 : arg2.IsWhole) (arg3 : Memref sig .tc .vmem S1x128 .f32) (harg3 : arg3.IsWhole) (arg4 : Memref sig .tc .vmem S5000x1 .f32) (harg4 : arg4.IsWhole) (arg5 : Memref sig .tc .vmem S64x128 .f32) (harg5 : arg5.IsWhole) (arg6 : Memref sig .tc .vmem S1x64 .f32) (harg6 : arg6.IsWhole) (arg7 : Memref sig .tc .vmem S64x128 .f32) (harg7 : arg7.IsWhole) (arg8 : Memref sig .tc .vmem S1x64 .f32) (harg8 : arg8.IsWhole)
    (x0 : Vec F S5000x1 .i32) (x1 : Vec F S5000x128 .f32) (x2 : Vec F S1x128 .f32) (x3 : Vec F S5000x1 .f32) (hc0 : ¬cond1_0 i) (hc1 : cond1_1 i) (xs0 : Vec F S64x128 .f32) (xs1 : Vec F S1x64 .f32) :
    Σ' (L4 : List (View.Piece (Elt F) S64x128 .f32)) (L5 : List (View.Piece (Elt F) S1x64 .f32)) (LS0 : List (View.Piece (Elt F) S64x128 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__pool_kernel i arg1 harg1 arg2 harg2 arg3 harg3 arg4 harg4 arg5 harg5 arg6 harg6 arg7 harg7 arg8 harg8) K } := by
  refine ⟨?_, ?_, ?_, ?_, fun E K => ?run⟩
  case run =>
    simp only [cc1__pool_kernel_eq_skeleton]; unfold cc1__pool_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [HS0]; · iexists _; iexact HS0
    iexists _; iexact HS1

end Cert.Kernel.Hand

end
-- ==== Proof.KbR1.lean ====
import proofs.«415816_j88759794139277_3_alg».proof.Proof.KbR1RunA
import proofs.«415816_j88759794139277_3_alg».proof.Proof.KbR1RunB
import proofs.«415816_j88759794139277_3_alg».proof.Proof.KbR1RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

section Cases
variable (c : Dev nD) (i : grid1.Coords) (arg1 : Memref sig .tc .vmem S5000x1 .i32) (harg1 : arg1.IsWhole) (arg2 : Memref sig .tc .vmem S5000x128 .f32) (harg2 : arg2.IsWhole) (arg3 : Memref sig .tc .vmem S1x128 .f32) (harg3 : arg3.IsWhole) (arg4 : Memref sig .tc .vmem S5000x1 .f32) (harg4 : arg4.IsWhole) (arg5 : Memref sig .tc .vmem S64x128 .f32) (harg5 : arg5.IsWhole) (arg6 : Memref sig .tc .vmem S1x64 .f32) (harg6 : arg6.IsWhole) (arg7 : Memref sig .tc .vmem S64x128 .f32) (harg7 : arg7.IsWhole) (arg8 : Memref sig .tc .vmem S1x64 .f32) (harg8 : arg8.IsWhole) (x0 : Vec F S5000x1 .i32) (x1 : Vec F S5000x128 .f32) (x2 : Vec F S1x128 .f32) (x3 : Vec F S5000x1 .f32)

-- what a point's case leaves in the two results and the two accumulators: the pieces the body stores, read back
section A
variable (hc0 : cond1_0 i) (hc1 : ¬cond1_1 i)
def outs1_A : Vec F S64x128 .f32 × Vec F S1x64 .f32 × Vec F S64x128 .f32 × Vec F S1x64 .f32 :=
  (VO1_4.read (Elt F) (VO1_4.writes (Elt F) VO1_4.junk (kernelRun1_A c i arg1 harg1 arg2 harg2 arg3 harg3 arg4 harg4 arg5 harg5 arg6 harg6 arg7 harg7 arg8 harg8 x0 x1 x2 x3 hc0 hc1).1), VO1_5.read (Elt F) (VO1_5.writes (Elt F) VO1_5.junk (kernelRun1_A c i arg1 harg1 arg2 harg2 arg3 harg3 arg4 harg4 arg5 harg5 arg6 harg6 arg7 harg7 arg8 harg8 x0 x1 x2 x3 hc0 hc1).2.1),
    VS1_0.read (Elt F) (VS1_0.writes (Elt F) VS1_0.junk (kernelRun1_A c i arg1 harg1 arg2 harg2 arg3 harg3 arg4 harg4 arg5 harg5 arg6 harg6 arg7 harg7 arg8 harg8 x0 x1 x2 x3 hc0 hc1).2.2.1), VS1_1.read (Elt F) (VS1_1.writes (Elt F) VS1_1.junk (kernelRun1_A c i arg1 harg1 arg2 harg2 arg3 harg3 arg4 harg4 arg5 harg5 arg6 harg6 arg7 harg7 arg8 harg8 x0 x1 x2 x3 hc0 hc1).2.2.2.1))
theorem scover1_A_0 (y : S64x128.Idx) : ∃ pc ∈ (kernelRun1_A c i arg1 harg1 arg2 harg2 arg3 harg3 arg4 harg4 arg5 harg5 arg6 harg6 arg7 harg7 arg8 harg8 x0 x1 x2 x3 hc0 hc1).2.2.1, y ∈ pc.1.set :=
  View.cover_of_tiledL _ S64x128.size (by sl_kernel_rfl) y
theorem scover1_A_1 (y : S1x64.Idx) : ∃ pc ∈ (kernelRun1_A c i arg1 harg1 arg2 harg2 arg3 harg3 arg4 harg4 arg5 harg5 arg6 harg6 arg7 harg7 arg8 harg8 x0 x1 x2 x3 hc0 hc1).2.2.2.1, y ∈ pc.1.set :=
  View.cover_of_tiledL _ S1x64.size (by sl_kernel_rfl) y
end A

section B
variable (hc0 : ¬cond1_0 i) (hc1 : ¬cond1_1 i) (xs0 : Vec F S64x128 .f32) (xs1 : Vec F S1x64 .f32)
def outs1_B : Vec F S64x128 .f32 × Vec F S1x64 .f32 × Vec F S64x128 .f32 × Vec F S1x64 .f32 :=
  (VO1_4.read (Elt F) (VO1_4.writes (Elt F) VO1_4.junk (kernelRun1_B c i arg1 harg1 arg2 harg2 arg3 harg3 arg4 harg4 arg5 harg5 arg6 harg6 arg7 harg7 arg8 harg8 x0 x1 x2 x3 hc0 hc1 xs0 xs1).1), VO1_5.read (Elt F) (VO1_5.writes (Elt F) VO1_5.junk (kernelRun1_B c i arg1 harg1 arg2 harg2 arg3 harg3 arg4 harg4 arg5 harg5 arg6 harg6 arg7 harg7 arg8 harg8 x0 x1 x2 x3 hc0 hc1 xs0 xs1).2.1),
    VS1_0.read (Elt F) (VS1_0.writes (Elt F) VS1_0.junk (kernelRun1_B c i arg1 harg1 arg2 harg2 arg3 harg3 arg4 harg4 arg5 harg5 arg6 harg6 arg7 harg7 arg8 harg8 x0 x1 x2 x3 hc0 hc1 xs0 xs1).2.2.1), VS1_1.read (Elt F) (VS1_1.writes (Elt F) VS1_1.junk (kernelRun1_B c i arg1 harg1 arg2 harg2 arg3 harg3 arg4 harg4 arg5 harg5 arg6 harg6 arg7 harg7 arg8 harg8 x0 x1 x2 x3 hc0 hc1 xs0 xs1).2.2.2.1))
theorem scover1_B_0 (y : S64x128.Idx) : ∃ pc ∈ (kernelRun1_B c i arg1 harg1 arg2 harg2 arg3 harg3 arg4 harg4 arg5 harg5 arg6 harg6 arg7 harg7 arg8 harg8 x0 x1 x2 x3 hc0 hc1 xs0 xs1).2.2.1, y ∈ pc.1.set :=
  View.cover_of_tiledL _ S64x128.size (by sl_kernel_rfl) y
theorem scover1_B_1 (y : S1x64.Idx) : ∃ pc ∈ (kernelRun1_B c i arg1 harg1 arg2 harg2 arg3 harg3 arg4 harg4 arg5 harg5 arg6 harg6 arg7 harg7 arg8 harg8 x0 x1 x2 x3 hc0 hc1 xs0 xs1).2.2.2.1, y ∈ pc.1.set :=
  View.cover_of_tiledL _ S1x64.size (by sl_kernel_rfl) y
end B

section C
variable (hc0 : ¬cond1_0 i) (hc1 : cond1_1 i) (xs0 : Vec F S64x128 .f32) (xs1 : Vec F S1x64 .f32)
def outs1_C : Vec F S64x128 .f32 × Vec F S1x64 .f32 × Vec F S64x128 .f32 × Vec F S1x64 .f32 :=
  (VO1_4.read (Elt F) (VO1_4.writes (Elt F) VO1_4.junk (kernelRun1_C c i arg1 harg1 arg2 harg2 arg3 harg3 arg4 harg4 arg5 harg5 arg6 harg6 arg7 harg7 arg8 harg8 x0 x1 x2 x3 hc0 hc1 xs0 xs1).1), VO1_5.read (Elt F) (VO1_5.writes (Elt F) VO1_5.junk (kernelRun1_C c i arg1 harg1 arg2 harg2 arg3 harg3 arg4 harg4 arg5 harg5 arg6 harg6 arg7 harg7 arg8 harg8 x0 x1 x2 x3 hc0 hc1 xs0 xs1).2.1),
    VS1_0.read (Elt F) (VS1_0.writes (Elt F) VS1_0.junk (kernelRun1_C c i arg1 harg1 arg2 harg2 arg3 harg3 arg4 harg4 arg5 harg5 arg6 harg6 arg7 harg7 arg8 harg8 x0 x1 x2 x3 hc0 hc1 xs0 xs1).2.2.1), VS1_1.read (Elt F) (VS1_1.writes (Elt F) VS1_1.junk (kernelRun1_C c i arg1 harg1 arg2 harg2 arg3 harg3 arg4 harg4 arg5 harg5 arg6 harg6 arg7 harg7 arg8 harg8 x0 x1 x2 x3 hc0 hc1 xs0 xs1).2.2.2.1))
theorem cover1_C_4 (y : S64x128.Idx) : ∃ pc ∈ (kernelRun1_C c i arg1 harg1 arg2 harg2 arg3 harg3 arg4 harg4 arg5 harg5 arg6 harg6 arg7 harg7 arg8 harg8 x0 x1 x2 x3 hc0 hc1 xs0 xs1).1, y ∈ pc.1.set :=
  View.cover_of_tiledL _ S64x128.size (by sl_kernel_rfl) y
theorem cover1_C_5 (y : S1x64.Idx) : ∃ pc ∈ (kernelRun1_C c i arg1 harg1 arg2 harg2 arg3 harg3 arg4 harg4 arg5 harg5 arg6 harg6 arg7 harg7 arg8 harg8 x0 x1 x2 x3 hc0 hc1 xs0 xs1).2.1, y ∈ pc.1.set :=
  View.cover_of_tiledL _ S1x64.size (by sl_kernel_rfl) y
theorem scover1_C_0 (y : S64x128.Idx) : ∃ pc ∈ (kernelRun1_C c i arg1 harg1 arg2 harg2 arg3 harg3 arg4 harg4 arg5 harg5 arg6 harg6 arg7 harg7 arg8 harg8 x0 x1 x2 x3 hc0 hc1 xs0 xs1).2.2.1, y ∈ pc.1.set :=
  View.cover_of_tiledL _ S64x128.size (by sl_kernel_rfl) y
theorem scover1_C_1 (y : S1x64.Idx) : ∃ pc ∈ (kernelRun1_C c i arg1 harg1 arg2 harg2 arg3 harg3 arg4 harg4 arg5 harg5 arg6 harg6 arg7 harg7 arg8 harg8 x0 x1 x2 x3 hc0 hc1 xs0 xs1).2.2.2.1, y ∈ pc.1.set :=
  View.cover_of_tiledL _ S1x64.size (by sl_kernel_rfl) y
end C

end Cases

section Region1
variable (V : (c : Dev nD) → (b : Ref sig .tc) → Buf (Elt F) ((c : Thread nD τ).loc b))

universe u

-- `f`, a function of a point's coordinates, of the eight memory references the body runs on and of the four input blocks, taken at point `t`
abbrev at1 {β : (i : grid1.Coords) → (a1 : Memref sig .tc .vmem S5000x1 .i32) → a1.IsWhole → (a2 : Memref sig .tc .vmem S5000x128 .f32) → a2.IsWhole → (a3 : Memref sig .tc .vmem S1x128 .f32) → a3.IsWhole → (a4 : Memref sig .tc .vmem S5000x1 .f32) → a4.IsWhole → (a5 : Memref sig .tc .vmem S64x128 .f32) → a5.IsWhole → (a6 : Memref sig .tc .vmem S1x64 .f32) → a6.IsWhole → (a7 : Memref sig .tc .vmem S64x128 .f32) → a7.IsWhole → (a8 : Memref sig .tc .vmem S1x64 .f32) → a8.IsWhole → Vec F S5000x1 .i32 → Vec F S5000x128 .f32 → Vec F S1x128 .f32 → Vec F S5000x1 .f32 → Sort u}
    (c : Dev nD) (t : Fin cfg1.N) (f : ∀ i a1 h1 a2 h2 a3 h3 a4 h4 a5 h5 a6 h6 a7 h7 a8 h8 x0 x1 x2 x3, β i a1 h1 a2 h2 a3 h3 a4 h4 a5 h5 a6 h6 a7 h7 a8 h8 x0 x1 x2 x3) :
    β (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (iblk1 V c 0 t) (iblk1 V c 1 t) (iblk1 V c 2 t) (iblk1 V c 3 t) :=
  f _ _ _ _ _ _ _ _ _ _ _ _ _ _ _ _ _ _ _ _ _

-- the four arrays after point `n`, by recursion on `n`: the first point starts from zero, a later one from what the point before left; no point of the 20 is both first and last
def outsAt1 (c : Dev nD) : (n : ℕ) → n < cfg1.N → Vec F S64x128 .f32 × Vec F S1x64 .f32 × Vec F S64x128 .f32 × Vec F S1x64 .f32
  | 0, hn => at1 V c ⟨0, hn⟩ (outs1_A c) ((hcond1_0 ⟨0, hn⟩).mpr (Nat.zero_mod _)) (fun h => (fun h => by (try dsimp only at h); omega) ((hcond1_1 ⟨0, hn⟩).mp h))
  | n + 1, hn =>
    if h0 : (n + 1) % 20 = 0 then
      at1 V c ⟨n + 1, hn⟩ (outs1_A c) ((hcond1_0 ⟨n + 1, hn⟩).mpr h0) (fun h => (fun h => by (try dsimp only at h); omega) ((hcond1_1 ⟨n + 1, hn⟩).mp h))
    else if h1 : (n + 1) % 20 = 19 then
      at1 V c ⟨n + 1, hn⟩ (outs1_C c) (fun h => h0 ((hcond1_0 ⟨n + 1, hn⟩).mp h)) ((hcond1_1 ⟨n + 1, hn⟩).mpr h1) (outsAt1 c n (Nat.lt_of_succ_lt hn)).2.2.1 (outsAt1 c n (Nat.lt_of_succ_lt hn)).2.2.2
    else
      at1 V c ⟨n + 1, hn⟩ (outs1_B c) (fun h => h0 ((hcond1_0 ⟨n + 1, hn⟩).mp h)) (fun h => h1 ((hcond1_1 ⟨n + 1, hn⟩).mp h)) (outsAt1 c n (Nat.lt_of_succ_lt hn)).2.2.1 (outsAt1 c n (Nat.lt_of_succ_lt hn)).2.2.2

theorem outsAt1_A (c : Dev nD) (t : Fin cfg1.N) (h0 : t.val % 20 = 0) (h1 : ¬t.val % 20 = 19) :
    outsAt1 V c t.val t.isLt = at1 V c t (outs1_A c) ((hcond1_0 t).mpr h0) (fun h => h1 ((hcond1_1 t).mp h)) := by
  obtain ⟨n, hn⟩ := t
  cases n with
  | zero => exact rfl
  | succ n => exact (dif_pos h0).trans rfl

theorem outsAt1_B (c : Dev nD) (t : Fin cfg1.N) (h0 : ¬t.val % 20 = 0) (h1 : ¬t.val % 20 = 19) :
    outsAt1 V c t.val t.isLt = at1 V c t (outs1_B c) (fun h => h0 ((hcond1_0 t).mp h)) (fun h => h1 ((hcond1_1 t).mp h)) (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 20 = 0) (h1 : t.val % 20 = 19) :
    outsAt1 V c t.val t.isLt = at1 V c t (outs1_C c) (fun h => h0 ((hcond1_0 t).mp h)) ((hcond1_1 t).mpr h1) (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact absurd (Nat.zero_mod _) h0
  | succ n => exact (dif_neg h0).trans ((dif_pos h1).trans rfl)

def PhiS1 (c : Dev nD) : (n : ℕ) → n ≤ cfg1.N → sProp 𝕄
  | 0, _ => Pipeline.ΦA spec1 c
  | n + 1, hn => iprop(scopedWith1 (F := F) c iprop(owns (c : Thread nD τ) scM1_0 fullShare ((outsAt1 V c n hn).2.2.1) ∗ owns (c : Thread nD τ) scM1_1 fullShare ((outsAt1 V c n hn).2.2.2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(scopedWith1 (F := F) c iprop(owns (c : Thread nD τ) scM1_0 fullShare ((outsAt1 V c n hn).2.2.1) ∗ owns (c : Thread nD τ) scM1_1 fullShare ((outsAt1 V c n hn).2.2.2)) ∗ (∃ r, prngReg c r)) := rfl

theorem PhiS1_pos (c : Dev nD) (n : ℕ) (h : n ≤ cfg1.N) (hz : n ≠ 0) :
    PhiS1 V c n h = iprop(scopedWith1 (F := F) c iprop(owns (c : Thread nD τ) scM1_0 fullShare ((outsAt1 V c (n - 1) (by omega)).2.2.1) ∗ owns (c : Thread nD τ) scM1_1 fullShare ((outsAt1 V c (n - 1) (by omega)).2.2.2)) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 20 := lt_of_lt_of_eq t.isLt (show cfg1.N = 20 from N_1)
  rw [show (dat1 V c).leavesExact 0 t = owns (c : Thread nD τ) (ms1_0 t) fullShare ((dat1 V c).after 0 t) from by
          unfold Dat.leavesExact; rw [liveAt1 t 0 (Or.inl (by decide))], after1_0]
  rw [show (dat1 V c).leavesExact 1 t = owns (c : Thread nD τ) (ms1_1 t) fullShare ((dat1 V c).after 1 t) from by
          unfold Dat.leavesExact; rw [liveAt1 t 1 (Or.inl (by decide))], after1_1]
  rw [show (dat1 V c).leavesExact 2 t = owns (c : Thread nD τ) (ms1_2 t) fullShare ((dat1 V c).after 2 t) from by
          unfold Dat.leavesExact; rw [liveAt1 t 2 (Or.inl (by decide))], after1_2]
  rw [show (dat1 V c).leavesExact 3 t = owns (c : Thread nD τ) (ms1_3 t) fullShare ((dat1 V c).after 3 t) from by
          unfold Dat.leavesExact; rw [liveAt1 t 3 (Or.inl (by decide))], after1_3]
  by_cases h0 : t.val % 20 = 0
  · by_cases h1 : t.val % 20 = 19
    · exfalso; omega
    · rw [Dat.leavesExact_idle (dat1 V c) 4 t (idleAt1 t 4 (by decide) (fun h => h1 ((hcond1_1 t).mp h))).1 (idleAt1 t 4 (by decide) (fun h => h1 ((hcond1_1 t).mp h))).2]
      rw [Dat.leavesExact_idle (dat1 V c) 5 t (idleAt1 t 5 (by decide) (fun h => h1 ((hcond1_1 t).mp h))).1 (idleAt1 t 5 (by decide) (fun h => h1 ((hcond1_1 t).mp h))).2]
      rw [outsAt1_A V c t h0 h1]
      unfold at1 outs1_A; (try dsimp only)
      by_cases hz : t.val = 0
      · rw [PhiS1_castSucc V c t, PhiS1_zero V c _ _ hz, PhiA1_eq]
        iintro ⟨⟨HΦ, Hg⟩, Ho, ⟨%d0, H0⟩, ⟨%d1, H1⟩, ⟨%d2, H2⟩, ⟨%d3, H3⟩, ⟨%d4, H4⟩, ⟨%d5, H5⟩⟩
        ihave HΦ' := scopedWith1_out c _ $$ HΦ
        icases HΦ' with ⟨Hrest, HS0, HS1⟩
        iapply ((at1 V c t (kernelRun1_A c) ((hcond1_0 t).mpr h0) (fun h => h1 ((hcond1_1 t).mp h))).2.2.2.2 _ _ Set.univ _)
        iframe H0 H1 H2 H3 H4 H5 HS0 HS1
        iintro ⟨H0, H1, H2, H3, H4, H5, ⟨%es0, HS0⟩, ⟨%es1, HS1⟩⟩
        isplitl [Hrest HS0 HS1 Hg]
        · isplitl [Hrest HS0 HS1]
          · iapply scopedWith1_in c _
            isplitl [Hrest]; · iexact Hrest
            isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _)
            unfold owns; iexists _; isplitr
            swap; · iexact HS1
            ipureintro; exact View.read_writes_of_cover _ _ _ _ _ (scover1_A_1 c _ _ _ _ _ _ _ _ _ _ _ _ _ _ _ _ _ _ _ _ _ _ _)
          iexact Hg
        iframe Ho H0 H1 H2 H3
        isplitl [H4]; · iexists _; iexact H4
        iexists _; iexact H5
      · exfalso; omega
  · by_cases h1 : t.val % 20 = 19
    · rw [show (dat1 V c).leavesExact 4 t = owns (c : Thread nD τ) (ms1_4 t) fullShare ((dat1 V c).after 4 t) from by
              unfold Dat.leavesExact; rw [liveAt1 t 4 (Or.inr ((hcond1_1 t).mpr h1))], after1_4]
      rw [show (dat1 V c).leavesExact 5 t = owns (c : Thread nD τ) (ms1_5 t) fullShare ((dat1 V c).after 5 t) from by
              unfold Dat.leavesExact; rw [liveAt1 t 5 (Or.inr ((hcond1_1 t).mpr h1))], after1_5]
      rw [outsAt1_C V c t h0 h1]
      unfold at1 outs1_C; (try dsimp only)
      by_cases hz : t.val = 0
      · exfalso; omega
      · rw [PhiS1_castSucc V c t, PhiS1_pos V c _ _ hz]
        iintro ⟨⟨HΦ, Hg⟩, Ho, ⟨%d0, H0⟩, ⟨%d1, H1⟩, ⟨%d2, H2⟩, ⟨%d3, H3⟩, ⟨%d4, H4⟩, ⟨%d5, H5⟩⟩
        ihave HΦ' := scopedWith1_out c _ $$ HΦ
        icases HΦ' with ⟨Hrest, HS0, HS1⟩
        iapply ((at1 V c t (kernelRun1_C c) (fun h => h0 ((hcond1_0 t).mp h)) ((hcond1_1 t).mpr h1) _ _).2.2.2.2 Set.univ _)
        iframe H0 H1 H2 H3 HS0 HS1
        isplitl [H4]; · iexists _; iexact H4
        isplitl [H5]; · iexists _; iexact H5
        iintro ⟨H0, H1, H2, H3, ⟨%e4, H4⟩, ⟨%e5, H5⟩, ⟨%es0, HS0⟩, ⟨%es1, HS1⟩⟩
        isplitl [Hrest HS0 HS1 Hg]
        · isplitl [Hrest HS0 HS1]
          · iapply scopedWith1_in c _
            isplitl [Hrest]; · iexact Hrest
            isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _ _ _)
            unfold owns; iexists _; isplitr
            swap; · iexact HS1
            ipureintro; exact View.read_writes_of_cover _ _ _ _ _ (scover1_C_1 c _ _ _ _ _ _ _ _ _ _ _ _ _ _ _ _ _ _ _ _ _ _ _ _ _)
          iexact Hg
        iframe Ho H0 H1 H2 H3
        isplitl [H4]
        · unfold owns; iexists _; isplitr
          swap; · iexact H4
          ipureintro; exact View.read_writes_of_cover _ _ _ _ _ (cover1_C_4 c _ _ _ _ _ _ _ _ _ _ _ _ _ _ _ _ _ _ _ _ _ _ _ _ _)
        unfold owns; iexists _; isplitr
        swap; · iexact H5
        ipureintro; exact View.read_writes_of_cover _ _ _ _ _ (cover1_C_5 c _ _ _ _ _ _ _ _ _ _ _ _ _ _ _ _ _ _ _ _ _ _ _ _ _)
    · rw [Dat.leavesExact_idle (dat1 V c) 4 t (idleAt1 t 4 (by decide) (fun h => h1 ((hcond1_1 t).mp h))).1 (idleAt1 t 4 (by decide) (fun h => h1 ((hcond1_1 t).mp h))).2]
      rw [Dat.leavesExact_idle (dat1 V c) 5 t (idleAt1 t 5 (by decide) (fun h => h1 ((hcond1_1 t).mp h))).1 (idleAt1 t 5 (by decide) (fun h => h1 ((hcond1_1 t).mp h))).2]
      rw [outsAt1_B V c t h0 h1]
      unfold at1 outs1_B; (try dsimp only)
      by_cases hz : t.val = 0
      · exfalso; omega
      · rw [PhiS1_castSucc V c t, PhiS1_pos V c _ _ hz]
        iintro ⟨⟨HΦ, Hg⟩, Ho, ⟨%d0, H0⟩, ⟨%d1, H1⟩, ⟨%d2, H2⟩, ⟨%d3, H3⟩, ⟨%d4, H4⟩, ⟨%d5, H5⟩⟩
        ihave HΦ' := scopedWith1_out c _ $$ HΦ
        icases HΦ' with ⟨Hrest, HS0, HS1⟩
        iapply ((at1 V c t (kernelRun1_B c) (fun h => h0 ((hcond1_0 t).mp h)) (fun h => h1 ((hcond1_1 t).mp h)) _ _).2.2.2.2 _ _ Set.univ _)
        iframe H0 H1 H2 H3 H4 H5 HS0 HS1
        iintro ⟨H0, H1, H2, H3, H4, H5, ⟨%es0, HS0⟩, ⟨%es1, HS1⟩⟩
        isplitl [Hrest HS0 HS1 Hg]
        · isplitl [Hrest HS0 HS1]
          · iapply scopedWith1_in c _
            isplitl [Hrest]; · iexact Hrest
            isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _ _ _)
            unfold owns; iexists _; isplitr
            swap; · iexact HS1
            ipureintro; exact View.read_writes_of_cover _ _ _ _ _ (scover1_B_1 c _ _ _ _ _ _ _ _ _ _ _ _ _ _ _ _ _ _ _ _ _ _ _ _ _)
          iexact Hg
        iframe Ho H0 H1 H2 H3
        isplitl [H4]; · iexists _; iexact H4
        iexists _; iexact H5

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨HΦ, Hg⟩
  ihave HΦ' := scopedWith1_out c _ $$ HΦ
  icases HΦ' with ⟨Hrest, HS0, HS1⟩
  iframe Hg
  iapply scopedWith1_in c _
  iframe Hrest
  isplitl [HS0]; · iexists _; iexact HS0
  iexists _; iexact HS1

theorem hout1 (c : Dev nD) : (dat1 V c).Φ (Fin.last cfg1.N) ⊢ Pipeline.ΦA spec1 c :=
  Phi_out1 V c _ (by rw [Fin.val_last]; have : cfg1.N = 20 := N_1; omega)

end Region1

end Cert.Kernel.Hand

end
-- ==== Proof.KbRun.lean ====
import proofs.«415816_j88759794139277_3_alg».proof.Proof.Gen.Kernel.Regions
import proofs.«415816_j88759794139277_3_alg».proof.Proof.KbR0
import proofs.«415816_j88759794139277_3_alg».proof.Proof.KbR1
import Idealize.ShloMosaic.Lib.Pipeline.FrameBody
import Idealize.ShloMosaic.Lib.Pipeline.RegionsLoop
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev T3 : (c : Dev nD) → (b : Ref sig .tc) → Buf (Elt F) ((c : Thread nD τ).loc b) := fun c b => V3 m c b
abbrev T5 (outs : Outs (F := F)) : (c : Dev nD) → (b : Ref sig .tc) → Buf (Elt F) ((c : Thread nD τ).loc b) := fun c b => V5 m outs c b

def U4 (c : Dev nD) : Valuation τ sig (Elt F) :=
  Function.update (V3 m c) main_v64 ((dat0 (T3 m) c).arrAt 5 cfg0.N)

def outsA : Outs (F := F) := fun _ r c => U4 m c r

def U6 (c : Dev nD) : Valuation τ sig (Elt F) :=
  Function.update (Function.update (V5 m (outsA m) c) main_v79_0 ((dat1 (T5 m (outsA m)) c).arrAt 4 cfg1.N))
    main_v79_1 ((dat1 (T5 m (outsA m)) c).arrAt 5 cfg1.N)

def outsOf : Outs (F := F) := fun J r c => if J = 4 then U4 m c r else U6 m c r

theorem outsOf_64 (c : Dev nD) : outsOf m 4 main_v64 c = (dat0 (T3 m) c).arrAt 5 cfg0.N := by
  unfold outsOf U4; rw [if_pos rfl]; exact Function.update_self ..

theorem T5_outs : T5 m (outsOf m) = T5 m (outsA m) := by
  funext c b; unfold T5 V5 V4 outsOf outsA; rw [if_pos rfl]

theorem outsOf_79_0 (c : Dev nD) : outsOf m 6 main_v79_0 c = (dat1 (T5 m (outsOf m)) c).arrAt 4 cfg1.N := by
  rw [T5_outs]; unfold outsOf U6; rw [if_neg (by decide)]
  rw [Function.update_of_ne (StableHlo.devRef_ne_of_ne (by decide) : (Proc.devRef .tc main_v79_0 : DevRef τ sig) ≠ Proc.devRef .tc main_v79_1)]
  exact Function.update_self ..
theorem outsOf_79_1 (c : Dev nD) : outsOf m 6 main_v79_1 c = (dat1 (T5 m (outsOf m)) c).arrAt 5 cfg1.N := by
  rw [T5_outs]; unfold outsOf U6; rw [if_neg (by decide)]
  exact Function.update_self ..

def pdats : (p : Fin 2) → (c : Dev nD) → Dat τ (Elt F) Unit ℕ (UR sig nD τ) ℕ (Pipeline.pin (pcfgs (F := F)) adm p) c
  | ⟨0, _⟩ => fun c => dat0 (T3 m) c
  | ⟨1, _⟩ => fun c => dat1 (T5 m (outsOf m)) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev E : Fin 3 → Dev nD → sProp 𝕄 := fun _ c => R c

theorem hF1_4 (c : Dev nD) : (dat1 (T5 m (outsOf m)) c).arrAt 4 cfg1.N = V6 m (outsOf m) c (Pipeline.arrRef spec1 4) := by
  rw [← outsOf_79_0]
  show _ = Function.update (Function.update (V5 m (outsOf m) c) main_v79_0 (outsOf m 6 main_v79_0 c)) main_v79_1 (outsOf m 6 main_v79_1 c) main_v79_0
  rw [Function.update_of_ne (StableHlo.devRef_ne_of_ne (by decide) : (Proc.devRef .tc main_v79_0 : DevRef τ sig) ≠ Proc.devRef .tc main_v79_1)]
  exact (Function.update_self (Proc.devRef .tc main_v79_0 : DevRef τ sig) _ (V5 m (outsOf m) c)).symm
theorem hF1_5 (c : Dev nD) : (dat1 (T5 m (outsOf m)) c).arrAt 5 cfg1.N = V6 m (outsOf m) c (Pipeline.arrRef spec1 5) := by
  rw [← outsOf_79_1]
  show _ = Function.update (Function.update (V5 m (outsOf m) c) main_v79_0 (outsOf m 6 main_v79_0 c)) main_v79_1 (outsOf m 6 main_v79_1 c) main_v79_1
  exact (Function.update_self (Proc.devRef .tc main_v79_1 : DevRef τ sig) _
    (Function.update (V5 m (outsOf m) c) main_v79_0 (outsOf m 6 main_v79_0 c))).symm

theorem pref0 (c : Dev nD) : ∀ p : Fin 2, (emp : sProp 𝕄) ⊢ Pipeline.prefHeld (pcfgs (F := F) p).pre c (fun _ => fullShare) (adm p).1
  | 0 | 1 => by unfold Pipeline.prefHeld; rw [show (Finset.univ : Finset (Fin 0)) = ∅ from rfl, BI.bigSep_empty]; exact .rfl
  | ⟨_ + 2, h⟩ => absurd h (Nat.not_lt.2 (Nat.le_add_left _ _))

-- one record for both regions: the contents before (`Vi`) and after (`Vo`) differ only on the arrays `O` the region writes
set_option backward.isDefEq.respectTransparency.types false in
def reg (p : Fin 2) (lf : Pipeline.LaunchFacts (nD := nD) (τ := τ) cfgs p) (Vi Vo : (c : Dev nD) → Valuation τ sig (Elt F))
    (hq : ∀ c w, (pdats m p c).q w = fullShare) (hw : ∀ c t, (pdats m p c).owed t = 0) (hrc : ∀ c x, x ∈ (pdats m p c).recorded 0)
    (hA : ∀ c w, (pdats m p c).A w = Vi c (Pipeline.arrRef (cfgs p).spec w))
    (hb : ∀ c, BodyObligation (pdats m p c) (defs₀ (F := F)) 𝒱₀ () Set.univ)
    (hi : ∀ c, Pipeline.ΦA (cfgs p).spec c ⊢ (pdats m p c).Φ 0)
    (hl : ∀ c, (pdats m p c).Φ (Fin.last _) ⊢ Pipeline.ΦA (cfgs p).spec c)
    (O : List (Ref sig .tc)) (hV : ∀ c r, r ∉ O → Vo c r = Vi c r)
    (hio : ∀ w, ((cfgs p).win w).isOut = false → Pipeline.arrRef (cfgs p).spec w ∉ O) (hO : ∀ b ∈ O, ∃ w, Pipeline.arrRef (cfgs p).spec w = b)
    (hF : ∀ c w, ((cfgs p).win w).isOut = true → (pdats m p c).arrAt w (cfgs p).N = Vo c (Pipeline.arrRef (cfgs p).spec w)) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p hw
  pre c := iprop(StableHlo.held (c : Thread nD τ) (Pipeline.ucRefs τ sig) (Vi c) ∗ R c)
  post c := iprop(StableHlo.held (c : Thread nD τ) (Pipeline.ucRefs τ sig) (Vo c) ∗ R c)
  X c := iprop(∃ r, prngReg c r)
  Y c := iprop(∃ r, prngReg c r)
  Z c := Pipeline.unscopedRest (Ix := Unit) (Name := ℕ) (U := UR sig nD τ) (Lvl := ℕ) (cfgs p).spec c fun b => Vi c b
  hentry c := by
    rw [Pipeline.ownSems0_none]
    have hsplit := Pipeline.arrays_of_unscopedBufs (p := p) (pcfgs (F := F)) adm (pdats m) lf.win lf.arr_whole c
      ((pdats m p c).share_full (hq c)) (fun b => Vi c b) (hA c)
    rw [Pipeline.unscopedBufs_held] at hsplit
    iintro ⟨⟨Hub, Hp, HO⟩, -, -⟩
    icases hsplit $$ Hub with ⟨Ha, Hrest⟩
    imodintro
    iframe Ha Hp Hrest
    isplitr; · iapply pref0 c p; iempintro
    unfold Pipeline.Dat.owesAt Pipeline.owesWithin; rw [hw c]
    icases HO with ⟨%W, HO⟩; iexists W; isplitr; · ipureintro; exact fun _ _ => Or.inl (hrc c _)
    iexact HO
  hin c := .trans (by unfold Pipeline.ΦA; iintro ⟨Hp, -, Hr⟩; iframe) (hi c)
  hout c := (hl c).trans (by rw [Pipeline.ownSems0_none]; unfold Pipeline.ΦA; iintro ⟨Hr, Hp⟩; iframe; iempintro)
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (fun b => Vi c b) (fun b => Vo c b) ((pdats m p c).arrAt · (cfgs p).N)
      (fun w => by
        cases h : ((cfgs p).win w).isOut
        · exact ((pdats m p c).arrAt_in w h _).trans ((hA c w).trans (hV c _ (hio w h)).symm)
        · exact hF c w h)
      fun b hb => hV c b fun h => hb (Finset.mem_image.mpr ((hO b h).imp fun _ hw => ⟨Finset.mem_univ _, hw⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [hw c]
    icases HO with ⟨%W, -, HO⟩; iexists W; iexact HO

def reg0 :=
  reg m 0 launch0 (V3 m) (V4 m (outsOf m)) (fun _ _ => rfl) (fun _ _ => rfl) (fun _ _ => trivial) (fun _ _ => rfl) (body_obligation0 (T3 m))
    (fun _ => .rfl) (fun _ => .rfl) [main_v64] (V4_of m (outsOf m)) (by decide) (by decide) fun c => fun
    | 5, _ => ((Function.update_self (Proc.devRef .tc main_v64 : DevRef τ sig) _ (V3 m c)).trans (outsOf_64 m c)).symm
    | 0, h | 1, h | 2, h | 3, h | 4, h => absurd h (by decide)
    | ⟨_ + 6, h⟩, _ => absurd h (Nat.not_lt.2 (Nat.le_add_left _ _))

def reg1 :=
  reg m 1 launch1 (V5 m (outsOf m)) (V6 m (outsOf m)) (fun _ _ => rfl) (fun _ _ => rfl) (fun _ _ => trivial) (A_eq1 (T5 m (outsOf m))) (body_obligation1 (T5 m (outsOf m)))
    (hin1 (T5 m (outsOf m))) (hout1 (T5 m (outsOf m))) [main_v79_0, main_v79_1] (V6_of m (outsOf m)) (by decide) (by decide) fun c => fun
    | 4, _ => hF1_4 m c
    | 5, _ => hF1_5 m c
    | 0, h | 1, h | 2, h | 3, h => absurd h (by decide)
    | ⟨_ + 6, h⟩, _ => absurd h (Nat.not_lt.2 (Nat.le_add_left _ _))

set_option backward.isDefEq.respectTransparency.types false in
theorem run_main : θ_run defs (onTc (τ := τ) (main (F := F))) ⟨m, fun _ => 0, ρ⟩ (fun r => ∀ c : Dev nD,
      r.2.mem ((c.tc : Thread nD τ).loc main_v116) = V7 m (outsOf m) c main_v116
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  refine Pipeline.θ_run_regions_kit_dev (pcfgs (F := F)) adm (pdats m) () cellOf_inj emb₁ defs₀ 𝒱₀ L lv m ρ main
    (segs m (outsOf m) 𝒱₀ L lv E () (pdats m) (reg0 m) (reg1 m))
    (fun c Q => by
      rewrite [main_chain c, Pipeline.Seg.run_eq_chain,
        show (segs m (outsOf m) 𝒱₀ L lv E () (pdats m) (reg0 m) (reg1 m) c).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V7 m (outsOf m) c))
    (hch := fun c => ⟨.rfl, .rfl, .rfl, .rfl, .rfl, .rfl, .rfl, sep_mono .rfl (by iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := _)
    (hfin := fun c s' => ?_) (hQ := fun _ h => h)
  unfold StableHlo.held
  iintro ⟨Hh, HSI⟩
  ihave Hr := (pointsTo_read_all (Pipeline.ucRefs τ sig) (fun b => ((c : Thread nD τ).1, b)) (V7 m (outsOf m) c) s') $$ [Hh HSI]
  · isplitl [Hh] <;> iassumption
  icases Hr with ⟨%h, HSI⟩
  imodintro
  isplitr
  · ipureintro
    have hr (r : Ref sig .tc) hr := h (Proc.devRef .tc r) (Finset.mem_filter.mpr ⟨StableHlo.devRef_mem_tcRefs r, hr⟩)
    exact ⟨hr main_v116 (by decide),
      (hr main_arg0 (by decide)).trans (V7_main_arg0 ..),
      (hr main_arg1 (by decide)).trans (V7_main_arg1 ..),
      (hr main_arg2 (by decide)).trans (V7_main_arg2 ..),
      (hr main_arg3 (by decide)).trans (V7_main_arg3 ..),
      (hr main_arg4 (by decide)).trans (V7_main_arg4 ..),
      (hr main_arg5 (by decide)).trans (V7_main_arg5 ..),
      (hr main_arg6 (by decide)).trans (V7_main_arg6 ..),
      (hr main_arg7 (by decide)).trans (V7_main_arg7 ..),
      (hr main_arg8 (by decide)).trans (V7_main_arg8 ..),
      (hr main_arg9 (by decide)).trans (V7_main_arg9 ..),
      (hr main_arg10 (by decide)).trans (V7_main_arg10 ..)⟩
  · iexact HSI

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => (h c).2) (run_main m ρ)

end Cert.Kernel.Hand

end
-- ==== Proof.Assemble.lean ====
import proofs.«415816_j88759794139277_3_alg».proof.Defs
import proofs.«415816_j88759794139277_3_alg».proof.Proof.Gen.Kernel
import proofs.«415816_j88759794139277_3_alg».proof.Proof.Gen.KernelIdeal
import proofs.«415816_j88759794139277_3_alg».proof.Proof.Gen.KernelIdeal.Regions
import proofs.«415816_j88759794139277_3_alg».proof.Proof.Gen.ReferenceIdeal
import proofs.«415816_j88759794139277_3_alg».proof.Proof.Gen.Pre_finite_inputs

noncomputable section

namespace Cert.Proof.Parts

open Idealize.ShloMosaic Idealize.ShloMosaic.TcCoe Idealize.SL.Sem

section B
open Cert.Kernel

abbrev MemB : Type := (ℓ : Loc nD τ sig) → Buf (Elt Bits) ℓ

-- What a memory holds at reference `a` of device `c`.
abbrev atB (m : MemB) (c : Dev nD) (a : Ref sig .tc) := m ((c.tc : Thread nD τ).loc a)

def RunB : Prop :=
  ∀ (m : MemB) (g : Dev nD → PrngReg),
    θ_run (defs (F := Bits)) (onTc (τ := τ) (main (F := Bits))) ⟨m, fun _ => 0, g⟩ (fun r => ∀ c : Dev nD,
      atB r.2.mem c main_arg0 = atB m c main_arg0
      ∧ atB r.2.mem c main_arg1 = atB m c main_arg1
      ∧ atB r.2.mem c main_arg2 = atB m c main_arg2
      ∧ atB r.2.mem c main_arg3 = atB m c main_arg3
      ∧ atB r.2.mem c main_arg4 = atB m c main_arg4
      ∧ atB r.2.mem c main_arg5 = atB m c main_arg5
      ∧ atB r.2.mem c main_arg6 = atB m c main_arg6
      ∧ atB r.2.mem c main_arg7 = atB m c main_arg7
      ∧ atB r.2.mem c main_arg8 = atB m c main_arg8
      ∧ atB r.2.mem c main_arg9 = atB m c main_arg9
      ∧ atB r.2.mem c main_arg10 = atB m c main_arg10)

end B

section I
open Cert.KernelIdeal

abbrev MemI : Type := (ℓ : Loc nD τ sig) → Buf (Elt Ideal) ℓ

abbrev atI (m : MemI) (c : Dev nD) (a : Ref sig .tc) := m ((c.tc : Thread nD τ).loc a)

-- As `RunB`, and the result buffer ends at `V7` over `outsOf m`.
def RunI (outsOf : MemI → Gen.Outs (F := Ideal)) : Prop :=
  ∀ (m : MemI) (g : Dev nD → PrngReg),
    θ_run (defs (F := Ideal)) (onTc (τ := τ) (main (F := Ideal))) ⟨m, fun _ => 0, g⟩ (fun r => ∀ c : Dev nD,
      atI r.2.mem c main_v116 = Gen.V7 m (outsOf m) c main_v116
      ∧ atI r.2.mem c main_arg0 = atI m c main_arg0
      ∧ atI r.2.mem c main_arg1 = atI m c main_arg1
      ∧ atI r.2.mem c main_arg2 = atI m c main_arg2
      ∧ atI r.2.mem c main_arg3 = atI m c main_arg3
      ∧ atI r.2.mem c main_arg4 = atI m c main_arg4
      ∧ atI r.2.mem c main_arg5 = atI m c main_arg5
      ∧ atI r.2.mem c main_arg6 = atI m c main_arg6
      ∧ atI r.2.mem c main_arg7 = atI m c main_arg7
      ∧ atI r.2.mem c main_arg8 = atI m c main_arg8
      ∧ atI r.2.mem c main_arg9 = atI m c main_arg9
      ∧ atI r.2.mem c main_arg10 = atI m c main_arg10)

end I

section R
open Cert.ReferenceIdeal

abbrev MemR : Type := (ℓ : Loc nD τ sig) → Buf (Elt Ideal) ℓ

abbrev atR (m : MemR) (c : Dev nD) (a : Ref sig .tc) := m ((c.tc : Thread nD τ).loc a)

abbrev ResR : Type := (m' : MemR) → (c : Dev nD) → Buf (Elt Ideal) ((c.tc : Thread nD τ).loc main_v234)

-- As `RunB`, and the result buffer ends at `res m'`.
def RunR (res : ResR) : Prop :=
  ∀ (m' : MemR) (g' : Dev nD → PrngReg),
    θ_run (defs (F := Ideal)) (onTc (τ := τ) (main (F := Ideal))) ⟨m', fun _ => 0, g'⟩ (fun r => ∀ c : Dev nD,
      atR r.2.mem c main_v234 = res m' c
      ∧ atR r.2.mem c main_arg0 = atR m' c main_arg0
      ∧ atR r.2.mem c main_arg1 = atR m' c main_arg1
      ∧ atR r.2.mem c main_arg2 = atR m' c main_arg2
      ∧ atR r.2.mem c main_arg3 = atR m' c main_arg3
      ∧ atR r.2.mem c main_arg4 = atR m' c main_arg4
      ∧ atR r.2.mem c main_arg5 = atR m' c main_arg5
      ∧ atR r.2.mem c main_arg6 = atR m' c main_arg6
      ∧ atR r.2.mem c main_arg7 = atR m' c main_arg7
      ∧ atR r.2.mem c main_arg8 = atR m' c main_arg8
      ∧ atR r.2.mem c main_arg9 = atR m' c main_arg9
      ∧ atR r.2.mem c main_arg10 = atR m' c main_arg10)

end R

def Agree (m : MemI) (m' : MemR) : Prop :=
  ∀ c : Dev KernelIdeal.nD,
    atR m' c ReferenceIdeal.main_arg0 = atI m c KernelIdeal.main_arg0
    ∧ atR m' c ReferenceIdeal.main_arg1 = atI m c KernelIdeal.main_arg1
    ∧ atR m' c ReferenceIdeal.main_arg2 = atI m c KernelIdeal.main_arg2
    ∧ atR m' c ReferenceIdeal.main_arg3 = atI m c KernelIdeal.main_arg3
    ∧ atR m' c ReferenceIdeal.main_arg4 = atI m c KernelIdeal.main_arg4
    ∧ atR m' c ReferenceIdeal.main_arg5 = atI m c KernelIdeal.main_arg5
    ∧ atR m' c ReferenceIdeal.main_arg6 = atI m c KernelIdeal.main_arg6
    ∧ atR m' c ReferenceIdeal.main_arg7 = atI m c KernelIdeal.main_arg7
    ∧ atR m' c ReferenceIdeal.main_arg8 = atI m c KernelIdeal.main_arg8
    ∧ atR m' c ReferenceIdeal.main_arg9 = atI m c KernelIdeal.main_arg9
    ∧ atR m' c ReferenceIdeal.main_arg10 = atI m c KernelIdeal.main_arg10

def ValEq (outsOf : MemI → KernelIdeal.Gen.Outs (F := Ideal)) (res : ResR) : Prop :=
  ∀ (m : MemI), Cert.Pre_KernelIdeal m → ∀ (m' : MemR), Agree m m' → ∀ c : Dev KernelIdeal.nD,
    (KernelIdeal.Gen.V7 m (outsOf m) c KernelIdeal.main_v116
        : Buf (Elt Ideal) ((c.tc : Thread KernelIdeal.nD KernelIdeal.τ).loc KernelIdeal.main_v116))
      = res m' c

theorem frame_Kernel (hrunB : RunB) : Cert.frame_Kernel := fun m g _ => hrunB m g

theorem frame_KernelIdeal {outsOf : MemI → KernelIdeal.Gen.Outs (F := Ideal)} (hrunI : RunI outsOf) : Cert.frame_KernelIdeal :=
  fun m g _ => (θ_run KernelIdeal.defs _ _).mono (fun _ h c => (h c).2) (hrunI m g)

theorem frame_ReferenceIdeal {res : ResR} (hrunR : RunR res) : Cert.frame_ReferenceIdeal :=
  fun m' g' _ => (θ_run ReferenceIdeal.defs _ _).mono (fun _ h c => (h c).2) (hrunR m' g')

theorem preserves : Cert.preserves_Kernel_KernelIdeal := trivial
theorem algebraic {outsOf : MemI → KernelIdeal.Gen.Outs (F := Ideal)} {res : ResR}
    (hrunI : RunI outsOf) (hrunR : RunR res) (hval : ValEq outsOf res) : Cert.algebraic_KernelIdeal_ReferenceIdeal := by
  intro m g m' g' hpre hagree
  refine ⟨fun c => res m' c, ?_, hrunR m' g'⟩
  exact (θ_run KernelIdeal.defs _ _).mono (fun _ h c => ⟨(h c).1.trans (hval m hpre m' hagree c), (h c).2⟩) (hrunI m g)

theorem claim {outsOf : MemI → KernelIdeal.Gen.Outs (F := Ideal)} {res : ResR}
    (hrunB : RunB) (hrunI : RunI outsOf) (hrunR : RunR res) (hval : ValEq outsOf res) : Cert.Claim :=
  ⟨Kernel.Gen.facts, KernelIdeal.Gen.facts, ReferenceIdeal.Gen.facts, Pre_finite_inputs.Gen.facts,
    frame_Kernel hrunB, frame_KernelIdeal hrunI, frame_ReferenceIdeal hrunR, preserves, algebraic hrunI hrunR hval⟩

end Cert.Proof.Parts

end
-- ==== Proof.KiR0.lean ====
import proofs.«415816_j88759794139277_3_alg».proof.Proof.Gen.KernelIdeal.Launch
import proofs.«415816_j88759794139277_3_alg».proof.Proof.Gen.KernelIdeal.Skeleton
import proofs.«415816_j88759794139277_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S5000x64 := Rect.unit (s := S5000x64) ![0, 0] S5000x64.size inb_S5000x64_S5000x64_0_0
abbrev r0_1 : Rect S5000x1 := Rect.unit (s := S5000x1) ![0, 0] S5000x1.size inb_S5000x1_S5000x1_0_0
abbrev r0_2 : Rect S64x256 := Rect.unit (s := S64x256) ![0, 0] S64x256.size inb_S64x256_S64x256_0_0
abbrev r0_3 : Rect S1x256 := Rect.unit (s := S1x256) ![0, 0] S1x256.size inb_S1x256_S1x256_0_0
abbrev r0_4 : Rect S2x128x64 := Rect.unit (s := S2x128x64) ![0, 0, 0] S2x128x64.size inb_S2x128x64_S2x128x64_0_0_0
abbrev r0_5 : Rect S5000x128 := Rect.unit (s := S5000x128) ![0, 0] S5000x128.size inb_S5000x128_S5000x128_0_0

def out0_5 (x0 : Vec F S5000x64 .f32) (x1 : Vec F S5000x1 .f32) (x2 : Vec F S64x256 .f32) (x3 : Vec F S1x256 .f32)
    (x4 : Vec F S2x128x64 .f32) : Vec F S5000x128 .f32 :=
  View.canon [⟨r0_5, k0_pay1 (View.ld x1 r0_1) (View.ld x0 r0_0) (View.ld x2 r0_2) (View.ld x3 r0_3) (View.ld x4 r0_4)⟩]

set_option maxHeartbeats 1000000 in
theorem sound_kernel0 (c : Dev nD) (E : Set ℕ) (i : grid0.Coords)
    (arg1 : Memref sig .tc .vmem S5000x64 .f32) (harg1 : arg1.IsWhole) (arg2 : Memref sig .tc .vmem S5000x1 .f32) (harg2 : arg2.IsWhole)
    (arg3 : Memref sig .tc .vmem S64x256 .f32) (harg3 : arg3.IsWhole) (arg4 : Memref sig .tc .vmem S1x256 .f32) (harg4 : arg4.IsWhole)
    (arg5 : Memref sig .tc .vmem S2x128x64 .f32) (harg5 : arg5.IsWhole) (arg6 : Memref sig .tc .vmem S5000x128 .f32) (harg6 : arg6.IsWhole)
    (x0 : Vec F S5000x64 .f32) (x1 : Vec F S5000x1 .f32) (x2 : Vec F S64x256 .f32) (x3 : Vec F S1x256 .f32) (x4 : Vec F S2x128x64 .f32)
    (K : PUnit → sProp 𝕄) :
    iprop(owns c arg1 fullShare x0 ∗ owns c arg2 fullShare x1 ∗ owns c arg3 fullShare x2
        ∗ owns c arg4 fullShare x3 ∗ owns c arg5 fullShare x4 ∗ (∃ d, owns c arg6 fullShare d)
        ∗ (iprop(owns c arg1 fullShare x0 ∗ owns c arg2 fullShare x1 ∗ owns c arg3 fullShare x2
            ∗ owns c arg4 fullShare x3 ∗ owns c arg5 fullShare x4
            ∗ owns c arg6 fullShare (out0_5 x0 x1 x2 x3 x4)) -∗ K ⟨⟩))
      ⊢ wp frame (wpE (defs₀ (F := F)) Variants.none c none) E
          (cc0__layer1_fused_kernel i arg1 harg1 arg2 harg2 arg3 harg3 arg4 harg4 arg5 harg5 arg6 harg6) K := by
  simp only [cc0__layer1_fused_kernel_eq_skeleton]; unfold cc0__layer1_fused_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (View.cover_of_tiled _ S5000x128.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem after0_5 (c : Dev nD) (t : Fin cfg0.N) :
    (dat0 V c).after 5 t = out0_5 (iblk0 V c 0 t) (iblk0 V c 1 t) (iblk0 V c 2 t) (iblk0 V c 3 t) (iblk0 V c 4 t) := by
  dsimp only [dat0]

section

variable (c : Dev nD) (t : Fin cfg0.N)

theorem before0_0 (d) : (dat0 V c).before 0 t d = iblk0 V c 0 t :=
  ((dat0 V c).before_in_eq_fetched 0 rfl (fun _ => rfl) (fun _ _ _ => rfl) (fun _ => rfl) t d).trans rfl
theorem before0_1 (d) : (dat0 V c).before 1 t d = iblk0 V c 1 t :=
  ((dat0 V c).before_in_eq_fetched 1 rfl (fun _ => rfl) (fun _ _ _ => rfl) (fun _ => rfl) t d).trans rfl
theorem before0_2 (d) : (dat0 V c).before 2 t d = iblk0 V c 2 t :=
  ((dat0 V c).before_in_eq_fetched 2 rfl (fun _ => rfl) (fun _ _ _ => rfl) (fun _ => rfl) t d).trans rfl
theorem before0_3 (d) : (dat0 V c).before 3 t d = iblk0 V c 3 t :=
  ((dat0 V c).before_in_eq_fetched 3 rfl (fun _ => rfl) (fun _ _ _ => rfl) (fun _ => rfl) t d).trans rfl
theorem before0_4 (d) : (dat0 V c).before 4 t d = iblk0 V c 4 t :=
  ((dat0 V c).before_in_eq_fetched 4 rfl (fun _ => rfl) (fun _ _ _ => rfl) (fun _ => rfl) t d).trans rfl

theorem sound_body0 (P Q : sProp 𝕄) :
    iprop(P ∗ Q ∗ bigSep Finset.univ fun w : Fin 6 =>
        iprop(∃ d, owns c ((cfg0.win w).stage (cfg0.slots t w)) fullShare ((dat0 V c).before w t d)))
      ⊢ wp frame (wpE (defs₀ (F := F)) Variants.none c none) Set.univ (bodyAt0 t) fun _ => iprop(P ∗ Q
        ∗ bigSep Finset.univ fun w : Fin 6 => owns c ((cfg0.win w).stage (cfg0.slots t w)) fullShare ((dat0 V c).after w t)) := by
  rw [bigSep_W0, bigSep_W0]
  simp only [before0_0, before0_1, before0_2, before0_3, before0_4]
  dsimp only [dat0]
  iintro ⟨HP, HQ, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _
    (iblk0 V c 0 t) (iblk0 V c 1 t) (iblk0 V c 2 t) (iblk0 V c 3 t) (iblk0 V c 4 t) _)
  iframe H0 H1 H2 H3 H4
  isplitl [H5]; · iexists _; iexact H5
  iintro ⟨H0, H1, H2, H3, H4, H5⟩
  iframe

end

theorem body_obligation0 (c : Dev nD) : BodyObligation (dat0 (F := F) V c) (defs₀ (F := F)) Variants.none () Set.univ :=
  fun t => sound_body0 V c t _ _

end Cert.KernelIdeal.Hand

end
-- ==== Proof.KiR1Runs.lean ====
import proofs.«415816_j88759794139277_3_alg».proof.Proof.Gen.KernelIdeal.Launch
import proofs.«415816_j88759794139277_3_alg».proof.Proof.Gen.KernelIdeal.Skeleton
import proofs.«415816_j88759794139277_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end Region1

abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 20 = 0 :=
  (by decide +kernel : ∀ t : Fin grid1.N, cond1_0 (grid1.coords t) ↔ t.val % 20 = 0)

abbrev cond1_1 (i : grid1.Coords) : Prop := k1_cond2 i = 1#1
theorem hcond1_1 : ∀ t : Fin cfg1.N, cond1_1 (grid1.coords t) ↔ t.val % 20 = 19 :=
  (by decide +kernel : ∀ t : Fin grid1.N, cond1_1 (grid1.coords t) ↔ t.val % 20 = 19)

theorem liveAt1 : ∀ (t : Fin cfg1.N) (w : Fin cfg1.W), w.val < 4 ∨ cond1_1 (grid1.coords t) → cfg1.idle w (grid1.coords t) = false := by decide +kernel
theorem idleAt1 : ∀ (t : Fin cfg1.N) (w : Fin cfg1.W), 4 ≤ w.val → ¬cond1_1 (grid1.coords t) → cfg1.idle w (grid1.coords t) = true ∧ (cfg1.win w).flush t = false := by decide +kernel

abbrev VO1_4 : View sig .tc .vmem S64x128 .f32 := (Memref.whole cc1_stg4_0 : Memref sig .tc .vmem S64x128 .f32).view
abbrev VO1_5 : View sig .tc .vmem S1x64 .f32 := (Memref.whole cc1_stg5_0 : Memref sig .tc .vmem S1x64 .f32).view
abbrev ms1_0 (t : Fin cfg1.N) : Memref sig .tc .vmem S5000x1 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S5000x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S5000x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S64x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x64 .f32 := win1_5.stage (cfg1.slots t 5)
abbrev hs1_5 (t : Fin cfg1.N) : (ms1_5 t).IsWhole := hstage1_5 ((cfg1.slots t 5).cast nbuf1_5)
abbrev scM1_0 : Memref sig .tc .vmem S64x128 .f32 := Memref.whole cc1_scratch0
abbrev scM1_1 : Memref sig .tc .vmem S1x64 .f32 := Memref.whole cc1_scratch1
abbrev VS1_0 : View sig .tc .vmem S64x128 .f32 := scM1_0.view
abbrev VS1_1 : View sig .tc .vmem S1x64 .f32 := scM1_1.view

abbrev anyAt (c : Dev nD) (r : Ref sig .tc) : sProp 𝕄 :=
  iprop(∃ f : Buf (Elt F) ((c : Thread nD τ).loc r), ((c : Thread nD τ).loc r) ↦{fullShare} f)

def scopedWith1 (c : Dev nD) (P : sProp 𝕄) : sProp 𝕄 :=
  iprop(anyAt (F := F) c cc0_stg0_0 ∗ anyAt (F := F) c cc0_stg0_1 ∗ anyAt (F := F) c cc0_stg1_0 ∗ anyAt (F := F) c cc0_stg1_1 ∗ anyAt (F := F) c cc0_stg2_0 ∗ anyAt (F := F) c cc0_stg3_0 ∗ anyAt (F := F) c cc0_stg4_0 ∗ anyAt (F := F) c cc0_stg5_0 ∗ anyAt (F := F) c cc0_stg5_1 ∗ P)

def others1 (c : Dev nD) : sProp 𝕄 :=
  iprop(anyAt (F := F) c cc0_stg0_0 ∗ anyAt (F := F) c cc0_stg0_1 ∗ anyAt (F := F) c cc0_stg1_0 ∗ anyAt (F := F) c cc0_stg1_1 ∗ anyAt (F := F) c cc0_stg2_0 ∗ anyAt (F := F) c cc0_stg3_0 ∗ anyAt (F := F) c cc0_stg4_0 ∗ anyAt (F := F) c cc0_stg5_0 ∗ anyAt (F := F) c cc0_stg5_1)

theorem scopedWith1_out (c : Dev nD) (P : sProp 𝕄) : scopedWith1 (F := F) c P ⊢ iprop(others1 (F := F) c ∗ P) := by
  unfold scopedWith1 others1
  iintro ⟨H0, H1, H2, H3, H4, H5, H6, H7, H8, HP⟩
  iframe

theorem scopedWith1_in (c : Dev nD) (P : sProp 𝕄) : iprop(others1 (F := F) c ∗ P) ⊢ scopedWith1 (F := F) c P := by
  unfold scopedWith1 others1
  iintro ⟨⟨H0, H1, H2, H3, H4, H5, H6, H7, H8⟩, HP⟩
  iframe

theorem PhiA1_eq (c : Dev nD) :
    (Pipeline.ΦA spec1 c : sProp 𝕄)
      = iprop(scopedWith1 (F := F) c iprop((∃ d, owns (c : Thread nD τ) scM1_0 fullShare d) ∗ (∃ d, owns (c : Thread nD τ) scM1_1 fullShare d)) ∗ (∃ r, prngReg c r)) := by
  unfold Pipeline.ΦA scopedWith1 anyAt; rw [scopedRest1_eq]; simp only [scM1_0, scM1_1, owns_whole]; try rfl

end Cert.KernelIdeal.Hand

end
-- ==== Proof.KiR1RunA.lean ====
import proofs.«415816_j88759794139277_3_alg».proof.Proof.KiR1Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
noncomputable def kernelRun1_A (c : Dev nD) (i : grid1.Coords) (arg1 : Memref sig .tc .vmem S5000x1 .i32) (harg1 : arg1.IsWhole) (arg2 : Memref sig .tc .vmem S5000x128 .f32) (harg2 : arg2.IsWhole) (arg3 : Memref sig .tc .vmem S1x128 .f32) (harg3 : arg3.IsWhole) (arg4 : Memref sig .tc .vmem S5000x1 .f32) (harg4 : arg4.IsWhole) (arg5 : Memref sig .tc .vmem S64x128 .f32) (harg5 : arg5.IsWhole) (arg6 : Memref sig .tc .vmem S1x64 .f32) (harg6 : arg6.IsWhole) (arg7 : Memref sig .tc .vmem S64x128 .f32) (harg7 : arg7.IsWhole) (arg8 : Memref sig .tc .vmem S1x64 .f32) (harg8 : arg8.IsWhole)
    (x0 : Vec F S5000x1 .i32) (x1 : Vec F S5000x128 .f32) (x2 : Vec F S1x128 .f32) (x3 : Vec F S5000x1 .f32) (hc0 : cond1_0 i) (hc1 : ¬cond1_1 i) :
    Σ' (L4 : List (View.Piece (Elt F) S64x128 .f32)) (L5 : List (View.Piece (Elt F) S1x64 .f32)) (LS0 : List (View.Piece (Elt F) S64x128 .f32)), { LS1 : List (View.Piece (Elt F) S1x64 .f32) //
      ∀ (xi4 : Vec F S64x128 .f32) (xi5 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xi5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__pool_kernel i arg1 harg1 arg2 harg2 arg3 harg3 arg4 harg4 arg5 harg5 arg6 harg6 arg7 harg7 arg8 harg8) K } := by
  refine ⟨[], [], ?_, ?_, fun xi4 xi5 E K => ?run⟩
  case run =>
    simp only [cc1__pool_kernel_eq_skeleton]; unfold cc1__pool_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    iexists _; iexact HS1

end Cert.KernelIdeal.Hand

end
-- ==== Proof.KiR1RunB.lean ====
import proofs.«415816_j88759794139277_3_alg».proof.Proof.KiR1Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
noncomputable def kernelRun1_B (c : Dev nD) (i : grid1.Coords) (arg1 : Memref sig .tc .vmem S5000x1 .i32) (harg1 : arg1.IsWhole) (arg2 : Memref sig .tc .vmem S5000x128 .f32) (harg2 : arg2.IsWhole) (arg3 : Memref sig .tc .vmem S1x128 .f32) (harg3 : arg3.IsWhole) (arg4 : Memref sig .tc .vmem S5000x1 .f32) (harg4 : arg4.IsWhole) (arg5 : Memref sig .tc .vmem S64x128 .f32) (harg5 : arg5.IsWhole) (arg6 : Memref sig .tc .vmem S1x64 .f32) (harg6 : arg6.IsWhole) (arg7 : Memref sig .tc .vmem S64x128 .f32) (harg7 : arg7.IsWhole) (arg8 : Memref sig .tc .vmem S1x64 .f32) (harg8 : arg8.IsWhole)
    (x0 : Vec F S5000x1 .i32) (x1 : Vec F S5000x128 .f32) (x2 : Vec F S1x128 .f32) (x3 : Vec F S5000x1 .f32) (hc0 : ¬cond1_0 i) (hc1 : ¬cond1_1 i) (xs0 : Vec F S64x128 .f32) (xs1 : Vec F S1x64 .f32) :
    Σ' (L4 : List (View.Piece (Elt F) S64x128 .f32)) (L5 : List (View.Piece (Elt F) S1x64 .f32)) (LS0 : List (View.Piece (Elt F) S64x128 .f32)), { LS1 : List (View.Piece (Elt F) S1x64 .f32) //
      ∀ (xi4 : Vec F S64x128 .f32) (xi5 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xi5 ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__pool_kernel i arg1 harg1 arg2 harg2 arg3 harg3 arg4 harg4 arg5 harg5 arg6 harg6 arg7 harg7 arg8 harg8) K } := by
  refine ⟨[], [], ?_, ?_, fun xi4 xi5 E K => ?run⟩
  case run =>
    simp only [cc1__pool_kernel_eq_skeleton]; unfold cc1__pool_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    iexists _; iexact HS1

end Cert.KernelIdeal.Hand

end
-- ==== Proof.KiR1RunC.lean ====
import proofs.«415816_j88759794139277_3_alg».proof.Proof.KiR1Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
noncomputable def kernelRun1_C (c : Dev nD) (i : grid1.Coords) (arg1 : Memref sig .tc .vmem S5000x1 .i32) (harg1 : arg1.IsWhole) (arg2 : Memref sig .tc .vmem S5000x128 .f32) (harg2 : arg2.IsWhole) (arg3 : Memref sig .tc .vmem S1x128 .f32) (harg3 : arg3.IsWhole) (arg4 : Memref sig .tc .vmem S5000x1 .f32) (harg4 : arg4.IsWhole) (arg5 : Memref sig .tc .vmem S64x128 .f32) (harg5 : arg5.IsWhole) (arg6 : Memref sig .tc .vmem S1x64 .f32) (harg6 : arg6.IsWhole) (arg7 : Memref sig .tc .vmem S64x128 .f32) (harg7 : arg7.IsWhole) (arg8 : Memref sig .tc .vmem S1x64 .f32) (harg8 : arg8.IsWhole)
    (x0 : Vec F S5000x1 .i32) (x1 : Vec F S5000x128 .f32) (x2 : Vec F S1x128 .f32) (x3 : Vec F S5000x1 .f32) (hc0 : ¬cond1_0 i) (hc1 : cond1_1 i) (xs0 : Vec F S64x128 .f32) (xs1 : Vec F S1x64 .f32) :
    Σ' (L4 : List (View.Piece (Elt F) S64x128 .f32)) (L5 : List (View.Piece (Elt F) S1x64 .f32)) (LS0 : List (View.Piece (Elt F) S64x128 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__pool_kernel i arg1 harg1 arg2 harg2 arg3 harg3 arg4 harg4 arg5 harg5 arg6 harg6 arg7 harg7 arg8 harg8) K } := by
  refine ⟨?_, ?_, ?_, ?_, fun E K => ?run⟩
  case run =>
    simp only [cc1__pool_kernel_eq_skeleton]; unfold cc1__pool_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [HS0]; · iexists _; iexact HS0
    iexists _; iexact HS1

end Cert.KernelIdeal.Hand

end
-- ==== Proof.KiR1.lean ====
import proofs.«415816_j88759794139277_3_alg».proof.Proof.KiR1RunA
import proofs.«415816_j88759794139277_3_alg».proof.Proof.KiR1RunB
import proofs.«415816_j88759794139277_3_alg».proof.Proof.KiR1RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

section Cases
variable (c : Dev nD) (i : grid1.Coords) (arg1 : Memref sig .tc .vmem S5000x1 .i32) (harg1 : arg1.IsWhole) (arg2 : Memref sig .tc .vmem S5000x128 .f32) (harg2 : arg2.IsWhole) (arg3 : Memref sig .tc .vmem S1x128 .f32) (harg3 : arg3.IsWhole) (arg4 : Memref sig .tc .vmem S5000x1 .f32) (harg4 : arg4.IsWhole) (arg5 : Memref sig .tc .vmem S64x128 .f32) (harg5 : arg5.IsWhole) (arg6 : Memref sig .tc .vmem S1x64 .f32) (harg6 : arg6.IsWhole) (arg7 : Memref sig .tc .vmem S64x128 .f32) (harg7 : arg7.IsWhole) (arg8 : Memref sig .tc .vmem S1x64 .f32) (harg8 : arg8.IsWhole) (x0 : Vec F S5000x1 .i32) (x1 : Vec F S5000x128 .f32) (x2 : Vec F S1x128 .f32) (x3 : Vec F S5000x1 .f32)

-- what a point's case leaves in the two results and the two accumulators: the pieces the body stores, read back
section A
variable (hc0 : cond1_0 i) (hc1 : ¬cond1_1 i)
def outs1_A : Vec F S64x128 .f32 × Vec F S1x64 .f32 × Vec F S64x128 .f32 × Vec F S1x64 .f32 :=
  (VO1_4.read (Elt F) (VO1_4.writes (Elt F) VO1_4.junk (kernelRun1_A c i arg1 harg1 arg2 harg2 arg3 harg3 arg4 harg4 arg5 harg5 arg6 harg6 arg7 harg7 arg8 harg8 x0 x1 x2 x3 hc0 hc1).1), VO1_5.read (Elt F) (VO1_5.writes (Elt F) VO1_5.junk (kernelRun1_A c i arg1 harg1 arg2 harg2 arg3 harg3 arg4 harg4 arg5 harg5 arg6 harg6 arg7 harg7 arg8 harg8 x0 x1 x2 x3 hc0 hc1).2.1),
    VS1_0.read (Elt F) (VS1_0.writes (Elt F) VS1_0.junk (kernelRun1_A c i arg1 harg1 arg2 harg2 arg3 harg3 arg4 harg4 arg5 harg5 arg6 harg6 arg7 harg7 arg8 harg8 x0 x1 x2 x3 hc0 hc1).2.2.1), VS1_1.read (Elt F) (VS1_1.writes (Elt F) VS1_1.junk (kernelRun1_A c i arg1 harg1 arg2 harg2 arg3 harg3 arg4 harg4 arg5 harg5 arg6 harg6 arg7 harg7 arg8 harg8 x0 x1 x2 x3 hc0 hc1).2.2.2.1))
theorem scover1_A_0 (y : S64x128.Idx) : ∃ pc ∈ (kernelRun1_A c i arg1 harg1 arg2 harg2 arg3 harg3 arg4 harg4 arg5 harg5 arg6 harg6 arg7 harg7 arg8 harg8 x0 x1 x2 x3 hc0 hc1).2.2.1, y ∈ pc.1.set :=
  View.cover_of_tiledL _ S64x128.size (by sl_kernel_rfl) y
theorem scover1_A_1 (y : S1x64.Idx) : ∃ pc ∈ (kernelRun1_A c i arg1 harg1 arg2 harg2 arg3 harg3 arg4 harg4 arg5 harg5 arg6 harg6 arg7 harg7 arg8 harg8 x0 x1 x2 x3 hc0 hc1).2.2.2.1, y ∈ pc.1.set :=
  View.cover_of_tiledL _ S1x64.size (by sl_kernel_rfl) y
end A

section B
variable (hc0 : ¬cond1_0 i) (hc1 : ¬cond1_1 i) (xs0 : Vec F S64x128 .f32) (xs1 : Vec F S1x64 .f32)
def outs1_B : Vec F S64x128 .f32 × Vec F S1x64 .f32 × Vec F S64x128 .f32 × Vec F S1x64 .f32 :=
  (VO1_4.read (Elt F) (VO1_4.writes (Elt F) VO1_4.junk (kernelRun1_B c i arg1 harg1 arg2 harg2 arg3 harg3 arg4 harg4 arg5 harg5 arg6 harg6 arg7 harg7 arg8 harg8 x0 x1 x2 x3 hc0 hc1 xs0 xs1).1), VO1_5.read (Elt F) (VO1_5.writes (Elt F) VO1_5.junk (kernelRun1_B c i arg1 harg1 arg2 harg2 arg3 harg3 arg4 harg4 arg5 harg5 arg6 harg6 arg7 harg7 arg8 harg8 x0 x1 x2 x3 hc0 hc1 xs0 xs1).2.1),
    VS1_0.read (Elt F) (VS1_0.writes (Elt F) VS1_0.junk (kernelRun1_B c i arg1 harg1 arg2 harg2 arg3 harg3 arg4 harg4 arg5 harg5 arg6 harg6 arg7 harg7 arg8 harg8 x0 x1 x2 x3 hc0 hc1 xs0 xs1).2.2.1), VS1_1.read (Elt F) (VS1_1.writes (Elt F) VS1_1.junk (kernelRun1_B c i arg1 harg1 arg2 harg2 arg3 harg3 arg4 harg4 arg5 harg5 arg6 harg6 arg7 harg7 arg8 harg8 x0 x1 x2 x3 hc0 hc1 xs0 xs1).2.2.2.1))
theorem scover1_B_0 (y : S64x128.Idx) : ∃ pc ∈ (kernelRun1_B c i arg1 harg1 arg2 harg2 arg3 harg3 arg4 harg4 arg5 harg5 arg6 harg6 arg7 harg7 arg8 harg8 x0 x1 x2 x3 hc0 hc1 xs0 xs1).2.2.1, y ∈ pc.1.set :=
  View.cover_of_tiledL _ S64x128.size (by sl_kernel_rfl) y
theorem scover1_B_1 (y : S1x64.Idx) : ∃ pc ∈ (kernelRun1_B c i arg1 harg1 arg2 harg2 arg3 harg3 arg4 harg4 arg5 harg5 arg6 harg6 arg7 harg7 arg8 harg8 x0 x1 x2 x3 hc0 hc1 xs0 xs1).2.2.2.1, y ∈ pc.1.set :=
  View.cover_of_tiledL _ S1x64.size (by sl_kernel_rfl) y
end B

section C
variable (hc0 : ¬cond1_0 i) (hc1 : cond1_1 i) (xs0 : Vec F S64x128 .f32) (xs1 : Vec F S1x64 .f32)
def outs1_C : Vec F S64x128 .f32 × Vec F S1x64 .f32 × Vec F S64x128 .f32 × Vec F S1x64 .f32 :=
  (VO1_4.read (Elt F) (VO1_4.writes (Elt F) VO1_4.junk (kernelRun1_C c i arg1 harg1 arg2 harg2 arg3 harg3 arg4 harg4 arg5 harg5 arg6 harg6 arg7 harg7 arg8 harg8 x0 x1 x2 x3 hc0 hc1 xs0 xs1).1), VO1_5.read (Elt F) (VO1_5.writes (Elt F) VO1_5.junk (kernelRun1_C c i arg1 harg1 arg2 harg2 arg3 harg3 arg4 harg4 arg5 harg5 arg6 harg6 arg7 harg7 arg8 harg8 x0 x1 x2 x3 hc0 hc1 xs0 xs1).2.1),
    VS1_0.read (Elt F) (VS1_0.writes (Elt F) VS1_0.junk (kernelRun1_C c i arg1 harg1 arg2 harg2 arg3 harg3 arg4 harg4 arg5 harg5 arg6 harg6 arg7 harg7 arg8 harg8 x0 x1 x2 x3 hc0 hc1 xs0 xs1).2.2.1), VS1_1.read (Elt F) (VS1_1.writes (Elt F) VS1_1.junk (kernelRun1_C c i arg1 harg1 arg2 harg2 arg3 harg3 arg4 harg4 arg5 harg5 arg6 harg6 arg7 harg7 arg8 harg8 x0 x1 x2 x3 hc0 hc1 xs0 xs1).2.2.2.1))
theorem cover1_C_4 (y : S64x128.Idx) : ∃ pc ∈ (kernelRun1_C c i arg1 harg1 arg2 harg2 arg3 harg3 arg4 harg4 arg5 harg5 arg6 harg6 arg7 harg7 arg8 harg8 x0 x1 x2 x3 hc0 hc1 xs0 xs1).1, y ∈ pc.1.set :=
  View.cover_of_tiledL _ S64x128.size (by sl_kernel_rfl) y
theorem cover1_C_5 (y : S1x64.Idx) : ∃ pc ∈ (kernelRun1_C c i arg1 harg1 arg2 harg2 arg3 harg3 arg4 harg4 arg5 harg5 arg6 harg6 arg7 harg7 arg8 harg8 x0 x1 x2 x3 hc0 hc1 xs0 xs1).2.1, y ∈ pc.1.set :=
  View.cover_of_tiledL _ S1x64.size (by sl_kernel_rfl) y
theorem scover1_C_0 (y : S64x128.Idx) : ∃ pc ∈ (kernelRun1_C c i arg1 harg1 arg2 harg2 arg3 harg3 arg4 harg4 arg5 harg5 arg6 harg6 arg7 harg7 arg8 harg8 x0 x1 x2 x3 hc0 hc1 xs0 xs1).2.2.1, y ∈ pc.1.set :=
  View.cover_of_tiledL _ S64x128.size (by sl_kernel_rfl) y
theorem scover1_C_1 (y : S1x64.Idx) : ∃ pc ∈ (kernelRun1_C c i arg1 harg1 arg2 harg2 arg3 harg3 arg4 harg4 arg5 harg5 arg6 harg6 arg7 harg7 arg8 harg8 x0 x1 x2 x3 hc0 hc1 xs0 xs1).2.2.2.1, y ∈ pc.1.set :=
  View.cover_of_tiledL _ S1x64.size (by sl_kernel_rfl) y
end C

end Cases

section Region1
variable (V : (c : Dev nD) → (b : Ref sig .tc) → Buf (Elt F) ((c : Thread nD τ).loc b))

universe u

-- `f`, a function of a point's coordinates, of the eight memory references the body runs on and of the four input blocks, taken at point `t`
abbrev at1 {β : (i : grid1.Coords) → (a1 : Memref sig .tc .vmem S5000x1 .i32) → a1.IsWhole → (a2 : Memref sig .tc .vmem S5000x128 .f32) → a2.IsWhole → (a3 : Memref sig .tc .vmem S1x128 .f32) → a3.IsWhole → (a4 : Memref sig .tc .vmem S5000x1 .f32) → a4.IsWhole → (a5 : Memref sig .tc .vmem S64x128 .f32) → a5.IsWhole → (a6 : Memref sig .tc .vmem S1x64 .f32) → a6.IsWhole → (a7 : Memref sig .tc .vmem S64x128 .f32) → a7.IsWhole → (a8 : Memref sig .tc .vmem S1x64 .f32) → a8.IsWhole → Vec F S5000x1 .i32 → Vec F S5000x128 .f32 → Vec F S1x128 .f32 → Vec F S5000x1 .f32 → Sort u}
    (c : Dev nD) (t : Fin cfg1.N) (f : ∀ i a1 h1 a2 h2 a3 h3 a4 h4 a5 h5 a6 h6 a7 h7 a8 h8 x0 x1 x2 x3, β i a1 h1 a2 h2 a3 h3 a4 h4 a5 h5 a6 h6 a7 h7 a8 h8 x0 x1 x2 x3) :
    β (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (iblk1 V c 0 t) (iblk1 V c 1 t) (iblk1 V c 2 t) (iblk1 V c 3 t) :=
  f _ _ _ _ _ _ _ _ _ _ _ _ _ _ _ _ _ _ _ _ _

-- the four arrays after point `n`, by recursion on `n`: the first point starts from zero, a later one from what the point before left; no point of the 20 is both first and last
def outsAt1 (c : Dev nD) : (n : ℕ) → n < cfg1.N → Vec F S64x128 .f32 × Vec F S1x64 .f32 × Vec F S64x128 .f32 × Vec F S1x64 .f32
  | 0, hn => at1 V c ⟨0, hn⟩ (outs1_A c) ((hcond1_0 ⟨0, hn⟩).mpr (Nat.zero_mod _)) (fun h => (fun h => by (try dsimp only at h); omega) ((hcond1_1 ⟨0, hn⟩).mp h))
  | n + 1, hn =>
    if h0 : (n + 1) % 20 = 0 then
      at1 V c ⟨n + 1, hn⟩ (outs1_A c) ((hcond1_0 ⟨n + 1, hn⟩).mpr h0) (fun h => (fun h => by (try dsimp only at h); omega) ((hcond1_1 ⟨n + 1, hn⟩).mp h))
    else if h1 : (n + 1) % 20 = 19 then
      at1 V c ⟨n + 1, hn⟩ (outs1_C c) (fun h => h0 ((hcond1_0 ⟨n + 1, hn⟩).mp h)) ((hcond1_1 ⟨n + 1, hn⟩).mpr h1) (outsAt1 c n (Nat.lt_of_succ_lt hn)).2.2.1 (outsAt1 c n (Nat.lt_of_succ_lt hn)).2.2.2
    else
      at1 V c ⟨n + 1, hn⟩ (outs1_B c) (fun h => h0 ((hcond1_0 ⟨n + 1, hn⟩).mp h)) (fun h => h1 ((hcond1_1 ⟨n + 1, hn⟩).mp h)) (outsAt1 c n (Nat.lt_of_succ_lt hn)).2.2.1 (outsAt1 c n (Nat.lt_of_succ_lt hn)).2.2.2

theorem outsAt1_A (c : Dev nD) (t : Fin cfg1.N) (h0 : t.val % 20 = 0) (h1 : ¬t.val % 20 = 19) :
    outsAt1 V c t.val t.isLt = at1 V c t (outs1_A c) ((hcond1_0 t).mpr h0) (fun h => h1 ((hcond1_1 t).mp h)) := by
  obtain ⟨n, hn⟩ := t
  cases n with
  | zero => exact rfl
  | succ n => exact (dif_pos h0).trans rfl

theorem outsAt1_B (c : Dev nD) (t : Fin cfg1.N) (h0 : ¬t.val % 20 = 0) (h1 : ¬t.val % 20 = 19) :
    outsAt1 V c t.val t.isLt = at1 V c t (outs1_B c) (fun h => h0 ((hcond1_0 t).mp h)) (fun h => h1 ((hcond1_1 t).mp h)) (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 20 = 0) (h1 : t.val % 20 = 19) :
    outsAt1 V c t.val t.isLt = at1 V c t (outs1_C c) (fun h => h0 ((hcond1_0 t).mp h)) ((hcond1_1 t).mpr h1) (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact absurd (Nat.zero_mod _) h0
  | succ n => exact (dif_neg h0).trans ((dif_pos h1).trans rfl)

def PhiS1 (c : Dev nD) : (n : ℕ) → n ≤ cfg1.N → sProp 𝕄
  | 0, _ => Pipeline.ΦA spec1 c
  | n + 1, hn => iprop(scopedWith1 (F := F) c iprop(owns (c : Thread nD τ) scM1_0 fullShare ((outsAt1 V c n hn).2.2.1) ∗ owns (c : Thread nD τ) scM1_1 fullShare ((outsAt1 V c n hn).2.2.2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(scopedWith1 (F := F) c iprop(owns (c : Thread nD τ) scM1_0 fullShare ((outsAt1 V c n hn).2.2.1) ∗ owns (c : Thread nD τ) scM1_1 fullShare ((outsAt1 V c n hn).2.2.2)) ∗ (∃ r, prngReg c r)) := rfl

theorem PhiS1_pos (c : Dev nD) (n : ℕ) (h : n ≤ cfg1.N) (hz : n ≠ 0) :
    PhiS1 V c n h = iprop(scopedWith1 (F := F) c iprop(owns (c : Thread nD τ) scM1_0 fullShare ((outsAt1 V c (n - 1) (by omega)).2.2.1) ∗ owns (c : Thread nD τ) scM1_1 fullShare ((outsAt1 V c (n - 1) (by omega)).2.2.2)) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 20 := lt_of_lt_of_eq t.isLt (show cfg1.N = 20 from N_1)
  rw [show (dat1 V c).leavesExact 0 t = owns (c : Thread nD τ) (ms1_0 t) fullShare ((dat1 V c).after 0 t) from by
          unfold Dat.leavesExact; rw [liveAt1 t 0 (Or.inl (by decide))], after1_0]
  rw [show (dat1 V c).leavesExact 1 t = owns (c : Thread nD τ) (ms1_1 t) fullShare ((dat1 V c).after 1 t) from by
          unfold Dat.leavesExact; rw [liveAt1 t 1 (Or.inl (by decide))], after1_1]
  rw [show (dat1 V c).leavesExact 2 t = owns (c : Thread nD τ) (ms1_2 t) fullShare ((dat1 V c).after 2 t) from by
          unfold Dat.leavesExact; rw [liveAt1 t 2 (Or.inl (by decide))], after1_2]
  rw [show (dat1 V c).leavesExact 3 t = owns (c : Thread nD τ) (ms1_3 t) fullShare ((dat1 V c).after 3 t) from by
          unfold Dat.leavesExact; rw [liveAt1 t 3 (Or.inl (by decide))], after1_3]
  by_cases h0 : t.val % 20 = 0
  · by_cases h1 : t.val % 20 = 19
    · exfalso; omega
    · rw [Dat.leavesExact_idle (dat1 V c) 4 t (idleAt1 t 4 (by decide) (fun h => h1 ((hcond1_1 t).mp h))).1 (idleAt1 t 4 (by decide) (fun h => h1 ((hcond1_1 t).mp h))).2]
      rw [Dat.leavesExact_idle (dat1 V c) 5 t (idleAt1 t 5 (by decide) (fun h => h1 ((hcond1_1 t).mp h))).1 (idleAt1 t 5 (by decide) (fun h => h1 ((hcond1_1 t).mp h))).2]
      rw [outsAt1_A V c t h0 h1]
      unfold at1 outs1_A; (try dsimp only)
      by_cases hz : t.val = 0
      · rw [PhiS1_castSucc V c t, PhiS1_zero V c _ _ hz, PhiA1_eq]
        iintro ⟨⟨HΦ, Hg⟩, Ho, ⟨%d0, H0⟩, ⟨%d1, H1⟩, ⟨%d2, H2⟩, ⟨%d3, H3⟩, ⟨%d4, H4⟩, ⟨%d5, H5⟩⟩
        ihave HΦ' := scopedWith1_out c _ $$ HΦ
        icases HΦ' with ⟨Hrest, HS0, HS1⟩
        iapply ((at1 V c t (kernelRun1_A c) ((hcond1_0 t).mpr h0) (fun h => h1 ((hcond1_1 t).mp h))).2.2.2.2 _ _ Set.univ _)
        iframe H0 H1 H2 H3 H4 H5 HS0 HS1
        iintro ⟨H0, H1, H2, H3, H4, H5, ⟨%es0, HS0⟩, ⟨%es1, HS1⟩⟩
        isplitl [Hrest HS0 HS1 Hg]
        · isplitl [Hrest HS0 HS1]
          · iapply scopedWith1_in c _
            isplitl [Hrest]; · iexact Hrest
            isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _)
            unfold owns; iexists _; isplitr
            swap; · iexact HS1
            ipureintro; exact View.read_writes_of_cover _ _ _ _ _ (scover1_A_1 c _ _ _ _ _ _ _ _ _ _ _ _ _ _ _ _ _ _ _ _ _ _ _)
          iexact Hg
        iframe Ho H0 H1 H2 H3
        isplitl [H4]; · iexists _; iexact H4
        iexists _; iexact H5
      · exfalso; omega
  · by_cases h1 : t.val % 20 = 19
    · rw [show (dat1 V c).leavesExact 4 t = owns (c : Thread nD τ) (ms1_4 t) fullShare ((dat1 V c).after 4 t) from by
              unfold Dat.leavesExact; rw [liveAt1 t 4 (Or.inr ((hcond1_1 t).mpr h1))], after1_4]
      rw [show (dat1 V c).leavesExact 5 t = owns (c : Thread nD τ) (ms1_5 t) fullShare ((dat1 V c).after 5 t) from by
              unfold Dat.leavesExact; rw [liveAt1 t 5 (Or.inr ((hcond1_1 t).mpr h1))], after1_5]
      rw [outsAt1_C V c t h0 h1]
      unfold at1 outs1_C; (try dsimp only)
      by_cases hz : t.val = 0
      · exfalso; omega
      · rw [PhiS1_castSucc V c t, PhiS1_pos V c _ _ hz]
        iintro ⟨⟨HΦ, Hg⟩, Ho, ⟨%d0, H0⟩, ⟨%d1, H1⟩, ⟨%d2, H2⟩, ⟨%d3, H3⟩, ⟨%d4, H4⟩, ⟨%d5, H5⟩⟩
        ihave HΦ' := scopedWith1_out c _ $$ HΦ
        icases HΦ' with ⟨Hrest, HS0, HS1⟩
        iapply ((at1 V c t (kernelRun1_C c) (fun h => h0 ((hcond1_0 t).mp h)) ((hcond1_1 t).mpr h1) _ _).2.2.2.2 Set.univ _)
        iframe H0 H1 H2 H3 HS0 HS1
        isplitl [H4]; · iexists _; iexact H4
        isplitl [H5]; · iexists _; iexact H5
        iintro ⟨H0, H1, H2, H3, ⟨%e4, H4⟩, ⟨%e5, H5⟩, ⟨%es0, HS0⟩, ⟨%es1, HS1⟩⟩
        isplitl [Hrest HS0 HS1 Hg]
        · isplitl [Hrest HS0 HS1]
          · iapply scopedWith1_in c _
            isplitl [Hrest]; · iexact Hrest
            isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _ _ _)
            unfold owns; iexists _; isplitr
            swap; · iexact HS1
            ipureintro; exact View.read_writes_of_cover _ _ _ _ _ (scover1_C_1 c _ _ _ _ _ _ _ _ _ _ _ _ _ _ _ _ _ _ _ _ _ _ _ _ _)
          iexact Hg
        iframe Ho H0 H1 H2 H3
        isplitl [H4]
        · unfold owns; iexists _; isplitr
          swap; · iexact H4
          ipureintro; exact View.read_writes_of_cover _ _ _ _ _ (cover1_C_4 c _ _ _ _ _ _ _ _ _ _ _ _ _ _ _ _ _ _ _ _ _ _ _ _ _)
        unfold owns; iexists _; isplitr
        swap; · iexact H5
        ipureintro; exact View.read_writes_of_cover _ _ _ _ _ (cover1_C_5 c _ _ _ _ _ _ _ _ _ _ _ _ _ _ _ _ _ _ _ _ _ _ _ _ _)
    · rw [Dat.leavesExact_idle (dat1 V c) 4 t (idleAt1 t 4 (by decide) (fun h => h1 ((hcond1_1 t).mp h))).1 (idleAt1 t 4 (by decide) (fun h => h1 ((hcond1_1 t).mp h))).2]
      rw [Dat.leavesExact_idle (dat1 V c) 5 t (idleAt1 t 5 (by decide) (fun h => h1 ((hcond1_1 t).mp h))).1 (idleAt1 t 5 (by decide) (fun h => h1 ((hcond1_1 t).mp h))).2]
      rw [outsAt1_B V c t h0 h1]
      unfold at1 outs1_B; (try dsimp only)
      by_cases hz : t.val = 0
      · exfalso; omega
      · rw [PhiS1_castSucc V c t, PhiS1_pos V c _ _ hz]
        iintro ⟨⟨HΦ, Hg⟩, Ho, ⟨%d0, H0⟩, ⟨%d1, H1⟩, ⟨%d2, H2⟩, ⟨%d3, H3⟩, ⟨%d4, H4⟩, ⟨%d5, H5⟩⟩
        ihave HΦ' := scopedWith1_out c _ $$ HΦ
        icases HΦ' with ⟨Hrest, HS0, HS1⟩
        iapply ((at1 V c t (kernelRun1_B c) (fun h => h0 ((hcond1_0 t).mp h)) (fun h => h1 ((hcond1_1 t).mp h)) _ _).2.2.2.2 _ _ Set.univ _)
        iframe H0 H1 H2 H3 H4 H5 HS0 HS1
        iintro ⟨H0, H1, H2, H3, H4, H5, ⟨%es0, HS0⟩, ⟨%es1, HS1⟩⟩
        isplitl [Hrest HS0 HS1 Hg]
        · isplitl [Hrest HS0 HS1]
          · iapply scopedWith1_in c _
            isplitl [Hrest]; · iexact Hrest
            isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _ _ _)
            unfold owns; iexists _; isplitr
            swap; · iexact HS1
            ipureintro; exact View.read_writes_of_cover _ _ _ _ _ (scover1_B_1 c _ _ _ _ _ _ _ _ _ _ _ _ _ _ _ _ _ _ _ _ _ _ _ _ _)
          iexact Hg
        iframe Ho H0 H1 H2 H3
        isplitl [H4]; · iexists _; iexact H4
        iexists _; iexact H5

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨HΦ, Hg⟩
  ihave HΦ' := scopedWith1_out c _ $$ HΦ
  icases HΦ' with ⟨Hrest, HS0, HS1⟩
  iframe Hg
  iapply scopedWith1_in c _
  iframe Hrest
  isplitl [HS0]; · iexists _; iexact HS0
  iexists _; iexact HS1

theorem hout1 (c : Dev nD) : (dat1 V c).Φ (Fin.last cfg1.N) ⊢ Pipeline.ΦA spec1 c :=
  Phi_out1 V c _ (by rw [Fin.val_last]; have : cfg1.N = 20 := N_1; omega)

end Region1

end Cert.KernelIdeal.Hand

end
-- ==== Proof.KiRun.lean ====
import proofs.«415816_j88759794139277_3_alg».proof.Proof.Gen.KernelIdeal.Regions
import proofs.«415816_j88759794139277_3_alg».proof.Proof.KiR0
import proofs.«415816_j88759794139277_3_alg».proof.Proof.KiR1
import Idealize.ShloMosaic.Lib.Pipeline.FrameBody
import Idealize.ShloMosaic.Lib.Pipeline.RegionsLoop
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev T3 : (c : Dev nD) → (b : Ref sig .tc) → Buf (Elt F) ((c : Thread nD τ).loc b) := fun c b => V3 m c b
abbrev T5 (outs : Outs (F := F)) : (c : Dev nD) → (b : Ref sig .tc) → Buf (Elt F) ((c : Thread nD τ).loc b) := fun c b => V5 m outs c b

def U4 (c : Dev nD) : Valuation τ sig (Elt F) :=
  Function.update (V3 m c) main_v64 ((dat0 (T3 m) c).arrAt 5 cfg0.N)

def outsA : Outs (F := F) := fun _ r c => U4 m c r

def U6 (c : Dev nD) : Valuation τ sig (Elt F) :=
  Function.update (Function.update (V5 m (outsA m) c) main_v79_0 ((dat1 (T5 m (outsA m)) c).arrAt 4 cfg1.N))
    main_v79_1 ((dat1 (T5 m (outsA m)) c).arrAt 5 cfg1.N)

def outsOf : Outs (F := F) := fun J r c => if J = 4 then U4 m c r else U6 m c r

theorem outsOf_64 (c : Dev nD) : outsOf m 4 main_v64 c = (dat0 (T3 m) c).arrAt 5 cfg0.N := by
  unfold outsOf U4; rw [if_pos rfl]; exact Function.update_self ..

theorem T5_outs : T5 m (outsOf m) = T5 m (outsA m) := by
  funext c b; unfold T5 V5 V4 outsOf outsA; rw [if_pos rfl]

theorem outsOf_79_0 (c : Dev nD) : outsOf m 6 main_v79_0 c = (dat1 (T5 m (outsOf m)) c).arrAt 4 cfg1.N := by
  rw [T5_outs]; unfold outsOf U6; rw [if_neg (by decide)]
  rw [Function.update_of_ne (StableHlo.devRef_ne_of_ne (by decide) : (Proc.devRef .tc main_v79_0 : DevRef τ sig) ≠ Proc.devRef .tc main_v79_1)]
  exact Function.update_self ..
theorem outsOf_79_1 (c : Dev nD) : outsOf m 6 main_v79_1 c = (dat1 (T5 m (outsOf m)) c).arrAt 5 cfg1.N := by
  rw [T5_outs]; unfold outsOf U6; rw [if_neg (by decide)]
  exact Function.update_self ..

def pdats : (p : Fin 2) → (c : Dev nD) → Dat τ (Elt F) Unit ℕ (UR sig nD τ) ℕ (Pipeline.pin (pcfgs (F := F)) adm p) c
  | ⟨0, _⟩ => fun c => dat0 (T3 m) c
  | ⟨1, _⟩ => fun c => dat1 (T5 m (outsOf m)) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev E : Fin 3 → Dev nD → sProp 𝕄 := fun _ c => R c

theorem hF1_4 (c : Dev nD) : (dat1 (T5 m (outsOf m)) c).arrAt 4 cfg1.N = V6 m (outsOf m) c (Pipeline.arrRef spec1 4) := by
  rw [← outsOf_79_0]
  show _ = Function.update (Function.update (V5 m (outsOf m) c) main_v79_0 (outsOf m 6 main_v79_0 c)) main_v79_1 (outsOf m 6 main_v79_1 c) main_v79_0
  rw [Function.update_of_ne (StableHlo.devRef_ne_of_ne (by decide) : (Proc.devRef .tc main_v79_0 : DevRef τ sig) ≠ Proc.devRef .tc main_v79_1)]
  exact (Function.update_self (Proc.devRef .tc main_v79_0 : DevRef τ sig) _ (V5 m (outsOf m) c)).symm
theorem hF1_5 (c : Dev nD) : (dat1 (T5 m (outsOf m)) c).arrAt 5 cfg1.N = V6 m (outsOf m) c (Pipeline.arrRef spec1 5) := by
  rw [← outsOf_79_1]
  show _ = Function.update (Function.update (V5 m (outsOf m) c) main_v79_0 (outsOf m 6 main_v79_0 c)) main_v79_1 (outsOf m 6 main_v79_1 c) main_v79_1
  exact (Function.update_self (Proc.devRef .tc main_v79_1 : DevRef τ sig) _
    (Function.update (V5 m (outsOf m) c) main_v79_0 (outsOf m 6 main_v79_0 c))).symm

theorem pref0 (c : Dev nD) : ∀ p : Fin 2, (emp : sProp 𝕄) ⊢ Pipeline.prefHeld (pcfgs (F := F) p).pre c (fun _ => fullShare) (adm p).1
  | 0 | 1 => by unfold Pipeline.prefHeld; rw [show (Finset.univ : Finset (Fin 0)) = ∅ from rfl, BI.bigSep_empty]; exact .rfl
  | ⟨_ + 2, h⟩ => absurd h (Nat.not_lt.2 (Nat.le_add_left _ _))

-- one record for both regions: the contents before (`Vi`) and after (`Vo`) differ only on the arrays `O` the region writes
set_option backward.isDefEq.respectTransparency.types false in
def reg (p : Fin 2) (lf : Pipeline.LaunchFacts (nD := nD) (τ := τ) cfgs p) (Vi Vo : (c : Dev nD) → Valuation τ sig (Elt F))
    (hq : ∀ c w, (pdats m p c).q w = fullShare) (hw : ∀ c t, (pdats m p c).owed t = 0) (hrc : ∀ c x, x ∈ (pdats m p c).recorded 0)
    (hA : ∀ c w, (pdats m p c).A w = Vi c (Pipeline.arrRef (cfgs p).spec w))
    (hb : ∀ c, BodyObligation (pdats m p c) (defs₀ (F := F)) 𝒱₀ () Set.univ)
    (hi : ∀ c, Pipeline.ΦA (cfgs p).spec c ⊢ (pdats m p c).Φ 0)
    (hl : ∀ c, (pdats m p c).Φ (Fin.last _) ⊢ Pipeline.ΦA (cfgs p).spec c)
    (O : List (Ref sig .tc)) (hV : ∀ c r, r ∉ O → Vo c r = Vi c r)
    (hio : ∀ w, ((cfgs p).win w).isOut = false → Pipeline.arrRef (cfgs p).spec w ∉ O) (hO : ∀ b ∈ O, ∃ w, Pipeline.arrRef (cfgs p).spec w = b)
    (hF : ∀ c w, ((cfgs p).win w).isOut = true → (pdats m p c).arrAt w (cfgs p).N = Vo c (Pipeline.arrRef (cfgs p).spec w)) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p hw
  pre c := iprop(StableHlo.held (c : Thread nD τ) (Pipeline.ucRefs τ sig) (Vi c) ∗ R c)
  post c := iprop(StableHlo.held (c : Thread nD τ) (Pipeline.ucRefs τ sig) (Vo c) ∗ R c)
  X c := iprop(∃ r, prngReg c r)
  Y c := iprop(∃ r, prngReg c r)
  Z c := Pipeline.unscopedRest (Ix := Unit) (Name := ℕ) (U := UR sig nD τ) (Lvl := ℕ) (cfgs p).spec c fun b => Vi c b
  hentry c := by
    rw [Pipeline.ownSems0_none]
    have hsplit := Pipeline.arrays_of_unscopedBufs (p := p) (pcfgs (F := F)) adm (pdats m) lf.win lf.arr_whole c
      ((pdats m p c).share_full (hq c)) (fun b => Vi c b) (hA c)
    rw [Pipeline.unscopedBufs_held] at hsplit
    iintro ⟨⟨Hub, Hp, HO⟩, -, -⟩
    icases hsplit $$ Hub with ⟨Ha, Hrest⟩
    imodintro
    iframe Ha Hp Hrest
    isplitr; · iapply pref0 c p; iempintro
    unfold Pipeline.Dat.owesAt Pipeline.owesWithin; rw [hw c]
    icases HO with ⟨%W, HO⟩; iexists W; isplitr; · ipureintro; exact fun _ _ => Or.inl (hrc c _)
    iexact HO
  hin c := .trans (by unfold Pipeline.ΦA; iintro ⟨Hp, -, Hr⟩; iframe) (hi c)
  hout c := (hl c).trans (by rw [Pipeline.ownSems0_none]; unfold Pipeline.ΦA; iintro ⟨Hr, Hp⟩; iframe; iempintro)
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (fun b => Vi c b) (fun b => Vo c b) ((pdats m p c).arrAt · (cfgs p).N)
      (fun w => by
        cases h : ((cfgs p).win w).isOut
        · exact ((pdats m p c).arrAt_in w h _).trans ((hA c w).trans (hV c _ (hio w h)).symm)
        · exact hF c w h)
      fun b hb => hV c b fun h => hb (Finset.mem_image.mpr ((hO b h).imp fun _ hw => ⟨Finset.mem_univ _, hw⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [hw c]
    icases HO with ⟨%W, -, HO⟩; iexists W; iexact HO

def reg0 :=
  reg m 0 launch0 (V3 m) (V4 m (outsOf m)) (fun _ _ => rfl) (fun _ _ => rfl) (fun _ _ => trivial) (fun _ _ => rfl) (body_obligation0 (T3 m))
    (fun _ => .rfl) (fun _ => .rfl) [main_v64] (V4_of m (outsOf m)) (by decide) (by decide) fun c => fun
    | 5, _ => ((Function.update_self (Proc.devRef .tc main_v64 : DevRef τ sig) _ (V3 m c)).trans (outsOf_64 m c)).symm
    | 0, h | 1, h | 2, h | 3, h | 4, h => absurd h (by decide)
    | ⟨_ + 6, h⟩, _ => absurd h (Nat.not_lt.2 (Nat.le_add_left _ _))

def reg1 :=
  reg m 1 launch1 (V5 m (outsOf m)) (V6 m (outsOf m)) (fun _ _ => rfl) (fun _ _ => rfl) (fun _ _ => trivial) (A_eq1 (T5 m (outsOf m))) (body_obligation1 (T5 m (outsOf m)))
    (hin1 (T5 m (outsOf m))) (hout1 (T5 m (outsOf m))) [main_v79_0, main_v79_1] (V6_of m (outsOf m)) (by decide) (by decide) fun c => fun
    | 4, _ => hF1_4 m c
    | 5, _ => hF1_5 m c
    | 0, h | 1, h | 2, h | 3, h => absurd h (by decide)
    | ⟨_ + 6, h⟩, _ => absurd h (Nat.not_lt.2 (Nat.le_add_left _ _))

set_option backward.isDefEq.respectTransparency.types false in
theorem run_main : θ_run defs (onTc (τ := τ) (main (F := F))) ⟨m, fun _ => 0, ρ⟩ (fun r => ∀ c : Dev nD,
      r.2.mem ((c.tc : Thread nD τ).loc main_v116) = V7 m (outsOf m) c main_v116
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  refine Pipeline.θ_run_regions_kit_dev (pcfgs (F := F)) adm (pdats m) () cellOf_inj emb₁ defs₀ 𝒱₀ L lv m ρ main
    (segs m (outsOf m) 𝒱₀ L lv E () (pdats m) (reg0 m) (reg1 m))
    (fun c Q => by
      rewrite [main_chain c, Pipeline.Seg.run_eq_chain,
        show (segs m (outsOf m) 𝒱₀ L lv E () (pdats m) (reg0 m) (reg1 m) c).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V7 m (outsOf m) c))
    (hch := fun c => ⟨.rfl, .rfl, .rfl, .rfl, .rfl, .rfl, .rfl, sep_mono .rfl (by iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := _)
    (hfin := fun c s' => ?_) (hQ := fun _ h => h)
  unfold StableHlo.held
  iintro ⟨Hh, HSI⟩
  ihave Hr := (pointsTo_read_all (Pipeline.ucRefs τ sig) (fun b => ((c : Thread nD τ).1, b)) (V7 m (outsOf m) c) s') $$ [Hh HSI]
  · isplitl [Hh] <;> iassumption
  icases Hr with ⟨%h, HSI⟩
  imodintro
  isplitr
  · ipureintro
    have hr (r : Ref sig .tc) hr := h (Proc.devRef .tc r) (Finset.mem_filter.mpr ⟨StableHlo.devRef_mem_tcRefs r, hr⟩)
    exact ⟨hr main_v116 (by decide),
      (hr main_arg0 (by decide)).trans (V7_main_arg0 ..),
      (hr main_arg1 (by decide)).trans (V7_main_arg1 ..),
      (hr main_arg2 (by decide)).trans (V7_main_arg2 ..),
      (hr main_arg3 (by decide)).trans (V7_main_arg3 ..),
      (hr main_arg4 (by decide)).trans (V7_main_arg4 ..),
      (hr main_arg5 (by decide)).trans (V7_main_arg5 ..),
      (hr main_arg6 (by decide)).trans (V7_main_arg6 ..),
      (hr main_arg7 (by decide)).trans (V7_main_arg7 ..),
      (hr main_arg8 (by decide)).trans (V7_main_arg8 ..),
      (hr main_arg9 (by decide)).trans (V7_main_arg9 ..),
      (hr main_arg10 (by decide)).trans (V7_main_arg10 ..)⟩
  · iexact HSI

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => (h c).2) (run_main m ρ)

end Cert.KernelIdeal.Hand

end
-- ==== Proof.LibGather2.lean ====
import Idealize.ShloMosaic.PureOps.ShapeOps
import Idealize.ShloMosaic.PureOps.Dims
import Idealize.ShloMosaic.Lib.ValueIdx

namespace IndexOpsLib

open Idealize.ShloMosaic Idealize.ShloMosaic.ValueIdx

def clampRow (N : Nat) (hN : 0 < N) {w : Nat} (v : BitVec w) : Fin N := ⟨min v.toInt.toNat (N - 1), by omega⟩

-- Whole rows of a table taken at a column of start ids: row = the id read signed and clamped into range.
theorem gather_rows {α : Type} {N C E w : Nat} (hN : 0 < N)
    (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![E, 1]⟩ w) (e : Fin E) (c : Fin C) :
    Host.gather d x idx (ix2 e c) = x (ix2 (clampRow N hN (idx (ix2 e (0 : Fin 1)))) c) := by
  have hbatch : ∀ X : Fin 2, X ∈ d.batchDims → ((ix2 e c : (⟨2, ![E, C]⟩ : Shape).Idx) X).val = e.val := by
    intro X hX
    have hX' : X ∉ d.offsetDims := by
      have := (List.mem_filter.1 hX).2
      simpa using this
    rw [hoff] at hX'
    match X with
    | ⟨0, _⟩ => rfl
    | ⟨1, _⟩ => exact absurd (List.mem_singleton.mpr rfl) hX'
  have hoffs : ∀ X : Fin 2, X ∈ d.offsetDims → ((ix2 e c : (⟨2, ![E, C]⟩ : Shape).Idx) X).val = c.val := by
    intro X hX
    rw [hoff] at hX
    have hX1 : X = 1 := List.mem_singleton.mp hX
    subst hX1; rfl
  have hb : ∀ a : Fin 2, a ∉ d.operandBatchingDims := fun a => by rw [hob]; exact List.not_mem_nil
  have h0 : (d.operandIdx (ix2 e c) idx (0 : Fin 2)).val = (clampRow N hN (idx (ix2 e (0 : Fin 1)))).val := by
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    simp only [GatherDims.operandIdx, GatherDims.batchCoord_eq_zero _ _ _ (hb 0), GatherDims.offCoord_eq_zero _ _ _ hk,
      Nat.add_zero, GatherDims.start, dif_pos hm]
    show min (idx _).toInt.toNat (N - d.sliceSizes 0) = min (idx (ix2 e 0)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      exact hbatch _ (List.getElem_mem _)
    | ⟨1, _⟩ =>
      unfold GatherDims.siIdx
      rw [dif_pos (by rw [hivd])]
      apply Fin.ext
      show List.idxOf (0 : Fin 2) d.startIndexMap = 0
      rw [hsim]; simp
  have h1 : (d.operandIdx (ix2 e c) idx (1 : Fin 2)).val = c.val := by
    have hk : (1 : Fin 2) ∈ d.sKept := by rw [GatherDims.mem_sKept, hcoll, hob]; simp
    have hm : (1 : Fin 2) ∉ d.startIndexMap := by rw [hsim]; simp
    simp only [GatherDims.operandIdx, GatherDims.batchCoord_eq_zero _ _ _ (hb 1), GatherDims.start, dif_neg hm,
      GatherDims.offCoord, dif_pos hk, Nat.add_zero, Nat.zero_add]
    exact hoffs _ (List.getElem_mem _)
  unfold Host.gather
  congr 1
  funext a
  match a with
  | ⟨0, _⟩ => exact Fin.ext h0
  | ⟨1, _⟩ => exact Fin.ext h1

end IndexOpsLib
-- ==== Proof.Spec.lean ====
import Idealize.ShloMosaic.PureOps.Ideal
import Idealize.ShloMosaic.Lib.ValueIdx
import proofs.«415816_j88759794139277_3_alg».proof.Proof.LibGather2

noncomputable section

namespace GcnSpec

open Idealize.ShloMosaic Idealize.ShloMosaic.ValueIdx IndexOpsLib

abbrev nN : Nat := 100000
abbrev nE : Nat := 900000

abbrev Sn : Shape := ⟨1, ![100000]⟩
abbrev Se : Shape := ⟨1, ![900000]⟩
abbrev Sn1 : Shape := ⟨2, ![100000, 1]⟩
abbrev Sn64 : Shape := ⟨2, ![100000, 64]⟩
abbrev Sn128 : Shape := ⟨2, ![100000, 128]⟩
abbrev S64x64 : Shape := ⟨2, ![64, 64]⟩
abbrev S64x256 : Shape := ⟨2, ![64, 256]⟩
abbrev S1x256 : Shape := ⟨2, ![1, 256]⟩
abbrev S1x128 : Shape := ⟨2, ![1, 128]⟩
abbrev S2x128x64 : Shape := ⟨3, ![2, 128, 64]⟩
abbrev S3x64x128 : Shape := ⟨3, ![3, 64, 128]⟩
abbrev S3x128 : Shape := ⟨2, ![3, 128]⟩
abbrev S3x128x64 : Shape := ⟨3, ![3, 128, 64]⟩
abbrev S3x64 : Shape := ⟨2, ![3, 64]⟩

def relu (x : EReal) : EReal := max x 0

def wrapId (w : BitVec 32) : BitVec 32 := if w.toInt < 0 then w + 100000#32 else w

def gRow (ids : IVec Se 32) (e : Fin nE) : Fin nN := clampRow nN (by decide) (wrapId (ids (ix1 e)))

def sRow? (N : Nat) (w : BitVec 32) : Option (Fin N) :=
  if h : 0 ≤ w.toInt ∧ w.toInt < N then some ⟨w.toInt.toNat, by omega⟩ else none

def landing (dst : IVec Se 32) (v : Fin nN) : Finset (Fin nE) :=
  Finset.univ.filter fun e => sRow? nN (dst (ix1 e)) = some v

def members (rb : IVec Sn 32) (b : Fin 64) : Finset (Fin nN) :=
  Finset.univ.filter fun v => sRow? 64 (rb (ix1 v)) = some b

section Layers

variable (X : Sn64.Idx → EReal) (src dst : IVec Se 32) (ew : Se.Idx → EReal) (dinv : Sn.Idx → EReal)
  (W1 : S3x64x128.Idx → EReal) (b1 : S3x128.Idx → EReal) (W2 : S3x128x64.Idx → EReal) (b2 : S3x64.Idx → EReal)

def coef (e : Fin nE) : EReal := dinv (ix1 (gRow src e)) * ew (ix1 e) * dinv (ix1 (gRow dst e))

def xw1R (g : Fin 3) (u : Fin nN) (k : Fin 128) : EReal := ∑ i : Fin 64, X (ix2 u i) * W1 (ix3 g i k)

def h1R (g : Fin 3) (v : Fin nN) (k : Fin 128) : EReal :=
  relu ((∑ e ∈ landing dst v, coef src dst ew dinv e * xw1R X W1 g (gRow src e) k) + b1 (ix2 g k))

def xw2R (g : Fin 3) (u : Fin nN) (j : Fin 64) : EReal :=
  ∑ k : Fin 128, h1R X src dst ew dinv W1 b1 g u k * W2 (ix3 g k j)

def h2R (g : Fin 3) (v : Fin nN) (j : Fin 64) : EReal :=
  relu ((∑ e ∈ landing dst v, coef src dst ew dinv e * xw2R X src dst ew dinv W1 b1 W2 g (gRow src e) j) + b2 (ix2 g j))

def aggxK (v : Fin nN) (i : Fin 64) : EReal :=
  ∑ e ∈ landing dst v, X (ix2 (gRow src e) i) * (ew (ix1 e) * dinv (ix1 (gRow src e)))

def h1K (g : Fin 3) (v : Fin nN) (k : Fin 128) : EReal :=
  relu ((∑ i : Fin 64, (aggxK X src dst ew dinv v i * dinv (ix1 v)) * W1 (ix3 g i k)) + b1 (ix2 g k))

def xw2sK (g : Fin 3) (u : Fin nN) (j : Fin 64) : EReal :=
  (∑ k : Fin 128, h1K X src dst ew dinv W1 b1 g u k * W2 (ix3 g k j)) * dinv (ix1 u)

def agg2K (g : Fin 3) (v : Fin nN) (j : Fin 64) : EReal :=
  ∑ e ∈ landing dst v, ew (ix1 e) * xw2sK X src dst ew dinv W1 b1 W2 g (gRow src e) j

def h2K (g : Fin 3) (v : Fin nN) (j : Fin 64) : EReal :=
  relu (agg2K X src dst ew dinv W1 b1 W2 g v j * dinv (ix1 v) + b2 (ix2 g j))

end Layers

def half (n : Nat) (g : Fin 2) (k : Fin n) : Fin (2 * n) := ⟨g.val * n + k.val, by
  have := g.isLt; have := k.isLt; nlinarith⟩

def layer1K (aggx : Sn64.Idx → EReal) (dinv2 : Sn1.Idx → EReal) (w1c : S64x256.Idx → EReal) (b1c : S1x256.Idx → EReal)
    (w2c : S2x128x64.Idx → EReal) (v : Fin nN) (g : Fin 2) (j : Fin 64) : EReal :=
  (∑ k : Fin 128, relu ((∑ i : Fin 64, (aggx (ix2 v i) * dinv2 (ix2 v 0)) * w1c (ix2 i (half 128 g k))) + b1c (ix2 0 (half 128 g k)))
      * w2c (ix3 g k j)) * dinv2 (ix2 v 0)

def isIn (rb2 : IVec Sn1 32) (v : Fin nN) (b : Fin 64) : Prop := rb2 (ix2 v 0) = BitVec.ofNat 32 b.val

instance (rb2 : IVec Sn1 32) (v : Fin nN) (b : Fin 64) : Decidable (isIn rb2 v b) := by unfold isIn; infer_instance

def poolK (rb2 : IVec Sn1 32) (agg2 : Sn128.Idx → EReal) (b2c : S1x128.Idx → EReal) (dinv2 : Sn1.Idx → EReal)
    (b : Fin 64) (f : Fin 128) : EReal :=
  ∑ v : Fin nN, (if isIn rb2 v b then (1 : EReal) else 0) * relu (agg2 (ix2 v f) * dinv2 (ix2 v 0) + b2c (ix2 0 f))

def cntK (rb2 : IVec Sn1 32) (b : Fin 64) : EReal := ∑ v : Fin nN, (if isIn rb2 v b then (1 : EReal) else 0)

def one : EReal := Ideal.ofBits .f32 0x3F800000#32

def poolR (rb : IVec Sn 32) (h : Fin nN → EReal) (b : Fin 64) : EReal := ∑ v ∈ members rb b, h v
def cntR (rb : IVec Sn 32) (b : Fin 64) : EReal := ∑ _v ∈ members rb b, one

def gatePre (ps : Fin 64 → Fin 64 → EReal) (cnt : Fin 64 → EReal) (H : S64x64.Idx → EReal) (Wl : S3x128x64.Idx → EReal)
    (bl : S3x64.Idx → EReal) (g : Fin 3) (b j : Fin 64) : EReal :=
  (∑ k : Fin 128, (if h : k.val < 64 then Ideal.div (ps b ⟨k.val, h⟩) (max (cnt b) one) else H (ix2 b ⟨k.val - 64, by omega⟩))
      * Wl (ix3 g k j)) + bl (ix2 g j)

def outSpec (ps0 ps2 : Fin 64 → Fin 64 → EReal) (cnt : Fin 64 → EReal) (H : S64x64.Idx → EReal) (Wl : S3x128x64.Idx → EReal)
    (bl : S3x64.Idx → EReal) (b j : Fin 64) : EReal :=
  let z := Ideal.div one (one + Ideal.exp (-(gatePre ps0 cnt H Wl bl 0 b j)))
  z * H (ix2 b j) + (one - z) * Ideal.tanh (gatePre ps2 cnt H Wl bl 2 b j)

end GcnSpec

end
-- ==== Proof.KiV0Pay.lean ====
import proofs.«415816_j88759794139277_3_alg».proof.Proof.Gen.KernelIdeal.Skeleton
import proofs.«415816_j88759794139277_3_alg».proof.Proof.Spec
import Idealize.ShloMosaic.Lib.ValueLayout
import Idealize.ShloMosaic.PureOps.Ideal.Laws

noncomputable section

namespace Cert.KernelIdeal.Hand

open Idealize.ShloMosaic Idealize.ShloMosaic.ValueIdx Cert.KernelIdeal Cert.KernelIdeal.Gen GcnSpec

-- A product of [m, k] by [k, n] into zeros is, entry by entry, the sum over the contracted coordinate.
theorem l1_product_apply {m k n : ℕ} (D : DotDims ⟨2, ![m, k]⟩ ⟨2, ![k, n]⟩ ⟨2, ![m, n]⟩) (hr : D.contr.rank = 1)
    (hs : D.contr.size ⟨0, by omega⟩ = k)
    (hi : ∀ i q, (D.lhsIdx i q 0).val = (i 0).val ∧ (D.lhsIdx i q 1).val = (q ⟨0, by omega⟩).val
      ∧ (D.rhsIdx i q 0).val = (q ⟨0, by omega⟩).val ∧ (D.rhsIdx i q 1).val = (i 1).val)
    (lhs : FVec Ideal ⟨2, ![m, k]⟩ .f32) (rhs : FVec Ideal ⟨2, ![k, n]⟩ .f32) (r : Fin m) (c : Fin n) :
    matmul D none lhs rhs (constant (F := Ideal) ⟨2, ![m, n]⟩ .f32 0x00000000#32) (ix2 r c)
      = ∑ j : Fin k, lhs (ix2 r j) * rhs (ix2 j c) := by
  simp only [matmul]
  rw [Ideal.matmul_constant_zero_apply, ← Equiv.sum_comp (contrEquiv1 D k hr hs).symm]
  refine Finset.sum_congr rfl fun j _ => ?_
  obtain ⟨l0, l1, r0, r1⟩ := hi (ix2 r c) ((contrEquiv1 D k hr hs).symm j)
  have hk := contrEquiv1_symm_val D k hr hs j
  have el : D.lhsIdx (ix2 r c) ((contrEquiv1 D k hr hs).symm j) = ix2 r j := funext fun a => Fin.ext (by
    match a with
    | ⟨0, _⟩ => exact l0
    | ⟨1, _⟩ => exact l1.trans hk)
  have er : D.rhsIdx (ix2 r c) ((contrEquiv1 D k hr hs).symm j) = ix2 j c := funext fun a => Fin.ext (by
    match a with
    | ⟨0, _⟩ => exact r0.trans hk
    | ⟨1, _⟩ => exact r1)
  rw [el, er]

theorem l1_hidden_apply (x0 : FVec Ideal S5000x64 .f32) (x1 : FVec Ideal S5000x1 .f32) (x2 : FVec Ideal S64x256 .f32)
    (x3 : FVec Ideal S1x256 .f32) (h0 : S5000x64.ShapeCasts S5000x64) (h1 : S5000x1.ShapeCasts S5000x1)
    (hb1 : S5000x1.Broadcasts S5000x64) (h2 : S64x256.ShapeCasts S64x256) (h3 : S1x256.ShapeCasts S1x256)
    (hb3 : S1x256.Broadcasts S5000x256) (r : Fin 5000) (q : Fin 256) :
    (maximumf
          (addf
            (matmul dot_S5000x64_S64x256_S5000x256_1_0_0_1_n_n none
              (mulf (shapeCast S5000x64 x0 h0) (broadcastTo S5000x64 (shapeCast S5000x1 x1 h1) hb1))
              (shapeCast S64x256 x2 h2) (constant (F := Ideal) S5000x256 .f32 0x00000000#32))
            (broadcastTo S5000x256 (shapeCast S1x256 x3 h3) hb3))
          (broadcast S5000x256 (FloatOps.ofBits (F := Ideal) .f32 0x00000000#32))) (ix2 r q)
      = relu ((∑ i : Fin 64, (x0 (ix2 r i) * x1 (ix2 r 0)) * x2 (ix2 i q)) + x3 (ix2 0 q)) := by
  rw [shapeCast_self, shapeCast_self, shapeCast_self, shapeCast_self, maximumf_apply, addf_apply,
    l1_product_apply dot_S5000x64_S64x256_S5000x256_1_0_0_1_n_n rfl rfl (fun _ _ => ⟨rfl, rfl, rfl, rfl⟩), broadcastTo_1b_ab_apply, broadcast_apply]
  show max _ (Ideal.ofBits .f32 0x00000000#32) = max _ 0
  rw [Ideal.ofBits_zero_f32]
  refine congrArg (fun s => max (s + x3 (ix2 0 q)) 0) (Finset.sum_congr rfl fun i _ => ?_)
  rw [mulf_apply, broadcastTo_apply x1 _ (ix2 r i) (ix2 r 0) (fun a => by
    match a with
    | ⟨0, _⟩ => rfl
    | ⟨1, _⟩ => rfl)]

theorem l1_gate_apply (H : FVec Ideal S5000x256 .f32) (x4 : FVec Ideal S2x128x64 .f32) (o og : ℕ)
    (hs : S5000x256.Slices ![0, o] S5000x128) (h4 : S2x128x64.ShapeCasts S2x128x64)
    (hm : S2x128x64.Slices ![og, 0, 0] S1x128x64) (hc : S1x128x64.ShapeCasts S128x64)
    (g : Fin 2) (hgo : o = g.val * 128) (hgg : g.val = og) (r : Fin 5000) (j : Fin 64) :
    matmul dot_S5000x128_S128x64_S5000x64_1_0_0_1_n_n none (extractStridedSlice S5000x128 ![0, o] H hs)
        (shapeCast S128x64 (extractStridedSlice S1x128x64 ![og, 0, 0] (shapeCast S2x128x64 x4 h4) hm) hc)
        (constant (F := Ideal) S5000x64 .f32 0x00000000#32) (ix2 r j)
      = ∑ k : Fin 128, H (ix2 r (half 128 g k)) * x4 (ix3 g k j) := by
  rw [l1_product_apply dot_S5000x128_S128x64_S5000x64_1_0_0_1_n_n rfl rfl (fun _ _ => ⟨rfl, rfl, rfl, rfl⟩)]
  refine Finset.sum_congr rfl fun k _ => congrArg₂ (· * ·) ?_ ?_
  · exact slice2_axis1_apply o H hs r k (half 128 g k) (by
      show g.val * 128 + k.val = o + k.val
      omega)
  · rw [shapeCast_1ab_ab_apply]
    refine (extractStridedSlice_apply _ _ hm (ix3 0 k j) (ix3 g k j) (fun ax => by
      match ax with
      | ⟨0, _⟩ => show g.val = og + 0; omega
      | ⟨1, _⟩ => exact (Nat.zero_add _).symm
      | ⟨2, _⟩ => exact (Nat.zero_add _).symm)).trans ?_
    rw [shapeCast_self]

theorem layer1_pay_apply (x0 : Vec Ideal S5000x64 .f32) (x1 : Vec Ideal S5000x1 .f32) (x2 : Vec Ideal S64x256 .f32)
    (x3 : Vec Ideal S1x256 .f32) (x4 : Vec Ideal S2x128x64 .f32) (r : Fin 5000) (g : Fin 2) (j : Fin 64) :
    Gen.k0_pay1 (F := Ideal) x1 x0 x2 x3 x4 (ix2 r (half 64 g j))
      = (∑ k : Fin 128, relu ((∑ i : Fin 64, (x0 (ix2 r i) * x1 (ix2 r 0)) * x2 (ix2 i (half 128 g k))) + x3 (ix2 0 (half 128 g k)))
          * x4 (ix3 g k j)) * x1 (ix2 r 0) := by
  unfold Gen.k0_pay1
  rw [mulf_apply]
  refine congrArg₂ (· * ·) ?_ ((broadcastTo_apply _ _ (ix2 r (half 64 g j)) (ix2 r 0) (fun a => by
    match a with
    | ⟨0, _⟩ => rfl
    | ⟨1, _⟩ => rfl)).trans (by rw [shapeCast_self]))
  match g with
  | ⟨0, hg⟩ =>
    refine (concatenate_pair_apply_left (t := S5000x128) (s₁ := S5000x64) (s₂ := S5000x64) 1 _ _ _ (ix2 r (half 64 ⟨0, hg⟩ j)) rfl (ix2 r j) (fun b => ?_)).trans ?_
    · match b with
      | ⟨0, _⟩ => rfl
      | ⟨1, _⟩ => show j.val = 0 * 64 + j.val; omega
    exact (l1_gate_apply _ x4 0 0 _ _ _ _ ⟨0, hg⟩ rfl rfl r j).trans (Finset.sum_congr rfl fun k _ =>
      congrArg (· * x4 (ix3 (⟨0, hg⟩ : Fin 2) k j)) (l1_hidden_apply x0 x1 x2 x3 _ _ _ _ _ _ r (half 128 ⟨0, hg⟩ k)))
  | ⟨1, hg⟩ =>
    refine (concatenate_pair_apply_right (t := S5000x128) (s₁ := S5000x64) (s₂ := S5000x64) 1 _ _ _ (ix2 r (half 64 ⟨1, hg⟩ j)) rfl rfl (ix2 r j) (fun b => ?_) ?_).trans ?_
    · match b with
      | ⟨0, _⟩ => exact fun _ => rfl
      | ⟨1, _⟩ => exact fun hne => absurd (Fin.ext rfl) hne
    · show j.val + 64 = 1 * 64 + j.val; omega
    exact (l1_gate_apply _ x4 128 1 _ _ _ _ ⟨1, hg⟩ rfl rfl r j).trans (Finset.sum_congr rfl fun k _ =>
      congrArg (· * x4 (ix3 (⟨1, hg⟩ : Fin 2) k j)) (l1_hidden_apply x0 x1 x2 x3 _ _ _ _ _ _ r (half 128 ⟨1, hg⟩ k)))

end Cert.KernelIdeal.Hand

end
-- ==== Proof.KiV0Arr.lean ====
import proofs.«415816_j88759794139277_3_alg».proof.Proof.KiR0
import proofs.«415816_j88759794139277_3_alg».proof.Proof.KiV0Pay
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.SL.Sem
open Idealize.ShloMosaic.ValueIdx

def colHalf (col : Fin 128) : Fin 2 := ⟨col.val / 64, by have := col.isLt; omega⟩
def colIn (col : Fin 128) : Fin 64 := ⟨col.val % 64, Nat.mod_lt _ (by decide)⟩

theorem half_col (col : Fin 128) : GcnSpec.half 64 (colHalf col) (colIn col) = col :=
  Fin.ext (by show col.val / 64 * 64 + col.val % 64 = col.val; omega)

theorem colHalf_half (g : Fin 2) (j : Fin 64) : colHalf (GcnSpec.half 64 g j) = g :=
  Fin.ext (by show (g.val * 64 + j.val) / 64 = g.val; have := j.isLt; omega)

theorem colIn_half (g : Fin 2) (j : Fin 64) : colIn (GcnSpec.half 64 g j) = j :=
  Fin.ext (by show (g.val * 64 + j.val) % 64 = j.val; have := j.isLt; omega)

theorem hz2 : (![0, 0] : Fin 2 → Nat) = fun _ => 0 := funext fun a => by fin_cases a <;> rfl
theorem hz3 : (![0, 0, 0] : Fin 3 → Nat) = fun _ => 0 := funext fun a => by fin_cases a <;> rfl

theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = 0 ∧ win0_4.index t (1 : Fin 3) = 0 ∧ win0_4.index t (2 : Fin 3) = 0
    ∧ win0_5.index t (0 : Fin 2) = t.val ∧ win0_5.index t (1 : Fin 2) = 0 :=
  (by decide +kernel : ∀ t : Fin grid0.N, _)

def rowOf (t : Fin cfg0.N) (r : Fin 5000) : Fin 100000 :=
  ⟨5000 * t.val + r.val, by have := lt_of_lt_of_eq t.isLt N_0; have := r.isLt; omega⟩

variable (V : (c : Dev nD) → (b : Ref sig .tc) → Buf (Elt Ideal) ((c : Thread nD τ).loc b)) (c : Dev nD) (t : Fin cfg0.N)

-- The whole result array: at row v and column col, the layer's entry (v, half of col, place of col in it).
def layer1Arr : S100000x128.Idx → EReal :=
  fun i => GcnSpec.layer1K (V c main_v63) (V c main_v18) (V c main_v23) (V c main_v29) (V c main_v36) (i 0) (colHalf (i 1)) (colIn (i 1))

theorem iblk0_0_apply (r : Fin 5000) (i : Fin 64) :
    (iblk0 V c 0 t : Vec Ideal S5000x64 .f32) (ix2 r i) = (V c main_v63 : S100000x64.Idx → EReal) (ix2 (rowOf t r) i) := by
  obtain ⟨e0, e1, -⟩ := idx_facts0 t
  unfold iblk0
  rw [View.read_apply]
  refine congrArg (V c main_v63) (funext fun a => Fin.ext ?_)
  match a with
  | ⟨0, _⟩ => show win0_0.index t 0 * 5000 + 1 * r.val = 5000 * t.val + r.val; omega
  | ⟨1, _⟩ => show win0_0.index t 1 * 64 + 1 * i.val = i.val; omega

theorem iblk0_1_apply (r : Fin 5000) :
    (iblk0 V c 1 t : Vec Ideal S5000x1 .f32) (ix2 r 0) = (V c main_v18 : S100000x1.Idx → EReal) (ix2 (rowOf t r) 0) := by
  obtain ⟨-, -, e0, e1, -⟩ := idx_facts0 t
  unfold iblk0
  rw [View.read_apply]
  refine congrArg (V c main_v18) (funext fun a => Fin.ext ?_)
  match a with
  | ⟨0, _⟩ => show win0_1.index t 0 * 5000 + 1 * r.val = 5000 * t.val + r.val; omega
  | ⟨1, _⟩ => show win0_1.index t 1 * 1 + 1 * 0 = 0; omega

theorem iblk0_2_apply (i : Fin 64) (cc : Fin 256) :
    (iblk0 V c 2 t : Vec Ideal S64x256 .f32) (ix2 i cc) = (V c main_v23 : S64x256.Idx → EReal) (ix2 i cc) := by
  obtain ⟨-, -, -, -, e0, e1, -⟩ := idx_facts0 t
  unfold iblk0
  rw [View.read_apply]
  refine congrArg (V c main_v23) (funext fun a => Fin.ext ?_)
  match a with
  | ⟨0, _⟩ => show win0_2.index t 0 * 64 + 1 * i.val = i.val; omega
  | ⟨1, _⟩ => show win0_2.index t 1 * 256 + 1 * cc.val = cc.val; omega

theorem iblk0_3_apply (cc : Fin 256) :
    (iblk0 V c 3 t : Vec Ideal S1x256 .f32) (ix2 0 cc) = (V c main_v29 : S1x256.Idx → EReal) (ix2 0 cc) := by
  obtain ⟨-, -, -, -, -, -, e0, e1, -⟩ := idx_facts0 t
  unfold iblk0
  rw [View.read_apply]
  refine congrArg (V c main_v29) (funext fun a => Fin.ext ?_)
  match a with
  | ⟨0, _⟩ => show win0_3.index t 0 * 1 + 1 * 0 = 0; omega
  | ⟨1, _⟩ => show win0_3.index t 1 * 256 + 1 * cc.val = cc.val; omega

theorem iblk0_4_apply (g : Fin 2) (k : Fin 128) (j : Fin 64) :
    (iblk0 V c 4 t : Vec Ideal S2x128x64 .f32) (ix3 g k j) = (V c main_v36 : S2x128x64.Idx → EReal) (ix3 g k j) := by
  obtain ⟨-, -, -, -, -, -, -, -, e0, e1, e2, -⟩ := idx_facts0 t
  unfold iblk0
  rw [View.read_apply]
  refine congrArg (V c main_v36) (funext fun a => Fin.ext ?_)
  match a with
  | ⟨0, _⟩ => show win0_4.index t 0 * 2 + 1 * g.val = g.val; omega
  | ⟨1, _⟩ => show win0_4.index t 1 * 128 + 1 * k.val = k.val; omega
  | ⟨2, _⟩ => show win0_4.index t 2 * 64 + 1 * j.val = j.val; omega

theorem emb5 (y : S5000x128.Idx) :
    ((cfg0.win 5).blk t).view.emb y = (ix2 (rowOf t (y 0)) (y 1) : S100000x128.Idx) := by
  obtain ⟨-, -, -, -, -, -, -, -, -, -, -, e0, e1⟩ := idx_facts0 t
  funext a
  apply Fin.ext
  match a with
  | ⟨0, _⟩ => show win0_5.index t 0 * 5000 + 1 * (y 0).val = 5000 * t.val + (y 0).val; omega
  | ⟨1, _⟩ => show win0_5.index t 1 * 128 + 1 * (y 1).val = (y 1).val; omega

-- Every index of the array is in the block of the point its row divided by 5000 names.
theorem cover5 (i : S100000x128.Idx) : ∃ s : Fin cfg0.N, (cfg0.win 5).flush s = true ∧ i ∈ ((cfg0.win 5).blk s).view.set := by
  have hi0 : (i 0).val < 100000 := (i 0).isLt
  have hi1 : (i 1).val < 128 := (i 1).isLt
  have hN : cfg0.N = 20 := N_0
  obtain ⟨s, hs⟩ : ∃ s : Fin cfg0.N, s.val = (i 0).val / 5000 := ⟨⟨(i 0).val / 5000, by omega⟩, rfl⟩
  obtain ⟨-, -, -, -, -, -, -, -, -, -, -, e0, e1⟩ := idx_facts0 s
  refine ⟨s, flush0_5 s, ?_⟩
  show i ∈ ((View.whole main_v64).slice (win0_5.rect s)).set
  rw [View.set_slice_whole, Rect.mem_set_unit]
  intro a
  match a with
  | ⟨0, _⟩ => show win0_5.index s 0 * 5000 ≤ (i 0).val ∧ (i 0).val < win0_5.index s 0 * 5000 + 5000; omega
  | ⟨1, _⟩ => show win0_5.index s 1 * 128 ≤ (i 1).val ∧ (i 1).val < win0_5.index s 1 * 128 + 128; omega

theorem flushed5_eq :
    (dat0 (F := Ideal) V c).flushed 5 t = ((cfg0.win 5).blk t).view.read (Elt Ideal) (layer1Arr V c) := by
  show (cfg0.win 5).cut (grid0.coords t) ((dat0 V c).after 5 t) = _
  rw [after0_5]
  unfold out0_5
  rw [View.canon_unit_zero hz2]
  simp only [View.ld_unit_zero (S := S5000x64) hz2, View.ld_unit_zero (S := S5000x1) hz2, View.ld_unit_zero (S := S64x256) hz2,
    View.ld_unit_zero (S := S1x256) hz2, View.ld_unit_zero (S := S2x128x64) hz3]
  funext y
  refine ((congrArg (Gen.k0_pay1 (F := Ideal) _ _ _ _ _) ((eq_ix2 y).trans
    (congrArg (fun q : Fin 128 => (ix2 (y 0) q : S5000x128.Idx)) (half_col (y 1)).symm))).trans
    (layer1_pay_apply _ _ _ _ _ (y 0) (colHalf (y 1)) (colIn (y 1)))).trans ?_
  rw [View.read_apply, emb5 t y]
  show _ = GcnSpec.layer1K _ _ _ _ _ (rowOf t (y 0)) (colHalf (y 1)) (colIn (y 1))
  unfold GcnSpec.layer1K
  simp only [iblk0_0_apply V c t (y 0), iblk0_1_apply V c t (y 0), iblk0_2_apply, iblk0_3_apply, iblk0_4_apply]

theorem final0 (v : Fin 100000) (g : Fin 2) (j : Fin 64) :
    ((dat0 (F := Ideal) V c).arrAt 5 cfg0.N : S100000x128.Idx → EReal) (ix2 v (GcnSpec.half 64 g j))
      = GcnSpec.layer1K (V c main_v63) (V c main_v18) (V c main_v23) (V c main_v29) (V c main_v36) v g j := by
  rw [(dat0 V c).arrAt_eq_of_cover 5 (layer1Arr V c) (fun t _ => flushed5_eq V c t) cover5]
  show GcnSpec.layer1K _ _ _ _ _ v (colHalf (GcnSpec.half 64 g j)) (colIn (GcnSpec.half 64 g j)) = _
  rw [colHalf_half, colIn_half]

end Cert.KernelIdeal.Hand

end
-- ==== Proof.KiV0.lean ====
import proofs.«415816_j88759794139277_3_alg».proof.Proof.KiV0Arr
-- ==== Proof.KiV1Pieces.lean ====
import proofs.«415816_j88759794139277_3_alg».proof.Proof.KiR1
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (Dat)
open Cert.KernelIdeal.Gen

variable {F : FTy → Type} [FloatOps F]

theorem hz1 : (![0, 0] : Fin 2 → Nat) = fun _ => 0 := funext fun a => by fin_cases a <;> rfl

variable (c : Dev nD) (i : grid1.Coords) (arg1 : Memref sig .tc .vmem S5000x1 .i32) (harg1 : arg1.IsWhole) (arg2 : Memref sig .tc .vmem S5000x128 .f32) (harg2 : arg2.IsWhole) (arg3 : Memref sig .tc .vmem S1x128 .f32) (harg3 : arg3.IsWhole) (arg4 : Memref sig .tc .vmem S5000x1 .f32) (harg4 : arg4.IsWhole) (arg5 : Memref sig .tc .vmem S64x128 .f32) (harg5 : arg5.IsWhole) (arg6 : Memref sig .tc .vmem S1x64 .f32) (harg6 : arg6.IsWhole) (arg7 : Memref sig .tc .vmem S64x128 .f32) (harg7 : arg7.IsWhole) (arg8 : Memref sig .tc .vmem S1x64 .f32) (harg8 : arg8.IsWhole) (x0 : Vec F S5000x1 .i32) (x1 : Vec F S5000x128 .f32) (x2 : Vec F S1x128 .f32) (x3 : Vec F S5000x1 .f32)

section A
variable (hc0 : cond1_0 i) (hc1 : ¬cond1_1 i)
-- the first point clears both accumulators, then updates them
theorem sout1_A_0_eq : (outs1_A c i arg1 harg1 arg2 harg2 arg3 harg3 arg4 harg4 arg5 harg5 arg6 harg6 arg7 harg7 arg8 harg8 x0 x1 x2 x3 hc0 hc1).2.2.1 = k1_pay4 x3 x1 x2 x0 (k1_pay1 (F := F)) := by
  unfold outs1_A
  dsimp only
  rw [View.read_writes_eq_canon _ _ _ (scover1_A_0 c i arg1 harg1 arg2 harg2 arg3 harg3 arg4 harg4 arg5 harg5 arg6 harg6 arg7 harg7 arg8 harg8 x0 x1 x2 x3 hc0 hc1)]
  unfold kernelRun1_A
  dsimp only
  sl_unfold_words
  rw [View.canon_cons_unit_zero (S := S64x128) hz1]
  simp only [View.readAt_eq_ld, harg1.read_unread, harg2.read_unread, harg3.read_unread, harg4.read_unread, harg5.read_unread, harg6.read_unread, harg7.read_unread, harg8.read_unread, View.ld_unit_zero (S := S5000x1) hz1, View.ld_unit_zero (S := S5000x128) hz1, View.ld_unit_zero (S := S1x128) hz1, View.ld_unit_zero (S := S64x128) hz1, View.ld_unit_zero (S := S1x64) hz1, View.readCov_unit_zero (S := S64x128) _ hz1]
theorem sout1_A_1_eq : (outs1_A c i arg1 harg1 arg2 harg2 arg3 harg3 arg4 harg4 arg5 harg5 arg6 harg6 arg7 harg7 arg8 harg8 x0 x1 x2 x3 hc0 hc1).2.2.2 = k1_pay5 x0 (k1_pay2 (F := F)) := by
  unfold outs1_A
  dsimp only
  rw [View.read_writes_eq_canon _ _ _ (scover1_A_1 c i arg1 harg1 arg2 harg2 arg3 harg3 arg4 harg4 arg5 harg5 arg6 harg6 arg7 harg7 arg8 harg8 x0 x1 x2 x3 hc0 hc1)]
  unfold kernelRun1_A
  dsimp only
  sl_unfold_words
  rw [View.canon_cons_unit_zero (S := S1x64) hz1]
  simp only [View.readAt_eq_ld, harg1.read_unread, harg2.read_unread, harg3.read_unread, harg4.read_unread, harg5.read_unread, harg6.read_unread, harg7.read_unread, harg8.read_unread, View.ld_unit_zero (S := S5000x1) hz1, View.ld_unit_zero (S := S5000x128) hz1, View.ld_unit_zero (S := S1x128) hz1, View.ld_unit_zero (S := S64x128) hz1, View.ld_unit_zero (S := S1x64) hz1, View.readCov_unit_zero (S := S1x64) _ hz1]
end A

section B
variable (hc0 : ¬cond1_0 i) (hc1 : ¬cond1_1 i) (xs0 : Vec F S64x128 .f32) (xs1 : Vec F S1x64 .f32)
theorem sout1_B_0_eq : (outs1_B c i arg1 harg1 arg2 harg2 arg3 harg3 arg4 harg4 arg5 harg5 arg6 harg6 arg7 harg7 arg8 harg8 x0 x1 x2 x3 hc0 hc1 xs0 xs1).2.2.1 = k1_pay4 x3 x1 x2 x0 xs0 := by
  unfold outs1_B
  dsimp only
  rw [View.read_writes_eq_canon _ _ _ (scover1_B_0 c i arg1 harg1 arg2 harg2 arg3 harg3 arg4 harg4 arg5 harg5 arg6 harg6 arg7 harg7 arg8 harg8 x0 x1 x2 x3 hc0 hc1 xs0 xs1)]
  unfold kernelRun1_B
  dsimp only
  sl_unfold_words
  rw [View.canon_unit_zero hz1]
  simp only [View.readAt_eq_ld, harg1.read_unread, harg2.read_unread, harg3.read_unread, harg4.read_unread, harg5.read_unread, harg6.read_unread, harg7.read_unread, harg8.read_unread, View.ld_unit_zero (S := S5000x1) hz1, View.ld_unit_zero (S := S5000x128) hz1, View.ld_unit_zero (S := S1x128) hz1, View.ld_unit_zero (S := S64x128) hz1, View.ld_unit_zero (S := S1x64) hz1]
theorem sout1_B_1_eq : (outs1_B c i arg1 harg1 arg2 harg2 arg3 harg3 arg4 harg4 arg5 harg5 arg6 harg6 arg7 harg7 arg8 harg8 x0 x1 x2 x3 hc0 hc1 xs0 xs1).2.2.2 = k1_pay5 x0 xs1 := by
  unfold outs1_B
  dsimp only
  rw [View.read_writes_eq_canon _ _ _ (scover1_B_1 c i arg1 harg1 arg2 harg2 arg3 harg3 arg4 harg4 arg5 harg5 arg6 harg6 arg7 harg7 arg8 harg8 x0 x1 x2 x3 hc0 hc1 xs0 xs1)]
  unfold kernelRun1_B
  dsimp only
  sl_unfold_words
  rw [View.canon_unit_zero hz1]
  simp only [View.readAt_eq_ld, harg1.read_unread, harg2.read_unread, harg3.read_unread, harg4.read_unread, harg5.read_unread, harg6.read_unread, harg7.read_unread, harg8.read_unread, View.ld_unit_zero (S := S5000x1) hz1, View.ld_unit_zero (S := S5000x128) hz1, View.ld_unit_zero (S := S1x128) hz1, View.ld_unit_zero (S := S64x128) hz1, View.ld_unit_zero (S := S1x64) hz1]
end B

section C
variable (hc0 : ¬cond1_0 i) (hc1 : cond1_1 i) (xs0 : Vec F S64x128 .f32) (xs1 : Vec F S1x64 .f32)
-- the last point also copies the updated accumulators to the results
theorem sout1_C_0_eq : (outs1_C c i arg1 harg1 arg2 harg2 arg3 harg3 arg4 harg4 arg5 harg5 arg6 harg6 arg7 harg7 arg8 harg8 x0 x1 x2 x3 hc0 hc1 xs0 xs1).2.2.1 = k1_pay4 x3 x1 x2 x0 xs0 := by
  unfold outs1_C
  dsimp only
  rw [View.read_writes_eq_canon _ _ _ (scover1_C_0 c i arg1 harg1 arg2 harg2 arg3 harg3 arg4 harg4 arg5 harg5 arg6 harg6 arg7 harg7 arg8 harg8 x0 x1 x2 x3 hc0 hc1 xs0 xs1)]
  unfold kernelRun1_C
  dsimp only
  sl_unfold_words
  rw [View.canon_unit_zero hz1]
  simp only [View.readAt_eq_ld, harg1.read_unread, harg2.read_unread, harg3.read_unread, harg4.read_unread, harg5.read_unread, harg6.read_unread, harg7.read_unread, harg8.read_unread, View.ld_unit_zero (S := S5000x1) hz1, View.ld_unit_zero (S := S5000x128) hz1, View.ld_unit_zero (S := S1x128) hz1, View.ld_unit_zero (S := S64x128) hz1, View.ld_unit_zero (S := S1x64) hz1]
theorem sout1_C_1_eq : (outs1_C c i arg1 harg1 arg2 harg2 arg3 harg3 arg4 harg4 arg5 harg5 arg6 harg6 arg7 harg7 arg8 harg8 x0 x1 x2 x3 hc0 hc1 xs0 xs1).2.2.2 = k1_pay5 x0 xs1 := by
  unfold outs1_C
  dsimp only
  rw [View.read_writes_eq_canon _ _ _ (scover1_C_1 c i arg1 harg1 arg2 harg2 arg3 harg3 arg4 harg4 arg5 harg5 arg6 harg6 arg7 harg7 arg8 harg8 x0 x1 x2 x3 hc0 hc1 xs0 xs1)]
  unfold kernelRun1_C
  dsimp only
  sl_unfold_words
  rw [View.canon_unit_zero hz1]
  simp only [View.readAt_eq_ld, harg1.read_unread, harg2.read_unread, harg3.read_unread, harg4.read_unread, harg5.read_unread, harg6.read_unread, harg7.read_unread, harg8.read_unread, View.ld_unit_zero (S := S5000x1) hz1, View.ld_unit_zero (S := S5000x128) hz1, View.ld_unit_zero (S := S1x128) hz1, View.ld_unit_zero (S := S64x128) hz1, View.ld_unit_zero (S := S1x64) hz1]
theorem out1_C_4_eq : (outs1_C c i arg1 harg1 arg2 harg2 arg3 harg3 arg4 harg4 arg5 harg5 arg6 harg6 arg7 harg7 arg8 harg8 x0 x1 x2 x3 hc0 hc1 xs0 xs1).1 = k1_pay4 x3 x1 x2 x0 xs0 := by
  unfold outs1_C
  dsimp only
  rw [View.read_writes_eq_canon _ _ _ (cover1_C_4 c i arg1 harg1 arg2 harg2 arg3 harg3 arg4 harg4 arg5 harg5 arg6 harg6 arg7 harg7 arg8 harg8 x0 x1 x2 x3 hc0 hc1 xs0 xs1)]
  unfold kernelRun1_C
  dsimp only
  sl_unfold_words
  rw [View.canon_unit_zero hz1]
  simp only [View.readAt_eq_ld, harg1.read_unread, harg2.read_unread, harg3.read_unread, harg4.read_unread, harg5.read_unread, harg6.read_unread, harg7.read_unread, harg8.read_unread, View.ld_unit_zero (S := S5000x1) hz1, View.ld_unit_zero (S := S5000x128) hz1, View.ld_unit_zero (S := S1x128) hz1, View.ld_unit_zero (S := S64x128) hz1, View.ld_unit_zero (S := S1x64) hz1, View.readCov_unit_zero (S := S64x128) _ hz1]
theorem out1_C_5_eq : (outs1_C c i arg1 harg1 arg2 harg2 arg3 harg3 arg4 harg4 arg5 harg5 arg6 harg6 arg7 harg7 arg8 harg8 x0 x1 x2 x3 hc0 hc1 xs0 xs1).2.1 = k1_pay5 x0 xs1 := by
  unfold outs1_C
  dsimp only
  rw [View.read_writes_eq_canon _ _ _ (cover1_C_5 c i arg1 harg1 arg2 harg2 arg3 harg3 arg4 harg4 arg5 harg5 arg6 harg6 arg7 harg7 arg8 harg8 x0 x1 x2 x3 hc0 hc1 xs0 xs1)]
  unfold kernelRun1_C
  dsimp only
  sl_unfold_words
  rw [View.canon_unit_zero hz1]
  simp only [View.readAt_eq_ld, harg1.read_unread, harg2.read_unread, harg3.read_unread, harg4.read_unread, harg5.read_unread, harg6.read_unread, harg7.read_unread, harg8.read_unread, View.ld_unit_zero (S := S5000x1) hz1, View.ld_unit_zero (S := S5000x128) hz1, View.ld_unit_zero (S := S1x128) hz1, View.ld_unit_zero (S := S64x128) hz1, View.ld_unit_zero (S := S1x64) hz1, View.readCov_unit_zero (S := S1x64) _ hz1]
end C

end Cert.KernelIdeal.Hand

end
-- ==== Proof.KiV1Pay.lean ====
import proofs.«415816_j88759794139277_3_alg».proof.Proof.Gen.KernelIdeal.Skeleton
import proofs.«415816_j88759794139277_3_alg».proof.Proof.Spec
import Idealize.ShloMosaic.PureOps.Ideal.Laws
import Idealize.ShloMosaic.Lib.Pipeline.Value
import Idealize.ShloMosaic.Lib.ValueLayout
import Idealize.ShloMosaic.Lib.ValueIdx

noncomputable section

namespace Cert.KernelIdeal.Hand

open Idealize.ShloMosaic Idealize.ShloMosaic.ValueIdx Idealize.SL.Sem
open Cert.KernelIdeal Cert.KernelIdeal.Gen
open GcnSpec (relu)

theorem k1_pay1_apply (i : S64x128.Idx) : (k1_pay1 (F := Ideal)) i = 0 := by
  unfold k1_pay1
  exact (congrFun (shapeCast_self _ shapeCasts_S64x128_S64x128) i).trans Ideal.ofBits_zero_f32

theorem k1_pay2_apply (i : S1x64.Idx) : (k1_pay2 (F := Ideal)) i = 0 := by
  unfold k1_pay2
  exact (congrFun (shapeCast_self _ shapeCasts_S1x64_S1x64) i).trans Ideal.ofBits_zero_f32

theorem cmpi_eq_word (x y : BitVec 32) : IntOp.cmpi .eq x y = if x = y then 1#1 else 0#1 := by
  unfold IntOp.cmpi
  by_cases h : x = y
  · simp [h]
  · have hne : (x == y) = false := beq_eq_false_iff_ne.mpr h
    rw [if_neg h]
    show BitVec.ofBool (x == y) = 0#1
    rw [hne]; rfl

theorem bit_one_real : (((((1#1 : BitVec 1).setWidth 32).toInt : ℤ) : ℝ) : EReal) = 1 := by
  rw [show ((1#1 : BitVec 1).setWidth 32).toInt = 1 by decide]; norm_num

theorem bit_zero_real : (((((0#1 : BitVec 1).setWidth 32).toInt : ℤ) : ℝ) : EReal) = 0 := by
  rw [show ((0#1 : BitVec 1).setWidth 32).toInt = 0 by decide]; norm_num

theorem k1_pay3_apply (v15 : Vec Ideal S5000x1 .i32) (r : Fin 5000) (b : Fin 64) :
    k1_pay3 (F := Ideal) v15 (ix2 r b) = if v15 (ix2 r 0) = BitVec.ofNat 32 b.val then 1 else 0 := by
  unfold k1_pay3
  show (((((IntOp.cmpi .eq (broadcastTo S5000x64 (shapeCast S5000x1 v15 shapeCasts_S5000x1_S5000x1) broadcasts_S5000x1_S5000x64 (ix2 r b))
      (iota .tc S5000x64 32 [1] iota_S5000x64_d1_w32 (ix2 r b))).setWidth 32).toInt : ℤ) : ℝ) : EReal) = _
  rw [shapeCast_self, broadcastTo_apply v15 _ (ix2 r b) (ix2 r 0) (fun a => by
      match a with
      | ⟨0, _⟩ => rfl
      | ⟨1, _⟩ => rfl), iota_single_apply, cmpi_eq_word]
  by_cases h : v15 (ix2 r 0) = BitVec.ofNat 32 b.val
  · rw [if_pos h, if_pos h]; exact bit_one_real
  · rw [if_neg h, if_neg h]; exact bit_zero_real

-- A product that contracts the rows of both operands, into zeros: entry by entry the sum over the rows.
theorem matmul_pool_apply {m k n : ℕ} (D : DotDims ⟨2, ![k, m]⟩ ⟨2, ![k, n]⟩ ⟨2, ![m, n]⟩) (hr : D.contr.rank = 1)
    (hs : D.contr.size ⟨0, by omega⟩ = k)
    (hi : ∀ i q, (D.lhsIdx i q 0).val = (q ⟨0, by omega⟩).val ∧ (D.lhsIdx i q 1).val = (i 0).val
      ∧ (D.rhsIdx i q 0).val = (q ⟨0, by omega⟩).val ∧ (D.rhsIdx i q 1).val = (i 1).val)
    (A : FVec Ideal ⟨2, ![k, m]⟩ .f32) (B : FVec Ideal ⟨2, ![k, n]⟩ .f32) (b : Fin m) (f : Fin n) :
    matmul D none A B (constant (F := Ideal) ⟨2, ![m, n]⟩ .f32 0x00000000#32) (ix2 b f)
      = ∑ r : Fin k, A (ix2 r b) * B (ix2 r f) := by
  simp only [matmul]
  rw [Ideal.matmul_constant_zero_apply, ← Equiv.sum_comp (contrEquiv1 D k hr hs).symm]
  refine Finset.sum_congr rfl fun j _ => ?_
  obtain ⟨l0, l1, r0, r1⟩ := hi (ix2 b f) ((contrEquiv1 D k hr hs).symm j)
  have hk := contrEquiv1_symm_val D k hr hs j
  have el : D.lhsIdx (ix2 b f) ((contrEquiv1 D k hr hs).symm j) = ix2 j b := funext fun a => Fin.ext (by
    match a with
    | ⟨0, _⟩ => exact l0.trans hk
    | ⟨1, _⟩ => exact l1)
  have er : D.rhsIdx (ix2 b f) ((contrEquiv1 D k hr hs).symm j) = ix2 j f := funext fun a => Fin.ext (by
    match a with
    | ⟨0, _⟩ => exact r0.trans hk
    | ⟨1, _⟩ => exact r1)
  rw [el, er]

theorem pool_term_apply (v3 : Vec Ideal S5000x1 .f32) (v5 : Vec Ideal S5000x128 .f32) (v9 : Vec Ideal S1x128 .f32)
    (r : Fin 5000) (f : Fin 128) :
    maximumf (addf (mulf (shapeCast S5000x128 v5 shapeCasts_S5000x128_S5000x128)
          (broadcastTo S5000x128 (shapeCast S5000x1 v3 shapeCasts_S5000x1_S5000x1) broadcasts_S5000x1_S5000x128))
        (broadcastTo S5000x128 (shapeCast S1x128 v9 shapeCasts_S1x128_S1x128) broadcasts_S1x128_S5000x128))
      (broadcast S5000x128 (Scalar.ofBits (F := Ideal) .f32 0x00000000#32)) (ix2 r f)
      = relu (v5 (ix2 r f) * v3 (ix2 r 0) + v9 (ix2 0 f)) := by
  rw [shapeCast_self, shapeCast_self, shapeCast_self, maximumf_apply, addf_apply, mulf_apply, broadcastTo_1b_ab_apply, broadcast_apply,
    broadcastTo_apply v3 _ (ix2 r f) (ix2 r 0) (fun a => by
      match a with
      | ⟨0, _⟩ => rfl
      | ⟨1, _⟩ => rfl)]
  exact congrArg (max _) Ideal.ofBits_zero_f32

theorem k1_pay4_apply (v3 : Vec Ideal S5000x1 .f32) (v5 : Vec Ideal S5000x128 .f32) (v9 : Vec Ideal S1x128 .f32)
    (v15 : Vec Ideal S5000x1 .i32) (v23 : Vec Ideal S64x128 .f32) (b : Fin 64) (f : Fin 128) :
    k1_pay4 (F := Ideal) v3 v5 v9 v15 v23 (ix2 b f)
      = v23 (ix2 b f) + ∑ r : Fin 5000, k1_pay3 (F := Ideal) v15 (ix2 r b) * relu (v5 (ix2 r f) * v3 (ix2 r 0) + v9 (ix2 0 f)) := by
  unfold k1_pay4
  refine (congrFun (shapeCast_self _ shapeCasts_S64x128_S64x128) (ix2 b f)).trans (congrArg (v23 (ix2 b f) + ·) ?_)
  refine (matmul_pool_apply dot_S5000x64_S5000x128_S64x128_0_0_1_1_n_n rfl rfl (fun _ _ => ⟨rfl, rfl, rfl, rfl⟩) _ _ b f).trans ?_
  exact Finset.sum_congr rfl fun r _ => congrArg (k1_pay3 (F := Ideal) v15 (ix2 r b) * ·) (pool_term_apply v3 v5 v9 r f)

theorem k1_pay5_apply (v15 : Vec Ideal S5000x1 .i32) (v28 : Vec Ideal S1x64 .f32) (b : Fin 64) :
    k1_pay5 (F := Ideal) v15 v28 (ix2 0 b) = v28 (ix2 0 b) + ∑ r : Fin 5000, k1_pay3 (F := Ideal) v15 (ix2 r b) := by
  unfold k1_pay5
  refine (congrFun (shapeCast_self _ shapeCasts_S1x64_S1x64) (ix2 0 b)).trans (congrArg (v28 (ix2 0 b) + ·) ?_)
  refine (shapeCast_a_1a_apply _ shapeCasts_S64_S1x64 0 b).trans ?_
  exact Ideal.multiReduction_add_single (k1_pay3 (F := Ideal) v15) 0x00000000#32 reduces_S5000x64_S64 (.inl rfl) rfl (ix1 b)

end Cert.KernelIdeal.Hand

end
-- ==== Proof.KiV1Sum.lean ====
import Mathlib.Data.Fintype.BigOperators
import Mathlib.Logic.Equiv.Fin.Basic
import Mathlib.Algebra.BigOperators.Fin

namespace Cert.KernelIdeal.Hand

open scoped BigOperators

variable {M : Type*} [AddCommMonoid M] (g : Fin 100000 → M)

def tileRow (s : Fin 20) (r : Fin 5000) : Fin 100000 :=
  ⟨5000 * s.val + r.val, by have := s.isLt; have := r.isLt; omega⟩

def tileSum (s : ℕ) : M :=
  if h : s < 20 then ∑ r : Fin 5000, g (tileRow ⟨s, h⟩ r) else 0

theorem tileSum_of_lt {s : ℕ} (h : s < 20) : tileSum g s = ∑ r : Fin 5000, g (tileRow ⟨s, h⟩ r) := dif_pos h

def tilesUpTo (n : ℕ) : M := ∑ s ∈ Finset.range n, tileSum g s

theorem tilesUpTo_zero : tilesUpTo g 0 = 0 := Finset.sum_range_zero _

theorem tilesUpTo_succ (n : ℕ) : tilesUpTo g (n + 1) = tilesUpTo g n + tileSum g n := Finset.sum_range_succ _ _

-- Twenty tiles of 5000 rows are the 100000 rows.
theorem tilesUpTo_all : tilesUpTo g 20 = ∑ v : Fin 100000, g v := by
  unfold tilesUpTo
  rw [← Fin.sum_univ_eq_sum_range (fun s => tileSum g s) 20, ← Equiv.sum_comp (finProdFinEquiv (m := 20) (n := 5000)) g,
    Fintype.sum_prod_type]
  refine Finset.sum_congr rfl fun s _ => (tileSum_of_lt g s.isLt).trans (Finset.sum_congr rfl fun r _ => congrArg g (Fin.ext ?_))
  show 5000 * s.val + r.val = r.val + 5000 * s.val
  omega

end Cert.KernelIdeal.Hand
-- ==== Proof.KiV1Blk.lean ====
import proofs.«415816_j88759794139277_3_alg».proof.Proof.Gen.KernelIdeal.Launch
import proofs.«415816_j88759794139277_3_alg».proof.Proof.Gen.KernelIdeal.Points
import Idealize.ShloMosaic.Lib.Pipeline.Value
import Idealize.ShloMosaic.Lib.ValueIdx
import Idealize.ShloMosaic.Lib.Decide
import Idealize.ShloMosaic.Lib.Tactic

noncomputable section

namespace Cert.KernelIdeal.Hand

open Idealize.ShloMosaic Idealize.ShloMosaic.TcCoe Idealize.ShloMosaic.ValueIdx Idealize.SL.Sem
open Cert.KernelIdeal Cert.KernelIdeal.Gen

variable {F : FTy → Type} [FloatOps F] (c : Dev nD)

theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem blk1_0_apply (A : Buf (Elt F) ((c : Thread nD τ).loc main_v78)) (t : Fin cfg1.N) (r : Fin 5000)
    (k : Fin 100000) (hk : k.val = 5000 * t.val + r.val) :
    (((cfg1.win 0).blk t).view.read (Elt F) A : Vec F S5000x1 .i32) (ix2 r 0) = (A : S100000x1.Idx → BitVec 32) (ix2 k 0) := by
  obtain ⟨e0, e1, -⟩ := idx_facts1 t
  rw [View.read_apply]
  refine congrArg A (funext fun a => Fin.ext ?_)
  match a with
  | ⟨0, _⟩ => show win1_0.index t 0 * 5000 + 1 * r.val = k.val; omega
  | ⟨1, _⟩ => show win1_0.index t 1 * 1 + 1 * 0 = 0; omega

theorem blk1_1_apply (A : Buf (Elt F) ((c : Thread nD τ).loc main_v77)) (t : Fin cfg1.N) (r : Fin 5000) (f : Fin 128)
    (k : Fin 100000) (hk : k.val = 5000 * t.val + r.val) :
    (((cfg1.win 1).blk t).view.read (Elt F) A : Vec F S5000x128 .f32) (ix2 r f) = (A : S100000x128.Idx → F .f32) (ix2 k f) := by
  obtain ⟨-, -, e0, e1, -⟩ := idx_facts1 t
  rw [View.read_apply]
  refine congrArg A (funext fun a => Fin.ext ?_)
  match a with
  | ⟨0, _⟩ => show win1_1.index t 0 * 5000 + 1 * r.val = k.val; omega
  | ⟨1, _⟩ => show win1_1.index t 1 * 128 + 1 * f.val = f.val; omega

theorem blk1_2_apply (A : Buf (Elt F) ((c : Thread nD τ).loc main_v42)) (t : Fin cfg1.N) (f : Fin 128) :
    (((cfg1.win 2).blk t).view.read (Elt F) A : Vec F S1x128 .f32) (ix2 0 f) = (A : S1x128.Idx → F .f32) (ix2 0 f) := by
  obtain ⟨-, -, -, -, e0, e1, -⟩ := idx_facts1 t
  rw [View.read_apply]
  refine congrArg A (funext fun a => Fin.ext ?_)
  match a with
  | ⟨0, _⟩ => show win1_2.index t 0 * 1 + 1 * 0 = 0; omega
  | ⟨1, _⟩ => show win1_2.index t 1 * 128 + 1 * f.val = f.val; omega

theorem blk1_3_apply (A : Buf (Elt F) ((c : Thread nD τ).loc main_v18)) (t : Fin cfg1.N) (r : Fin 5000)
    (k : Fin 100000) (hk : k.val = 5000 * t.val + r.val) :
    (((cfg1.win 3).blk t).view.read (Elt F) A : Vec F S5000x1 .f32) (ix2 r 0) = (A : S100000x1.Idx → F .f32) (ix2 k 0) := by
  obtain ⟨-, -, -, -, -, -, e0, e1⟩ := idx_facts1 t
  rw [View.read_apply]
  refine congrArg A (funext fun a => Fin.ext ?_)
  match a with
  | ⟨0, _⟩ => show win1_3.index t 0 * 5000 + 1 * r.val = k.val; omega
  | ⟨1, _⟩ => show win1_3.index t 1 * 1 + 1 * 0 = 0; omega

end Cert.KernelIdeal.Hand

end
-- ==== Proof.KiV1.lean ====
import proofs.«415816_j88759794139277_3_alg».proof.Proof.KiV1Pieces
import proofs.«415816_j88759794139277_3_alg».proof.Proof.KiV1Pay
import proofs.«415816_j88759794139277_3_alg».proof.Proof.KiV1Sum
import proofs.«415816_j88759794139277_3_alg».proof.Proof.KiV1Blk
import Idealize.ShloMosaic.Lib.Pipeline.Value
import Idealize.ShloMosaic.Lib.Tactic

set_option maxRecDepth 65536

noncomputable section

namespace Cert.KernelIdeal.Hand

open Idealize.ShloMosaic Idealize.ShloMosaic.TcCoe Idealize.ShloMosaic.ValueIdx Idealize.ShloMosaic.Tactic
open Idealize.SL Idealize.SL.Sem
open Idealize.ShloMosaic.Pipeline (Dat)
open Cert.KernelIdeal.Gen
open GcnSpec (relu isIn poolK cntK)

variable (V : (c : Dev nD) → (b : Ref sig .tc) → Buf (Elt Ideal) ((c : Thread nD τ).loc b)) (c : Dev nD)

abbrev idsA : IVec S100000x1 32 := V c main_v78
abbrev aggA : FVec Ideal S100000x128 .f32 := V c main_v77
abbrev biasA : FVec Ideal S1x128 .f32 := V c main_v42
abbrev dinvA : FVec Ideal S100000x1 .f32 := V c main_v18

abbrev bk0 (t : Fin cfg1.N) : Vec Ideal S5000x1 .i32 := iblk1 V c 0 t
abbrev bk1 (t : Fin cfg1.N) : Vec Ideal S5000x128 .f32 := iblk1 V c 1 t
abbrev bk2 (t : Fin cfg1.N) : Vec Ideal S1x128 .f32 := iblk1 V c 2 t
abbrev bk3 (t : Fin cfg1.N) : Vec Ideal S5000x1 .f32 := iblk1 V c 3 t

theorem lt20 (t : Fin cfg1.N) : t.val < 20 := lt_of_lt_of_eq t.isLt N_1

abbrev tileOf (t : Fin cfg1.N) : Fin 20 := ⟨t.val, lt20 t⟩

theorem bk0_apply (t : Fin cfg1.N) (r : Fin 5000) :
    bk0 V c t (ix2 r 0) = idsA V c (ix2 (tileRow (tileOf t) r) 0) :=
  blk1_0_apply c (V c main_v78) t r (tileRow (tileOf t) r) rfl
theorem bk1_apply (t : Fin cfg1.N) (r : Fin 5000) (f : Fin 128) :
    bk1 V c t (ix2 r f) = aggA V c (ix2 (tileRow (tileOf t) r) f) :=
  blk1_1_apply c (V c main_v77) t r f (tileRow (tileOf t) r) rfl
theorem bk2_apply (t : Fin cfg1.N) (f : Fin 128) :
    bk2 V c t (ix2 0 f) = biasA V c (ix2 0 f) :=
  blk1_2_apply c (V c main_v42) t f
theorem bk3_apply (t : Fin cfg1.N) (r : Fin 5000) :
    bk3 V c t (ix2 r 0) = dinvA V c (ix2 (tileRow (tileOf t) r) 0) :=
  blk1_3_apply c (V c main_v18) t r (tileRow (tileOf t) r) rfl

-- Node v's summand for graph b's node count is membership; for feature f, membership times the clamped entry.
def cntTerm (b : Fin 64) (v : Fin 100000) : EReal := if isIn (idsA V c) v b then (1 : EReal) else 0

def poolTerm (b : Fin 64) (f : Fin 128) (v : Fin 100000) : EReal :=
  cntTerm V c b v * relu (aggA V c (ix2 v f) * dinvA V c (ix2 v 0) + biasA V c (ix2 0 f))

theorem pay3_tile (t : Fin cfg1.N) (r : Fin 5000) (b : Fin 64) :
    k1_pay3 (F := Ideal) (bk0 V c t) (ix2 r b) = cntTerm V c b (tileRow (tileOf t) r) := by
  rw [k1_pay3_apply, bk0_apply]
  exact if_congr Iff.rfl rfl rfl

-- The payloads at point t add the sums over tile t to the accumulators.
theorem pool_tile (t : Fin cfg1.N) (acc : Vec Ideal S64x128 .f32) (b : Fin 64) (f : Fin 128) :
    k1_pay4 (F := Ideal) (bk3 V c t) (bk1 V c t) (bk2 V c t) (bk0 V c t) acc (ix2 b f)
      = acc (ix2 b f) + tileSum (poolTerm V c b f) t.val := by
  rw [k1_pay4_apply, tileSum_of_lt _ (lt20 t)]
  refine congrArg (acc (ix2 b f) + ·) (Finset.sum_congr rfl fun r _ => ?_)
  rw [pay3_tile, bk1_apply, bk2_apply, bk3_apply]
  rfl

theorem cnt_tile (t : Fin cfg1.N) (acc : Vec Ideal S1x64 .f32) (b : Fin 64) :
    k1_pay5 (F := Ideal) (bk0 V c t) acc (ix2 0 b) = acc (ix2 0 b) + tileSum (cntTerm V c b) t.val := by
  rw [k1_pay5_apply, tileSum_of_lt _ (lt20 t)]
  exact congrArg (acc (ix2 0 b) + ·) (Finset.sum_congr rfl fun r _ => pay3_tile V c t r b)

abbrev prev (t : Fin cfg1.N) := outsAt1 V c (t.val - 1) (Nat.lt_of_le_of_lt (Nat.sub_le _ _) t.isLt)

theorem acc0_A (b : Fin 64) (f : Fin 128) (t : Fin cfg1.N) (h0 : t.val % 20 = 0) (h1 : ¬t.val % 20 = 19) :
    ((outsAt1 V c t.val t.isLt).2.2.1 : Vec Ideal S64x128 .f32) (ix2 b f) = tileSum (poolTerm V c b f) t.val := by
  rw [outsAt1_A V c t h0 h1]
  dsimp only [at1]
  rw [sout1_A_0_eq, pool_tile, k1_pay1_apply, zero_add]

theorem acc1_A (b : Fin 64) (t : Fin cfg1.N) (h0 : t.val % 20 = 0) (h1 : ¬t.val % 20 = 19) :
    ((outsAt1 V c t.val t.isLt).2.2.2 : Vec Ideal S1x64 .f32) (ix2 0 b) = tileSum (cntTerm V c b) t.val := by
  rw [outsAt1_A V c t h0 h1]
  dsimp only [at1]
  rw [sout1_A_1_eq, cnt_tile, k1_pay2_apply, zero_add]

theorem acc0_S (b : Fin 64) (f : Fin 128) (t : Fin cfg1.N) (h0 : ¬t.val % 20 = 0) :
    ((outsAt1 V c t.val t.isLt).2.2.1 : Vec Ideal S64x128 .f32) (ix2 b f)
      = ((prev V c t).2.2.1 : Vec Ideal S64x128 .f32) (ix2 b f) + tileSum (poolTerm V c b f) t.val := by
  by_cases h1 : t.val % 20 = 19
  · rw [outsAt1_C V c t h0 h1]
    dsimp only [at1]
    rw [sout1_C_0_eq, pool_tile]
  · rw [outsAt1_B V c t h0 h1]
    dsimp only [at1]
    rw [sout1_B_0_eq, pool_tile]

theorem acc1_S (b : Fin 64) (t : Fin cfg1.N) (h0 : ¬t.val % 20 = 0) :
    ((outsAt1 V c t.val t.isLt).2.2.2 : Vec Ideal S1x64 .f32) (ix2 0 b)
      = ((prev V c t).2.2.2 : Vec Ideal S1x64 .f32) (ix2 0 b) + tileSum (cntTerm V c b) t.val := by
  by_cases h1 : t.val % 20 = 19
  · rw [outsAt1_C V c t h0 h1]
    dsimp only [at1]
    rw [sout1_C_1_eq, cnt_tile]
  · rw [outsAt1_B V c t h0 h1]
    dsimp only [at1]
    rw [sout1_B_1_eq, cnt_tile]

-- After point n the accumulators hold the sums over the first n + 1 tiles.
theorem acc0_eq (b : Fin 64) (f : Fin 128) : ∀ (n : ℕ) (hn : n < cfg1.N),
    ((outsAt1 V c n hn).2.2.1 : Vec Ideal S64x128 .f32) (ix2 b f) = tilesUpTo (poolTerm V c b f) (n + 1)
  | 0, hn => by
    rw [tilesUpTo_succ, tilesUpTo_zero, zero_add]
    exact acc0_A V c b f ⟨0, hn⟩ rfl (by show ¬(0 % 20 = 19); decide)
  | n + 1, hn => by
    rw [tilesUpTo_succ, ← acc0_eq b f n (Nat.lt_of_succ_lt hn)]
    exact acc0_S V c b f ⟨n + 1, hn⟩ (by have := lt_of_lt_of_eq hn N_1; show ¬(n + 1) % 20 = 0; omega)

theorem acc1_eq (b : Fin 64) : ∀ (n : ℕ) (hn : n < cfg1.N),
    ((outsAt1 V c n hn).2.2.2 : Vec Ideal S1x64 .f32) (ix2 0 b) = tilesUpTo (cntTerm V c b) (n + 1)
  | 0, hn => by
    rw [tilesUpTo_succ, tilesUpTo_zero, zero_add]
    exact acc1_A V c b ⟨0, hn⟩ rfl (by show ¬(0 % 20 = 19); decide)
  | n + 1, hn => by
    rw [tilesUpTo_succ, ← acc1_eq b n (Nat.lt_of_succ_lt hn)]
    exact acc1_S V c b ⟨n + 1, hn⟩ (by have := lt_of_lt_of_eq hn N_1; show ¬(n + 1) % 20 = 0; omega)

theorem lt19 : 19 < cfg1.N := by rw [show cfg1.N = 20 from N_1]; decide

abbrev t19 : Fin cfg1.N := ⟨19, lt19⟩

abbrev res4 : Buf (Elt Ideal) ((c : Thread nD τ).loc main_v79_0) := (outsAt1 V c 19 lt19).1
abbrev res5 : Buf (Elt Ideal) ((c : Thread nD τ).loc main_v79_1) := (outsAt1 V c 19 lt19).2.1

-- The last point leaves the sums over all twenty tiles: over all nodes.
theorem res4_apply (b : Fin 64) (f : Fin 128) :
    (res4 V c : S64x128.Idx → EReal) (ix2 b f) = poolK (V c main_v78) (V c main_v77) (V c main_v42) (V c main_v18) b f := by
  refine Eq.trans ?_ ((tilesUpTo_succ (poolTerm V c b f) 19).symm.trans (tilesUpTo_all _))
  rw [← acc0_eq V c b f 18 (Nat.lt_of_succ_lt lt19)]
  show ((outsAt1 V c t19.val t19.isLt).1 : Vec Ideal S64x128 .f32) (ix2 b f) = _
  rw [outsAt1_C V c t19 (by decide) (by decide)]
  dsimp only [at1]
  rw [out1_C_4_eq, pool_tile]

theorem res5_apply (b : Fin 64) :
    (res5 V c : S1x64.Idx → EReal) (ix2 0 b) = cntK (V c main_v78) b := by
  refine Eq.trans ?_ ((tilesUpTo_succ (cntTerm V c b) 19).symm.trans (tilesUpTo_all _))
  rw [← acc1_eq V c b 18 (Nat.lt_of_succ_lt lt19)]
  show ((outsAt1 V c t19.val t19.isLt).2.1 : Vec Ideal S1x64 .f32) (ix2 0 b) = _
  rw [outsAt1_C V c t19 (by decide) (by decide)]
  dsimp only [at1]
  rw [out1_C_5_eq, cnt_tile]

theorem flushed1_4_eq (t : Fin cfg1.N) (hf : (cfg1.win 4).flush t = true) :
    (dat1 V c).flushed 4 t = ((cfg1.win 4).blk t).view.read (Elt Ideal) (res4 V c) := by
  obtain rfl : t = t19 := Fin.ext (by have := (flush1_4 t).mp hf; have := lt20 t; show t.val = 19; omega)
  show (cfg1.win 4).cut (grid1.coords t19) ((dat1 V c).after 4 t19) = _
  rw [after1_4]
  have hz : (fun a => win1_4.index t19 a * main_v79_0.ty.shape.size a) = fun _ => 0 := funext fun a => by fin_cases a <;> decide
  exact (Memref.read_access_unit_zero (Elt Ideal) main_v79_0 hz (fun a => by rw [congrFun hz a]; simp) (res4 V c)).symm

theorem flushed1_5_eq (t : Fin cfg1.N) (hf : (cfg1.win 5).flush t = true) :
    (dat1 V c).flushed 5 t = ((cfg1.win 5).blk t).view.read (Elt Ideal) (res5 V c) := by
  obtain rfl : t = t19 := Fin.ext (by have := (flush1_5 t).mp hf; have := lt20 t; show t.val = 19; omega)
  show (cfg1.win 5).cut (grid1.coords t19) ((dat1 V c).after 5 t19) = _
  rw [after1_5]
  have hz : (fun a => win1_5.index t19 a * main_v79_1.ty.shape.size a) = fun _ => 0 := funext fun a => by fin_cases a <;> decide
  exact (Memref.read_access_unit_zero (Elt Ideal) main_v79_1 hz (fun a => by rw [congrFun hz a]; simp) (res5 V c)).symm

-- Each result's one block, at the last point, is the whole array.
theorem arr1_4_eq : (dat1 V c).arrAt 4 cfg1.N = res4 V c :=
  (dat1 V c).arrAt_eq_of_cover 4 (res4 V c) (flushed1_4_eq V c) fun i =>
    ⟨t19, (flush1_4 t19).mpr rfl, by
      show i ∈ ((View.whole main_v79_0).slice (win1_4.rect t19)).set
      rw [View.set_slice_whole, Rect.mem_set_unit]
      intro a
      have e : ∀ a : Fin 2, win1_4.index t19 a * win1_4.size a = 0 ∧ win1_4.xsize (grid1.coords t19) a = S64x128.size a := by
        decide +kernel
      show win1_4.index t19 a * win1_4.size a ≤ (i a : Nat) ∧ (i a : Nat) < win1_4.index t19 a * win1_4.size a + win1_4.xsize (grid1.coords t19) a
      rw [(e a).1, (e a).2, Nat.zero_add]
      exact ⟨Nat.zero_le _, (i a).isLt⟩⟩

theorem arr1_5_eq : (dat1 V c).arrAt 5 cfg1.N = res5 V c :=
  (dat1 V c).arrAt_eq_of_cover 5 (res5 V c) (flushed1_5_eq V c) fun i =>
    ⟨t19, (flush1_5 t19).mpr rfl, by
      show i ∈ ((View.whole main_v79_1).slice (win1_5.rect t19)).set
      rw [View.set_slice_whole, Rect.mem_set_unit]
      intro a
      have e : ∀ a : Fin 2, win1_5.index t19 a * win1_5.size a = 0 ∧ win1_5.xsize (grid1.coords t19) a = S1x64.size a := by
        decide +kernel
      show win1_5.index t19 a * win1_5.size a ≤ (i a : Nat) ∧ (i a : Nat) < win1_5.index t19 a * win1_5.size a + win1_5.xsize (grid1.coords t19) a
      rw [(e a).1, (e a).2, Nat.zero_add]
      exact ⟨Nat.zero_le _, (i a).isLt⟩⟩

theorem final1_4 (b : Fin 64) (f : Fin 128) :
    ((dat1 (F := Ideal) V c).arrAt 4 cfg1.N : S64x128.Idx → EReal) (ix2 b f)
      = poolK (V c main_v78) (V c main_v77) (V c main_v42) (V c main_v18) b f :=
  (congrFun (arr1_4_eq V c) (ix2 b f)).trans (res4_apply V c b f)

theorem final1_5 (b : Fin 64) :
    ((dat1 (F := Ideal) V c).arrAt 5 cfg1.N : S1x64.Idx → EReal) (ix2 0 b) = cntK (V c main_v78) b :=
  (congrFun (arr1_5_eq V c) (ix2 0 b)).trans (res5_apply V c b)

end Cert.KernelIdeal.Hand

end
-- ==== Proof.IdxOps.lean ====
import Idealize.ShloMosaic.PureOps.Ideal
import Idealize.ShloMosaic.PureOps.ShapeOps
import Idealize.ShloMosaic.PureOps.Dims
import Idealize.ShloMosaic.Lib.ValueIdx
import Idealize.ShloMosaic.Lib.StableHlo.Predicate
import proofs.«415816_j88759794139277_3_alg».proof.Proof.Spec

namespace IndexOpsLib

open Idealize.ShloMosaic Idealize.ShloMosaic.ValueIdx

theorem sRow?_eq_some_iff {N : Nat} (w : BitVec 32) (v : Fin N) :
    GcnSpec.sRow? N w = some v ↔ w.toInt = (v.val : Int) := by
  have := v.isLt
  unfold GcnSpec.sRow?
  split
  · rw [Option.some_inj, Fin.ext_iff]
    show w.toInt.toNat = v.val ↔ _
    omega
  · exact ⟨nofun, fun hv => by omega⟩

theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  have hi := fun a => (i a).isLt
  unfold ScatterDims.resultIdx?
  split
  · rename_i h
    rw [Option.some_inj, funext_iff]
    refine forall_congr' fun a => ?_
    rw [Fin.ext_iff]
    show (d.start j idx a + (d.window j a : Int)).toNat = (i a).val ↔ _
    have := (h a).1
    omega
  · rename_i h
    refine ⟨nofun, fun hall => (h fun a => ?_).elim⟩
    have := hall a
    have := hi a
    omega

theorem mem_sKept_scatter {s si u : Shape} (d : ScatterDims s si u) (a : Fin s.rank) :
    a ∈ d.sKept ↔ a ∉ d.insertedWindowDims := by
  simp [ScatterDims.sKept, Shape.kept, List.mem_filter, List.mem_finRange]

theorem gather_vec {α : Type} {N E w : Nat} (hN : 0 < N)
    (d : GatherDims ⟨1, ![N]⟩ ⟨2, ![E, 1]⟩ ⟨1, ![E]⟩)
    (hoff : d.offsetDims = []) (hcoll : d.collapsedSliceDims = [0]) (hob : d.operandBatchingDims = [])
    (hsim : d.startIndexMap = [0]) (hivd : d.indexVectorDim = 1)
    (x : (⟨1, ![N]⟩ : Shape).Idx → α) (idx : IVec ⟨2, ![E, 1]⟩ w) (e : Fin E) :
    Host.gather d x idx (ix1 e) = x (ix1 (clampRow N hN (idx (ix2 e (0 : Fin 1))))) := by
  have h1 : ∀ {n : Nat} (k : Fin n), Shape.Idx.ofFin k = ix1 k := fun k => funext fun a => match a with | ⟨0, _⟩ => rfl
  have h2 : StableHlo.Predicate.ixP e = ix2 e (0 : Fin 1) := funext fun a => match a with | ⟨0, _⟩ => rfl | ⟨1, _⟩ => rfl
  rw [← h1, ← h1, ← h2]
  exact StableHlo.Predicate.gather_take d hcoll hob hsim hivd x idx e hN

-- With ids in an [E, 1] column, an update whose scatter coordinates are all `e` starts, on a mapped axis, at the id of `e` read signed.
theorem start_col {s u : Shape} {E : Nat} (d : ScatterDims s ⟨2, ![E, 1]⟩ u) (hivd : d.indexVectorDim = 1)
    (idx : IVec ⟨2, ![E, 1]⟩ 32) (j : u.Idx) (e : Fin E) (hj : ∀ X ∈ d.uScatter, (j X).val = e.val)
    (a : Fin s.rank) (ha : a ∈ d.scatterDimsToOperandDims) :
    d.start j idx a = (idx (ix2 e (0 : Fin 1))).toInt := by
  unfold ScatterDims.start
  rw [dif_pos ha]
  congr 2
  funext b
  match b with
  | ⟨0, _⟩ =>
    unfold ScatterDims.siIdx
    rw [dif_neg (by rw [hivd]; simp)]
    unfold ScatterDims.siCoord
    apply Fin.ext
    simp only [Fin.val_cast]
    exact hj _ (List.getElem_mem _)
  | ⟨1, _⟩ => exact Subsingleton.elim (α := Fin 1) _ _

theorem rows_resultIdx? {N C E : Nat}
    (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hivd : d.indexVectorDim = 1)
    (idx : IVec ⟨2, ![E, 1]⟩ 32) (e : Fin E) (c : Fin C) (v : Fin N) (c' : Fin C) :
    d.resultIdx? (ix2 e c) idx = some (ix2 v c') ↔ GcnSpec.sRow? N (idx (ix2 e (0 : Fin 1))) = some v ∧ c = c' := by
  have hs0 := start_col d hivd idx (ix2 e c) e (fun X hX => by
    have hX' : X ∉ d.updateWindowDims := by simpa using (List.mem_filter.1 hX).2
    rw [huw] at hX'
    match X with
    | ⟨0, _⟩ => rfl
    | ⟨1, _⟩ => exact absurd (List.mem_singleton.mpr rfl) hX') (0 : Fin 2) (by rw [hsd]; exact List.mem_singleton.mpr rfl)
  have hs1 : d.start (ix2 e c) idx (1 : Fin 2) = 0 := dif_neg (by rw [hsd]; simp)
  have hw0 : d.window (ix2 e c) (0 : Fin 2) = 0 := dif_neg (by rw [mem_sKept_scatter, hiw]; simp)
  have hwin : ∀ X ∈ d.updateWindowDims, ((ix2 e c : (⟨2, ![E, C]⟩ : Shape).Idx) X).val = c.val := fun X hX => by
    rw [huw] at hX
    rw [List.mem_singleton.mp hX]
    rfl
  have hw1 : d.window (ix2 e c) (1 : Fin 2) = c.val := by
    unfold ScatterDims.window
    rw [dif_pos (by rw [mem_sKept_scatter, hiw]; simp)]
    exact hwin _ (List.getElem_mem _)
  rw [resultIdx?_eq_some_iff, sRow?_eq_some_iff, Fin.forall_fin_two, hs0, hs1, hw0, hw1, Fin.ext_iff]
  show _ + ((0 : Nat) : Int) = (v.val : Int) ∧ (0 : Int) + (c.val : Int) = (c'.val : Int) ↔ _
  omega

theorem scatterAdd_rows {φ : FTy} {N C E : Nat}
    (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hivd : d.indexVectorDim = 1)
    (x : FVec Ideal ⟨2, ![N, C]⟩ φ) (idx : IVec ⟨2, ![E, 1]⟩ 32) (upd : FVec Ideal ⟨2, ![E, C]⟩ φ) (v : Fin N) (c : Fin C) :
    Host.scatterAdd (F := Ideal) d x idx upd (ix2 v c)
      = x (ix2 v c) + ∑ e ∈ Finset.univ.filter (fun e : Fin E => GcnSpec.sRow? N (idx (ix2 e (0 : Fin 1))) = some v), upd (ix2 e c) := by
  show Ideal.hostScatterAdd d x idx upd (ix2 v c) = _
  unfold Ideal.hostScatterAdd
  congr 1
  rw [Finset.sum_filter, Finset.sum_filter, sum_idx2]
  refine Finset.sum_congr rfl fun e _ => ?_
  rw [Finset.sum_eq_single c (fun b _ hb => if_neg fun h => hb ((rows_resultIdx? d huw hiw hsd hivd idx e b v c).1 h).2)
    (fun h => absurd (Finset.mem_univ c) h)]
  exact if_congr ((rows_resultIdx? d huw hiw hsd hivd idx e c v c).trans (and_iff_left rfl)) rfl rfl

theorem vec_resultIdx? {N E : Nat}
    (d : ScatterDims ⟨1, ![N]⟩ ⟨2, ![E, 1]⟩ ⟨1, ![E]⟩)
    (hiw : d.insertedWindowDims = [0]) (hsd : d.scatterDimsToOperandDims = [0]) (hivd : d.indexVectorDim = 1)
    (idx : IVec ⟨2, ![E, 1]⟩ 32) (e : Fin E) (v : Fin N) :
    d.resultIdx? (ix1 e) idx = some (ix1 v) ↔ GcnSpec.sRow? N (idx (ix2 e (0 : Fin 1))) = some v := by
  have hs0 := start_col d hivd idx (ix1 e) e (fun X _ => by
    match X with
    | ⟨0, _⟩ => rfl) (0 : Fin 1) (by rw [hsd]; exact List.mem_singleton.mpr rfl)
  have hw0 : d.window (ix1 e) (0 : Fin 1) = 0 := dif_neg (by rw [mem_sKept_scatter, hiw]; simp)
  rw [resultIdx?_eq_some_iff, sRow?_eq_some_iff, Fin.forall_fin_one, hs0, hw0]
  show _ + ((0 : Nat) : Int) = (v.val : Int) ↔ _
  omega

theorem scatterAdd_vec {φ : FTy} {N E : Nat}
    (d : ScatterDims ⟨1, ![N]⟩ ⟨2, ![E, 1]⟩ ⟨1, ![E]⟩)
    (huw : d.updateWindowDims = []) (hiw : d.insertedWindowDims = [0]) (hsd : d.scatterDimsToOperandDims = [0])
    (hivd : d.indexVectorDim = 1)
    (x : FVec Ideal ⟨1, ![N]⟩ φ) (idx : IVec ⟨2, ![E, 1]⟩ 32) (upd : FVec Ideal ⟨1, ![E]⟩ φ) (v : Fin N) :
    Host.scatterAdd (F := Ideal) d x idx upd (ix1 v)
      = x (ix1 v) + ∑ e ∈ Finset.univ.filter (fun e : Fin E => GcnSpec.sRow? N (idx (ix2 e (0 : Fin 1))) = some v), upd (ix1 e) := by
  show Ideal.hostScatterAdd d x idx upd (ix1 v) = _
  unfold Ideal.hostScatterAdd
  congr 1
  refine Finset.sum_nbij' (fun j => (j 0 : Fin E)) ix1 ?_ ?_ (fun j _ => (eq_ix1 j).symm) (fun _ _ => rfl)
    (fun j _ => congrArg upd (eq_ix1 j))
  · intro j hj
    have hj' := (Finset.mem_filter.1 hj).2
    rw [eq_ix1 j] at hj'
    exact Finset.mem_filter.2 ⟨Finset.mem_univ _, (vec_resultIdx? d hiw hsd hivd idx _ v).1 hj'⟩
  · intro e he
    exact Finset.mem_filter.2 ⟨Finset.mem_univ _, (vec_resultIdx? d hiw hsd hivd idx e v).2 (Finset.mem_filter.1 he).2⟩

end IndexOpsLib
-- ==== Proof.KHostA.lean ====
import proofs.«415816_j88759794139277_3_alg».proof.Proof.Gen.KernelIdeal
import proofs.«415816_j88759794139277_3_alg».proof.Proof.Spec
import proofs.«415816_j88759794139277_3_alg».proof.Proof.IdxOps
import Idealize.ShloMosaic.Lib.ValueLayout
import Idealize.ShloMosaic.Lib.IdealHost

noncomputable section

namespace Cert.KernelIdeal.KHost

open Idealize.ShloMosaic Idealize.ShloMosaic.ValueIdx
open Cert.KernelIdeal.Gen GcnSpec IndexOpsLib

def br : Fin 2 → Fin 3 := ![0, 2]
@[simp] theorem br_zero : br 0 = 0 := rfl
@[simp] theorem br_one : br 1 = 2 := rfl

variable (x0 : FVec Ideal S100000x64 .f32) (x1 : IVec S2x800000 32) (x3 : FVec Ideal S800000 .f32) (x5 : FVec Ideal S3x64x128 .f32)
  (x6 : FVec Ideal S3x128 .f32) (x7 : FVec Ideal S3x128x64 .f32) (x8 : FVec Ideal S3x64 .f32)

def kSrc : IVec S900000 32 :=
  concatenate S900000 0 [⟨S800000, shapeCast S800000 (extractStridedSlice S1x800000 ![0, 0] x1 slices_S2x800000_S1x800000_0_0) shapeCasts_S1x800000_S800000⟩, ⟨S100000, iotaInDim S100000 32 0⟩] concatenates_S800000_S100000_S900000_d0

def kDst : IVec S900000 32 :=
  concatenate S900000 0 [⟨S800000, shapeCast S800000 (extractStridedSlice S1x800000 ![1, 0] x1 slices_S2x800000_S1x800000_1_0) shapeCasts_S1x800000_S800000⟩, ⟨S100000, iotaInDim S100000 32 0⟩] concatenates_S800000_S100000_S900000_d0

def kEw : FVec Ideal S900000 .f32 :=
  concatenate S900000 0 [⟨S800000, x3⟩, ⟨S100000, broadcastInDim S100000 ![] bcast_S_S100000 (constant (F := Ideal) S_ .f32 0x3F800000#32)⟩] concatenates_S800000_S100000_S900000_d0

def degOf (dst : IVec S900000 32) (ew : FVec Ideal S900000 .f32) : FVec Ideal S100000 .f32 :=
  Host.scatterAdd (F := Ideal) scatter_S100000_S900000x1_S900000_n_0_0_1
    (broadcastInDim S100000 ![] bcast_S_S100000 (constant (F := Ideal) S_ .f32 0x00000000#32))
    (broadcastInDim S900000x1 ![0] bcast_S900000_S900000x1_0 dst) ew

def dinvOf (dst : IVec S900000 32) (ew : FVec Ideal S900000 .f32) : FVec Ideal S100000 .f32 :=
  select (cmpf .ogt (degOf dst ew) (broadcastInDim S100000 ![] bcast_S_S100000 (constant (F := Ideal) S_ .f32 0x00000000#32)))
    (Host.rsqrt (maximumf (degOf dst ew) (broadcastInDim S100000 ![] bcast_S_S100000 (constant (F := Ideal) S_ .f32 0x0DA24260#32))))
    (broadcastInDim S100000 ![] bcast_S_S100000 (constant (F := Ideal) S_ .f32 0x00000000#32))

def kDinv : FVec Ideal S100000 .f32 := dinvOf (kDst x1) (kEw x3)

def kDinv2 : FVec Ideal S100000x1 .f32 :=
  shapeCast S100000x1 (kDinv x1 x3) shapeCasts_S100000_S100000x1

def wrapIds (s : IVec S900000 32) : IVec S900000 32 :=
  select (cmpi .slt s (broadcastInDim S900000 ![] bcast_S_S900000 (constantI S_ 32 0#32)))
    (addi s (broadcastInDim S900000 ![] bcast_S_S900000 (constantI S_ 32 100000#32))) s

def aggXOf (X : FVec Ideal S100000x64 .f32) (src dst : IVec S900000 32) (ew : FVec Ideal S900000 .f32)
    (dinv : FVec Ideal S100000 .f32) : FVec Ideal S100000x64 .f32 :=
  Host.scatterAdd (F := Ideal) scatter_S100000x64_S900000x1_S900000x64_1_0_0_1
    (broadcastInDim S100000x64 ![] bcast_S_S100000x64 (constant (F := Ideal) S_ .f32 0x00000000#32))
    (broadcastInDim S900000x1 ![0] bcast_S900000_S900000x1_0 dst)
    (mulf (Host.gather gather_S100000x64_S900000x1_S900000x64_1_0_n_n_0_1_164 X (broadcastInDim S900000x1 ![0] bcast_S900000_S900000x1_0 (wrapIds src)))
      (broadcastInDim S900000x64 ![0, 1] bcast_S900000x1_S900000x64_0_1 (broadcastInDim S900000x1 ![0] bcast_S900000_S900000x1_0
        (mulf ew (Host.gather gather_S100000_S900000x1_S900000_n_0_n_n_0_1_1 dinv (broadcastInDim S900000x1 ![0] bcast_S900000_S900000x1_0 (wrapIds src)))))))

def kAggX : FVec Ideal S100000x64 .f32 :=
  aggXOf x0 (kSrc x1) (kDst x1) (kEw x3) (kDinv x1 x3)

def kW1c : FVec Ideal S64x256 .f32 :=
  concatenate S64x256 1 [⟨S64x128, shapeCast S64x128 (extractStridedSlice S1x64x128 ![0, 0, 0] x5 slices_S3x64x128_S1x64x128_0_0_0) shapeCasts_S1x64x128_S64x128⟩, ⟨S64x128, shapeCast S64x128 (extractStridedSlice S1x64x128 ![2, 0, 0] x5 slices_S3x64x128_S1x64x128_2_0_0) shapeCasts_S1x64x128_S64x128⟩] concatenates_S64x128_S64x128_S64x256_d1

def kB1c : FVec Ideal S1x256 .f32 :=
  shapeCast S1x256 (concatenate S256 0 [⟨S128, shapeCast S128 (extractStridedSlice S1x128 ![0, 0] x6 slices_S3x128_S1x128_0_0) shapeCasts_S1x128_S128⟩, ⟨S128, shapeCast S128 (extractStridedSlice S1x128 ![2, 0] x6 slices_S3x128_S1x128_2_0) shapeCasts_S1x128_S128⟩] concatenates_S128_S128_S256_d0) shapeCasts_S256_S1x256

def kW2c : FVec Ideal S2x128x64 .f32 :=
  concatenate S2x128x64 0 [⟨S1x128x64, broadcastInDim S1x128x64 ![1, 2] bcast_S128x64_S1x128x64_1_2 (shapeCast S128x64 (extractStridedSlice S1x128x64 ![0, 0, 0] x7 slices_S3x128x64_S1x128x64_0_0_0) shapeCasts_S1x128x64_S128x64)⟩, ⟨S1x128x64, broadcastInDim S1x128x64 ![1, 2] bcast_S128x64_S1x128x64_1_2 (shapeCast S128x64 (extractStridedSlice S1x128x64 ![2, 0, 0] x7 slices_S3x128x64_S1x128x64_2_0_0) shapeCasts_S1x128x64_S128x64)⟩] concatenates_S1x128x64_S1x128x64_S2x128x64_d0

def kB2c : FVec Ideal S1x128 .f32 :=
  shapeCast S1x128 (concatenate S128 0 [⟨S64, shapeCast S64 (extractStridedSlice S1x64 ![0, 0] x8 slices_S3x64_S1x64_0_0) shapeCasts_S1x64_S64⟩, ⟨S64, shapeCast S64 (extractStridedSlice S1x64 ![2, 0] x8 slices_S3x64_S1x64_2_0) shapeCasts_S1x64_S64⟩] concatenates_S64_S64_S128_d0) shapeCasts_S128_S1x128

theorem col_apply {α : Type} (x : S900000.Idx → α) (e : Fin 900000) :
    broadcastInDim S900000x1 ![0] bcast_S900000_S900000x1_0 x (ix2 e (0 : Fin 1)) = x (ix1 e) :=
  broadcastInDim_apply _ _ x _ (ix1 e) fun a => match a with | ⟨0, _⟩ => rfl

theorem colToRows_apply {α : Type} (y : S900000x1.Idx → α) (e : Fin 900000) (i : Fin 64) :
    broadcastInDim S900000x64 ![0, 1] bcast_S900000x1_S900000x64_0_1 y (ix2 e i) = y (ix2 e (0 : Fin 1)) :=
  broadcastInDim_apply _ _ y _ (ix2 e (0 : Fin 1)) fun a => match a with | ⟨0, _⟩ => rfl | ⟨1, _⟩ => rfl

theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    rewrite [Shape.rowMajor_val_two, Shape.rowMajor_val_one]; show i.val = i.val * 1 + u.val; omega)

theorem wrapWord (w : BitVec 32) :
    Scalar.select (IntOp.cmpi .slt w 0#32) (IntOp.addi w 100000#32) w = wrapId w := by
  unfold Scalar.select IntOp.cmpi IntOp.addi wrapId
  by_cases h : w.toInt < 0 <;> simp [BitVec.slt, h]

theorem wrapIds_apply (s : IVec S900000 32) (e : Fin 900000) : wrapIds s (ix1 e) = wrapId (s (ix1 e)) :=
  Eq.trans rfl (wrapWord (s (ix1 e)))

theorem aggXOf_apply (X : FVec Ideal S100000x64 .f32) (src dst : IVec S900000 32) (ew : FVec Ideal S900000 .f32)
    (dinv : FVec Ideal S100000 .f32) (v : Fin 100000) (i : Fin 64) :
    aggXOf X src dst ew dinv (ix2 v i) = aggxK X src dst ew dinv v i := by
  unfold aggXOf aggxK landing
  refine (scatterAdd_rows scatter_S100000x64_S900000x1_S900000x64_1_0_0_1 rfl rfl rfl rfl _ _ _ v i).trans ?_
  rw [broadcastInDim_scalar_apply, constant_apply, Ideal.ofBits_zero_f32, zero_add]
  refine Finset.sum_congr (Finset.filter_congr fun e _ => by rw [col_apply]) fun e _ => ?_
  rw [mulf_apply, gather_rows (N := 100000) (by decide) gather_S100000x64_S900000x1_S900000x64_1_0_n_n_0_1_164 rfl rfl rfl rfl rfl,
    col_apply, wrapIds_apply, colToRows_apply, col_apply, mulf_apply,
    gather_vec (N := 100000) (by decide) gather_S100000_S900000x1_S900000_n_0_n_n_0_1_1 rfl rfl rfl rfl rfl, col_apply, wrapIds_apply]
  rfl

theorem kDinv2_apply (v : Fin 100000) :
    kDinv2 x1 x3 (ix2 v (0 : Fin 1)) = kDinv x1 x3 (ix1 v) :=
  shapeCast_a_a1_apply (kDinv x1 x3) shapeCasts_S100000_S100000x1 v 0

-- slab o of a stack of three matrices, as one matrix
theorem gate3_apply {α : Type} {a b : ℕ} (o : ℕ) (ho : o < 3) (x : (⟨3, ![3, a, b]⟩ : Shape).Idx → α)
    (h : (⟨3, ![3, a, b]⟩ : Shape).Slices ![o, 0, 0] ⟨3, ![1, a, b]⟩) (hc : (⟨3, ![1, a, b]⟩ : Shape).ShapeCasts ⟨2, ![a, b]⟩)
    (i : Fin a) (j : Fin b) :
    shapeCast ⟨2, ![a, b]⟩ (extractStridedSlice ⟨3, ![1, a, b]⟩ ![o, 0, 0] x h) hc (ix2 i j) = x (ix3 (⟨o, ho⟩ : Fin 3) i j) :=
  (shapeCast_1ab_ab_apply _ _ i j).trans <|
    extractStridedSlice_apply _ _ _ (ix3 (0 : Fin 1) i j) (ix3 (⟨o, ho⟩ : Fin 3) i j) fun t => by
      match t with
      | ⟨0, _⟩ => rfl
      | ⟨1, _⟩ => exact (Nat.zero_add _).symm
      | ⟨2, _⟩ => exact (Nat.zero_add _).symm

theorem kW1c_apply (i : Fin 64) (g : Fin 2) (k : Fin 128) :
    kW1c x5 (ix2 i (half 128 g k)) = x5 (ix3 (br g) i k) := by
  unfold kW1c
  match g with
  | ⟨0, _⟩ =>
    refine (concatenate_pair_apply_left _ _ _ concatenates_S64x128_S64x128_S64x256_d1 _ rfl (ix2 i k) fun b => ?_).trans
      (gate3_apply 0 (by decide) x5 _ _ i k)
    match b with
    | ⟨0, _⟩ => rfl
    | ⟨1, _⟩ => show k.val = 0 * 128 + k.val; omega
  | ⟨1, _⟩ =>
    refine (concatenate_pair_apply_right _ _ _ concatenates_S64x128_S64x128_S64x256_d1 _ rfl rfl (ix2 i k) (fun b hb => ?_) ?_).trans
      (gate3_apply 2 (by decide) x5 _ _ i k)
    · match b with
      | ⟨0, _⟩ => rfl
      | ⟨1, _⟩ => exact absurd rfl hb
    · show k.val + 128 = 1 * 128 + k.val; omega

-- rows 0 and 2 of three rows of n, end to end as one row of 2 n: entry k of half g is row (br g) at k
theorem biasPair_apply {α : Type} {n : ℕ} (x : (⟨2, ![3, n]⟩ : Shape).Idx → α)
    (h0 : (⟨2, ![3, n]⟩ : Shape).Slices ![0, 0] ⟨2, ![1, n]⟩) (h2 : (⟨2, ![3, n]⟩ : Shape).Slices ![2, 0] ⟨2, ![1, n]⟩)
    (c : (⟨2, ![1, n]⟩ : Shape).ShapeCasts ⟨1, ![n]⟩) (hc : Shape.Concatenates [⟨1, ![n]⟩, ⟨1, ![n]⟩] ⟨1, ![2 * n]⟩ 0)
    (hr : (⟨1, ![2 * n]⟩ : Shape).ShapeCasts ⟨2, ![1, 2 * n]⟩) (g : Fin 2) (k : Fin n) :
    shapeCast ⟨2, ![1, 2 * n]⟩ (concatenate ⟨1, ![2 * n]⟩ 0 [⟨⟨1, ![n]⟩, shapeCast ⟨1, ![n]⟩ (extractStridedSlice ⟨2, ![1, n]⟩ ![0, 0] x h0) c⟩,
        ⟨⟨1, ![n]⟩, shapeCast ⟨1, ![n]⟩ (extractStridedSlice ⟨2, ![1, n]⟩ ![2, 0] x h2) c⟩] hc) hr (ix2 (0 : Fin 1) (half n g k))
      = x (ix2 (br g) k) := by
  refine (shapeCast_a_1a_apply _ hr (0 : Fin 1) (half n g k)).trans ?_
  match g with
  | ⟨0, _⟩ =>
    refine (concatenate_pair_apply_left _ _ _ hc _ rfl (ix1 k) fun b => ?_).trans
      ((shapeCast_1a_a_apply _ _ k).trans (slice2_axis0_apply 0 x _ (0 : Fin 1) k (0 : Fin 3) rfl))
    match b with
    | ⟨0, _⟩ => show k.val = 0 * n + k.val; omega
  | ⟨1, _⟩ =>
    refine (concatenate_pair_apply_right _ _ _ hc _ rfl rfl (ix1 k) (fun b hb => ?_) ?_).trans
      ((shapeCast_1a_a_apply _ _ k).trans (slice2_axis0_apply 2 x _ (0 : Fin 1) k (2 : Fin 3) rfl))
    · match b with
      | ⟨0, _⟩ => exact absurd rfl hb
    · show k.val + n = 1 * n + k.val; omega

theorem kB1c_apply (g : Fin 2) (k : Fin 128) :
    kB1c x6 (ix2 (0 : Fin 1) (half 128 g k)) = x6 (ix2 (br g) k) :=
  biasPair_apply (n := 128) x6 _ _ _ _ _ g k

-- one matrix of the stack of two: slab o of the three, under a leading unit axis
theorem w2piece_apply (o : ℕ) (ho : o < 3) (x7 : FVec Ideal S3x128x64 .f32) (h : S3x128x64.Slices ![o, 0, 0] S1x128x64)
    (k : Fin 128) (j : Fin 64) :
    broadcastInDim S1x128x64 ![1, 2] bcast_S128x64_S1x128x64_1_2
        (shapeCast S128x64 (extractStridedSlice S1x128x64 ![o, 0, 0] x7 h) shapeCasts_S1x128x64_S128x64) (ix3 (0 : Fin 1) k j)
      = x7 (ix3 (⟨o, ho⟩ : Fin 3) k j) :=
  (broadcastInDim_apply _ _ _ _ (ix2 k j) fun a => by
    match a with
    | ⟨0, _⟩ => rfl
    | ⟨1, _⟩ => rfl).trans (gate3_apply o ho x7 h _ k j)

theorem kW2c_apply (g : Fin 2) (k : Fin 128) (j : Fin 64) :
    kW2c x7 (ix3 g k j) = x7 (ix3 (br g) k j) := by
  unfold kW2c
  match g with
  | ⟨0, _⟩ =>
    refine (concatenate_pair_apply_left _ _ _ concatenates_S1x128x64_S1x128x64_S2x128x64_d0 _ rfl (ix3 (0 : Fin 1) k j) fun b => ?_).trans
      (w2piece_apply 0 (by decide) x7 _ k j)
    match b with
    | ⟨0, _⟩ => rfl
    | ⟨1, _⟩ => rfl
    | ⟨2, _⟩ => rfl
  | ⟨1, _⟩ =>
    refine (concatenate_pair_apply_right _ _ _ concatenates_S1x128x64_S1x128x64_S2x128x64_d0 _ rfl rfl (ix3 (0 : Fin 1) k j) (fun b hb => ?_) ?_).trans
      (w2piece_apply 2 (by decide) x7 _ k j)
    · match b with
      | ⟨0, _⟩ => exact absurd rfl hb
      | ⟨1, _⟩ => rfl
      | ⟨2, _⟩ => rfl
    · rfl

theorem layer1K_host (v : Fin 100000) (g : Fin 2) (j : Fin 64) :
    layer1K (kAggX x0 x1 x3) (kDinv2 x1 x3) (kW1c x5) (kB1c x6) (kW2c x7) v g j
      = xw2sK x0 (kSrc x1) (kDst x1) (kEw x3) (kDinv x1 x3) x5 x6 x7 (br g) v j := by
  unfold layer1K xw2sK h1K
  simp only [kAggX, aggXOf_apply, kDinv2_apply, kW1c_apply, kB1c_apply, kW2c_apply]

end Cert.KernelIdeal.KHost

end
-- ==== Proof.KHostAV.lean ====
import proofs.«415816_j88759794139277_3_alg».proof.Proof.Gen.KernelIdeal.Regions
import proofs.«415816_j88759794139277_3_alg».proof.Proof.KHostA

noncomputable section

namespace Cert.KernelIdeal.KHost

open Idealize.ShloMosaic Idealize.ShloMosaic.ValueIdx Idealize.ShloMosaic.TcCoe
open Cert.KernelIdeal.Gen GcnSpec IndexOpsLib

section Stages
variable (W : Valuation τ sig (Elt Ideal))

theorem s0_v3 : (StableHlo.after hostOps0 W main_v3 : S900000.Idx → BitVec 32) = kSrc (W main_arg1) := by
  dsimp only [hostOps0]; after_results; rfl
theorem s0_v6 : (StableHlo.after hostOps0 W main_v6 : S900000.Idx → BitVec 32) = kDst (W main_arg1) := by
  dsimp only [hostOps0]; after_results; rfl
theorem s0_v8 : (StableHlo.after hostOps0 W main_v8 : S900000.Idx → EReal) = kEw (W main_arg3) := by
  dsimp only [hostOps0]; after_results; rfl
theorem s0_v13 : (StableHlo.after hostOps0 W main_v13 : S100000.Idx → BitVec 1)
    = cmpf .ogt (degOf (kDst (W main_arg1)) (kEw (W main_arg3))) (broadcastInDim S100000 ![] bcast_S_S100000 (constant (F := Ideal) S_ .f32 0x00000000#32)) := by
  dsimp only [hostOps0]; after_results; rfl
theorem s0_v16 : (StableHlo.after hostOps0 W main_v16 : S100000.Idx → EReal)
    = Host.rsqrt (maximumf (degOf (kDst (W main_arg1)) (kEw (W main_arg3))) (broadcastInDim S100000 ![] bcast_S_S100000 (constant (F := Ideal) S_ .f32 0x0DA24260#32))) := by
  dsimp only [hostOps0]; after_results; rfl
theorem s0_cst_3 : (StableHlo.after hostOps0 W main_cst_3 : S_.Idx → EReal) = constant (F := Ideal) S_ .f32 0x00000000#32 := by
  dsimp only [hostOps0]; after_results

theorem s1_v17 : (StableHlo.after hostOps0_1 W main_v17 : S100000.Idx → EReal)
    = select (W main_v13) (W main_v16) (broadcastInDim S100000 ![] bcast_S_S100000 (W main_cst_3)) := by
  dsimp only [hostOps0_1]; after_results; rfl

theorem s2_v63 : (StableHlo.after hostOps0_2 W main_v63 : S100000x64.Idx → EReal)
    = aggXOf (W main_arg0) (W main_v3) (W main_v6) (W main_v8) (W main_v17) := by
  dsimp only [hostOps0_2]; after_results_simp; rfl
theorem s2_v18 : (StableHlo.after hostOps0_2 W main_v18 : S100000x1.Idx → EReal)
    = shapeCast S100000x1 (W main_v17) shapeCasts_S100000_S100000x1 := by
  dsimp only [hostOps0_2]; after_results; rfl
theorem s2_v23 : (StableHlo.after hostOps0_2 W main_v23 : S64x256.Idx → EReal) = kW1c (W main_arg5) := by
  dsimp only [hostOps0_2]; after_results; rfl
theorem s2_v29 : (StableHlo.after hostOps0_2 W main_v29 : S1x256.Idx → EReal) = kB1c (W main_arg6) := by
  dsimp only [hostOps0_2]; after_results; rfl
theorem s2_v36 : (StableHlo.after hostOps0_2 W main_v36 : S2x128x64.Idx → EReal) = kW2c (W main_arg7) := by
  dsimp only [hostOps0_2]; after_results; rfl
theorem s2_v42 : (StableHlo.after hostOps0_2 W main_v42 : S1x128.Idx → EReal) = kB2c (W main_arg8) := by
  dsimp only [hostOps0_2]; after_results_simp; rfl

end Stages

section AtLaunch
variable (m : (ℓ : Loc nD τ sig) → Buf (Elt Ideal) ℓ) (c : Dev nD)

theorem V2_arg (r : Ref sig .tc) (h2 : r ∉ hostOps0_1_W) (h1 : r ∉ hostOps0_W) : V2 m c r = m ((c : Thread nD τ).loc r) :=
  (V2_of m c r h2).trans (V1_of m c r h1)

theorem V2_main_v3 : (V2 m c main_v3 : S900000.Idx → BitVec 32) = kSrc (m ((c : Thread nD τ).loc main_arg1)) :=
  (V2_of m c main_v3 (by decide)).trans (s0_v3 (V0 m c))
theorem V2_main_v6 : (V2 m c main_v6 : S900000.Idx → BitVec 32) = kDst (m ((c : Thread nD τ).loc main_arg1)) :=
  (V2_of m c main_v6 (by decide)).trans (s0_v6 (V0 m c))
theorem V2_main_v8 : (V2 m c main_v8 : S900000.Idx → EReal) = kEw (m ((c : Thread nD τ).loc main_arg3)) :=
  (V2_of m c main_v8 (by decide)).trans (s0_v8 (V0 m c))

theorem V2_main_v17 : (V2 m c main_v17 : S100000.Idx → EReal)
    = kDinv (m ((c : Thread nD τ).loc main_arg1)) (m ((c : Thread nD τ).loc main_arg3)) := by
  refine (s1_v17 (V1 m c)).trans ?_
  rw [show (V1 m c main_v13 : S100000.Idx → BitVec 1) = _ from s0_v13 (V0 m c),
    show (V1 m c main_v16 : S100000.Idx → EReal) = _ from s0_v16 (V0 m c),
    show (V1 m c main_cst_3 : S_.Idx → EReal) = _ from s0_cst_3 (V0 m c)]
  rfl

theorem V3_main_v18 : (V3 m c main_v18 : S100000x1.Idx → EReal)
    = kDinv2 (m ((c : Thread nD τ).loc main_arg1)) (m ((c : Thread nD τ).loc main_arg3)) := by
  refine (s2_v18 (V2 m c)).trans ?_
  rw [V2_main_v17 m c]
  rfl

theorem V3_main_v63 : (V3 m c main_v63 : S100000x64.Idx → EReal)
    = kAggX (m ((c : Thread nD τ).loc main_arg0)) (m ((c : Thread nD τ).loc main_arg1)) (m ((c : Thread nD τ).loc main_arg3)) := by
  refine (s2_v63 (V2 m c)).trans ?_
  rw [V2_main_v17 m c, V2_main_v3 m c, V2_main_v6 m c, V2_main_v8 m c, V2_arg m c main_arg0 (by decide) (by decide)]
  rfl

theorem V3_main_v23 : (V3 m c main_v23 : S64x256.Idx → EReal) = kW1c (m ((c : Thread nD τ).loc main_arg5)) := by
  refine (s2_v23 (V2 m c)).trans ?_
  rw [V2_arg m c main_arg5 (by decide) (by decide)]
theorem V3_main_v29 : (V3 m c main_v29 : S1x256.Idx → EReal) = kB1c (m ((c : Thread nD τ).loc main_arg6)) := by
  refine (s2_v29 (V2 m c)).trans ?_
  rw [V2_arg m c main_arg6 (by decide) (by decide)]
theorem V3_main_v36 : (V3 m c main_v36 : S2x128x64.Idx → EReal) = kW2c (m ((c : Thread nD τ).loc main_arg7)) := by
  refine (s2_v36 (V2 m c)).trans ?_
  rw [V2_arg m c main_arg7 (by decide) (by decide)]
theorem V3_main_v42 : (V3 m c main_v42 : S1x128.Idx → EReal) = kB2c (m ((c : Thread nD τ).loc main_arg8)) := by
  refine (s2_v42 (V2 m c)).trans ?_
  rw [V2_arg m c main_arg8 (by decide) (by decide)]

end AtLaunch

end Cert.KernelIdeal.KHost

end
-- ==== Proof.KHostB.lean ====
import proofs.«415816_j88759794139277_3_alg».proof.Proof.Gen.KernelIdeal.Regions
import proofs.«415816_j88759794139277_3_alg».proof.Proof.Spec
import proofs.«415816_j88759794139277_3_alg».proof.Proof.IdxOps
import proofs.«415816_j88759794139277_3_alg».proof.Proof.KHostA
import proofs.«415816_j88759794139277_3_alg».proof.Proof.KHostAV
import Idealize.ShloMosaic.Lib.IdealHost
import Idealize.ShloMosaic.Lib.Pipeline.Value

set_option maxRecDepth 1184

noncomputable section

namespace Cert.KernelIdeal.KHost

open Idealize.ShloMosaic Idealize.ShloMosaic.TcCoe Idealize.ShloMosaic.ValueIdx IndexOpsLib
open GcnSpec (wrapId gRow sRow? landing half)
open Cert.KernelIdeal.Gen

variable (o : FVec Ideal S100000x128 .f32) (x1 : IVec S2x800000 32) (x3 : FVec Ideal S800000 .f32)

def aggRows (src dst : IVec S900000 32) (ew : FVec Ideal S900000 .f32) : FVec Ideal S100000x128 .f32 :=
  Host.scatterAdd scatter_S100000x128_S900000x1_S900000x128_1_0_0_1
    (broadcastInDim S100000x128 ![] Gen.bcast_S_S100000x128 (constant (F := Ideal) S_ .f32 0x00000000#32))
    (broadcastInDim S900000x1 ![0] Gen.bcast_S900000_S900000x1_0 dst)
    (mulf
      (broadcastInDim S900000x128 ![0, 1] Gen.bcast_S900000x1_S900000x128_0_1
        (broadcastInDim S900000x1 ![0] Gen.bcast_S900000_S900000x1_0 ew))
      (Host.gather gather_S100000x128_S900000x1_S900000x128_1_0_n_n_0_1_1128 o
        (broadcastInDim S900000x1 ![0] Gen.bcast_S900000_S900000x1_0 (wrapIds src))))

def kAgg2 : FVec Ideal S100000x128 .f32 :=
  aggRows o (kSrc x1) (kDst x1) (kEw x3)

def kRb2 (x2 : IVec S100000 32) : IVec S100000x1 32 := shapeCast S100000x1 x2 Gen.shapeCasts_S100000_S100000x1

private theorem rowsOfCol_apply {α : Type} (y : S900000x1.Idx → α) (e : Fin 900000) (f : Fin 128) :
    broadcastInDim S900000x128 ![0, 1] Gen.bcast_S900000x1_S900000x128_0_1 y (ix2 e f) = y (ix2 e 0) :=
  broadcastInDim_apply _ _ y _ _ fun a => match a with | ⟨0, _⟩ => rfl | ⟨1, _⟩ => rfl

section After
variable (V : Valuation τ sig (Elt Ideal))

theorem after_main_v77 :
    (StableHlo.after hostOps1 V main_v77 : S100000x128.Idx → EReal)
      = aggRows (V main_v64) (V main_v3) (V main_v6) (V main_v8) := by
  dsimp only [hostOps1]
  after_results_simp
  rfl

theorem after_main_v78 :
    (StableHlo.after hostOps1 V main_v78 : S100000x1.Idx → BitVec 32) = kRb2 (V main_arg2) := by
  dsimp only [hostOps1]
  after_results
  rfl

end After

section Entered
variable (m : (ℓ : Loc nD τ sig) → Buf (Elt Ideal) ℓ) (outs : Outs (F := Ideal))

theorem V5_main_v77 (c : Dev nD) :
    (V5 m outs c main_v77 : S100000x128.Idx → EReal)
      = kAgg2 (outs 4 main_v64 c) (m ((c : Thread nD τ).loc main_arg1)) (m ((c : Thread nD τ).loc main_arg3)) := by
  have e64 : (V4 m outs c main_v64 : S100000x128.Idx → EReal) = outs 4 main_v64 c := Function.update_self _ _ _
  have e3 := (V4_of m outs c main_v3 (by decide)).trans ((V3_of m c main_v3 (by decide)).trans (V2_main_v3 m c))
  have e6 := (V4_of m outs c main_v6 (by decide)).trans ((V3_of m c main_v6 (by decide)).trans (V2_main_v6 m c))
  have e8 := (V4_of m outs c main_v8 (by decide)).trans ((V3_of m c main_v8 (by decide)).trans (V2_main_v8 m c))
  refine (after_main_v77 (V4 m outs c)).trans ?_
  rw [e64, e3, e6, e8]
  rfl

theorem V5_main_v78 (c : Dev nD) :
    (V5 m outs c main_v78 : S100000x1.Idx → BitVec 32) = kRb2 (m ((c : Thread nD τ).loc main_arg2)) := by
  refine (after_main_v78 (V4 m outs c)).trans ?_
  rw [V4_of m outs c main_arg2 (by decide), V3_of m c main_arg2 (by decide), V2_of m c main_arg2 (by decide),
    V1_of m c main_arg2 (by decide)]

theorem V5_main_v42 (c : Dev nD) :
    (V5 m outs c main_v42 : S1x128.Idx → EReal) = kB2c (m ((c : Thread nD τ).loc main_arg8)) := by
  rw [V5_of m outs c main_v42 (by decide), V4_of m outs c main_v42 (by decide)]
  exact V3_main_v42 m c

theorem V5_main_v18 (c : Dev nD) :
    (V5 m outs c main_v18 : S100000x1.Idx → EReal)
      = kDinv2 (m ((c : Thread nD τ).loc main_arg1)) (m ((c : Thread nD τ).loc main_arg3)) := by
  rw [V5_of m outs c main_v18 (by decide), V4_of m outs c main_v18 (by decide)]
  exact V3_main_v18 m c

end Entered

theorem aggRows_apply (src dst : IVec S900000 32) (ew : FVec Ideal S900000 .f32) (v : Fin 100000) (f : Fin 128) :
    aggRows o src dst ew (ix2 v f) = ∑ e ∈ landing dst v, ew (ix1 e) * o (ix2 (gRow src e) f) := by
  unfold aggRows landing
  rw [scatterAdd_rows scatter_S100000x128_S900000x1_S900000x128_1_0_0_1 rfl rfl rfl rfl, broadcastInDim_scalar_apply,
    constant_apply, Ideal.ofBits_zero_f32, zero_add]
  refine Finset.sum_congr (Finset.filter_congr fun e _ => by rw [col_apply]) fun e _ => ?_
  rw [mulf_apply, rowsOfCol_apply, col_apply, gather_rows (N := 100000) (by decide)
      gather_S100000x128_S900000x1_S900000x128_1_0_n_n_0_1_1128 rfl rfl rfl rfl rfl, col_apply,
    wrapIds_apply]
  rfl

theorem kAgg2_apply (v : Fin 100000) (f : Fin 128) :
    kAgg2 o x1 x3 (ix2 v f) = ∑ e ∈ landing (kDst x1) v, kEw x3 (ix1 e) * o (ix2 (gRow (kSrc x1) e) f) :=
  aggRows_apply o (kSrc x1) (kDst x1) (kEw x3) v f

theorem kRb2_apply (x2 : IVec S100000 32) (v : Fin 100000) : kRb2 x2 (ix2 v 0) = x2 (ix1 v) :=
  shapeCast_a_a1_apply x2 shapeCasts_S100000_S100000x1 v 0

theorem kB2c_apply (x8 : FVec Ideal S3x64 .f32) (g : Fin 2) (j : Fin 64) :
    kB2c x8 (ix2 0 (half 64 g j)) = x8 (ix2 (br g) j) :=
  biasPair_apply (n := 64) x8 _ _ _ _ _ g j

end Cert.KernelIdeal.KHost

end
-- ==== Proof.KHostC.lean ====
import proofs.«415816_j88759794139277_3_alg».proof.Proof.Gen.KernelIdeal.Regions
import proofs.«415816_j88759794139277_3_alg».proof.Proof.Spec
import Idealize.ShloMosaic.Lib.StableHlo.Run
import Idealize.ShloMosaic.Lib.ValueLayout
import Idealize.ShloMosaic.Lib.IdealHost
import Idealize.ShloMosaic.Lib.StackMember

set_option maxRecDepth 1184

noncomputable section

namespace Cert.KernelIdeal.KHost

open Cert.KernelIdeal Cert.KernelIdeal.Gen Idealize.ShloMosaic Idealize.ShloMosaic.TcCoe Idealize.SL.Sem Idealize.ShloMosaic.StableHlo
open Idealize.ShloMosaic.ValueIdx

section Term

variable {F : FTy → Type} [FloatOps F] (p : (⟨S64x128, .f32⟩ : BufTy).Contents (Elt F)) (cn : (⟨S1x64, .f32⟩ : BufTy).Contents (Elt F))
  (x4 : (⟨S64x64, .f32⟩ : BufTy).Contents (Elt F)) (x9 : (⟨S3x128x64, .f32⟩ : BufTy).Contents (Elt F)) (x10 : (⟨S3x64, .f32⟩ : BufTy).Contents (Elt F))

def kOnes : (⟨S64x64, .f32⟩ : BufTy).Contents (Elt F) :=
  broadcastInDim S64x64 ![] bcast_S_S64x64 (constant S_ .f32 0x3F800000#32)

def kMean : (⟨S64x128, .f32⟩ : BufTy).Contents (Elt F) :=
  Host.divf p (broadcastInDim S64x128 ![0, 1] bcast_S64x1_S64x128_0_1
    (shapeCast S64x1 (maximumf cn (broadcastInDim S1x64 ![] bcast_S_S1x64 (constant S_ .f32 0x3F800000#32))) shapeCasts_S1x64_S64x1))

def kJoin (o : Nat) (h : S64x128.Slices ![0, o] S64x64) (mean : (⟨S64x128, .f32⟩ : BufTy).Contents (Elt F))
    (x4 : (⟨S64x64, .f32⟩ : BufTy).Contents (Elt F)) : (⟨S64x128, .f32⟩ : BufTy).Contents (Elt F) :=
  concatenate S64x128 1 [⟨S64x64, extractStridedSlice S64x64 ![0, o] mean h⟩, ⟨S64x64, x4⟩] concatenates_S64x64_S64x64_S64x128_d1

def kGate (o : Nat) (h9 : S3x128x64.Slices ![o, 0, 0] S1x128x64) (h10 : S3x64.Slices ![o, 0] S1x64)
    (cat : (⟨S64x128, .f32⟩ : BufTy).Contents (Elt F)) (x9 : (⟨S3x128x64, .f32⟩ : BufTy).Contents (Elt F))
    (x10 : (⟨S3x64, .f32⟩ : BufTy).Contents (Elt F)) : (⟨S64x64, .f32⟩ : BufTy).Contents (Elt F) :=
  addf (Host.dotGeneral dot_S64x128_S128x64_S64x64_1_0_0_1_n_n none cat
      (shapeCast S128x64 (extractStridedSlice S1x128x64 ![o, 0, 0] x9 h9) shapeCasts_S1x128x64_S128x64))
    (broadcastInDim S64x64 ![0, 1] bcast_S1x64_S64x64_0_1 (broadcastInDim S1x64 ![1] bcast_S64_S1x64_1
      (shapeCast S64 (extractStridedSlice S1x64 ![o, 0] x10 h10) shapeCasts_S1x64_S64)))

def kZ : (⟨S64x64, .f32⟩ : BufTy).Contents (Elt F) :=
  Host.divf kOnes (addf kOnes (Host.exp (Host.negf
    (kGate 0 slices_S3x128x64_S1x128x64_0_0_0 slices_S3x64_S1x64_0_0 (kJoin 0 slices_S64x128_S64x64_0_0 (kMean p cn) x4) x9 x10))))

def kTail : (⟨S64x64, .f32⟩ : BufTy).Contents (Elt F) :=
  addf (mulf (kZ p cn x4 x9 x10) x4)
    (mulf (subf kOnes (kZ p cn x4 x9 x10)) (Host.tanh
      (kGate 2 slices_S3x128x64_S1x128x64_2_0_0 slices_S3x64_S1x64_2_0 (kJoin 64 slices_S64x128_S64x64_0_64 (kMean p cn) x4) x9 x10)))

theorem after_hostOps2_main_v116 (W : Valuation τ sig (Elt F)) :
    StableHlo.after hostOps2 W (Proc.devRef .tc main_v116)
      = kTail (W main_v79_0) (W main_v79_1) (W main_arg4) (W main_arg9) (W main_arg10) := by
  dsimp only [hostOps2]; after_results_simp; rfl

theorem V7_main_v116 (m : (ℓ : Loc nD τ sig) → Buf (Elt F) ℓ) (outs : Outs (F := F)) (c : Dev nD) :
    V7 m outs c main_v116
      = kTail (outs 6 main_v79_0 c) (outs 6 main_v79_1 c) (m ((c : Thread nD τ).loc main_arg4))
          (m ((c : Thread nD τ).loc main_arg9)) (m ((c : Thread nD τ).loc main_arg10)) := by
  have h0 : V6 m outs c main_v79_0 = outs 6 main_v79_0 c := by
    simp only [V6, Function.update_of_ne (StableHlo.devRef_ne_of_ne (by decide) : (Proc.devRef .tc main_v79_0 : DevRef τ sig) ≠ Proc.devRef .tc main_v79_1), Function.update_self]
  have h1 : V6 m outs c main_v79_1 = outs 6 main_v79_1 c := Function.update_self _ _ _
  have h4 := (V7_of m outs c main_arg4 (by decide)).symm.trans (V7_main_arg4 m outs c)
  have h9 := (V7_of m outs c main_arg9 (by decide)).symm.trans (V7_main_arg9 m outs c)
  have h10 := (V7_of m outs c main_arg10 (by decide)).symm.trans (V7_main_arg10 m outs c)
  refine (after_hostOps2_main_v116 (V6 m outs c)).trans ?_
  rw [h0, h1, h4, h9, h10]

end Term

section AtEntry

variable (p : (⟨S64x128, .f32⟩ : BufTy).Contents (Elt Ideal)) (cn : (⟨S1x64, .f32⟩ : BufTy).Contents (Elt Ideal))
  (x4 : (⟨S64x64, .f32⟩ : BufTy).Contents (Elt Ideal)) (x9 : (⟨S3x128x64, .f32⟩ : BufTy).Contents (Elt Ideal))
  (x10 : (⟨S3x64, .f32⟩ : BufTy).Contents (Elt Ideal))

theorem kOnes_apply (i : S64x64.Idx) : kOnes (F := Ideal) i = GcnSpec.one :=
  (broadcastInDim_scalar_apply bcast_S_S64x64 _ i).trans rfl

-- the count is raised to 1, turned from a row into a column and repeated along the features
theorem kMean_apply (b : Fin 64) (k : Fin 128) :
    kMean (F := Ideal) p cn (ix2 b k) = Ideal.div (p (ix2 b k)) (max (cn (ix2 0 b)) GcnSpec.one) := by
  unfold kMean
  refine (hostDivf_apply _ _ _).trans (congrArg (Ideal.div (p (ix2 b k))) ?_)
  refine (broadcastInDim_apply _ bcast_S64x1_S64x128_0_1 _ (ix2 b k) (ix2 b (0 : Fin 1)) fun a => match a with | ⟨0, _⟩ => rfl | ⟨1, _⟩ => rfl).trans ?_
  refine (shapeCast_apply _ shapeCasts_S1x64_S64x1 (ix2 b (0 : Fin 1)) (ix2 (0 : Fin 1) b)
    (by rewrite [Shape.rowMajor_val_two, Shape.rowMajor_val_two]; show 0 * 64 + b.val = b.val * 1 + 0; omega)).trans ?_
  exact (maximumf_apply _ _ _).trans (congrArg (max (cn (ix2 0 b))) ((broadcastInDim_scalar_apply bcast_S_S1x64 _ _).trans rfl))

-- a column below 64 reads the mean of that feature of half g, a later one the state's column 64 back
theorem kJoin_apply (g : Fin 2) (hs : S64x128.Slices ![0, g.val * 64] S64x64) (b : Fin 64) (k : Fin 128) :
    kJoin (F := Ideal) (g.val * 64) hs (kMean p cn) x4 (ix2 b k)
      = if h : k.val < 64 then Ideal.div (p (ix2 b (GcnSpec.half 64 g ⟨k.val, h⟩))) (max (cn (ix2 0 b)) GcnSpec.one)
        else x4 (ix2 b (⟨k.val - 64, by have := k.isLt; omega⟩ : Fin 64)) := by
  unfold kJoin
  by_cases hk : k.val < 64
  · rw [dif_pos hk]
    refine (concatenate_pair_apply_left _ _ _ concatenates_S64x64_S64x64_S64x128_d1 (ix2 b k) rfl (ix2 b (⟨k.val, hk⟩ : Fin 64))
      fun a => match a with | ⟨0, _⟩ => rfl | ⟨1, _⟩ => rfl).trans ?_
    refine (slice2_axis1_apply _ _ hs b ⟨k.val, hk⟩ ⟨g.val * 64 + k.val, by have := g.isLt; omega⟩ rfl).trans ?_
    rw [kMean_apply]
    rfl
  · rw [dif_neg hk]
    exact concatenate_pair_apply_right _ _ _ concatenates_S64x64_S64x64_S64x128_d1 (ix2 b k) rfl rfl
      (ix2 b (⟨k.val - 64, by have := k.isLt; omega⟩ : Fin 64))
      (fun a ha => match a, ha with | ⟨0, _⟩, _ => rfl | ⟨1, _⟩, ha => absurd rfl ha)
      (by show (k.val - 64) + 64 = k.val; omega)

theorem dot_apply (l : (⟨S64x128, .f32⟩ : BufTy).Contents (Elt Ideal)) (r : (⟨S128x64, .f32⟩ : BufTy).Contents (Elt Ideal)) (b j : Fin 64) :
    Host.dotGeneral (F := Ideal) (φ₁ := .f32) (φ₂ := .f32) dot_S64x128_S128x64_S64x64_1_0_0_1_n_n none l r (ix2 b j)
      = ∑ k : Fin 128, l (ix2 b k) * r (ix2 k j) :=
  StackMember.dotGeneral_plain_apply (m := 64) (k := 128) (n := 64) none l r b j

theorem slab_apply (o : Nat) (ho : o < 3) (h9 : S3x128x64.Slices ![o, 0, 0] S1x128x64) (k : Fin 128) (j : Fin 64) :
    shapeCast S128x64 (extractStridedSlice S1x128x64 ![o, 0, 0] x9 h9) shapeCasts_S1x128x64_S128x64 (ix2 k j)
      = x9 (ix3 (⟨o, ho⟩ : Fin 3) k j) :=
  (shapeCast_1ab_ab_apply _ _ k j).trans <|
    extractStridedSlice_apply ![o, 0, 0] x9 h9 (ix3 (0 : Fin 1) k j) (ix3 (⟨o, ho⟩ : Fin 3) k j) fun a => match a with
      | ⟨0, _⟩ => rfl
      | ⟨1, _⟩ => (Nat.zero_add _).symm
      | ⟨2, _⟩ => (Nat.zero_add _).symm

theorem bias_apply (o : Nat) (ho : o < 3) (h10 : S3x64.Slices ![o, 0] S1x64) (b j : Fin 64) :
    broadcastInDim S64x64 ![0, 1] bcast_S1x64_S64x64_0_1 (broadcastInDim S1x64 ![1] bcast_S64_S1x64_1
        (shapeCast S64 (extractStridedSlice S1x64 ![o, 0] x10 h10) shapeCasts_S1x64_S64)) (ix2 b j)
      = x10 (ix2 (⟨o, ho⟩ : Fin 3) j) := by
  refine (broadcastInDim_apply _ bcast_S1x64_S64x64_0_1 _ (ix2 b j) (ix2 (0 : Fin 1) j) fun a => match a with | ⟨0, _⟩ => rfl | ⟨1, _⟩ => rfl).trans ?_
  refine (broadcastInDim_apply _ bcast_S64_S1x64_1 _ (ix2 (0 : Fin 1) j) (ix1 j) fun a => match a with | ⟨0, _⟩ => rfl).trans ?_
  exact (shapeCast_1a_a_apply _ _ j).trans (slice2_axis0_apply o x10 h10 (0 : Fin 1) j ⟨o, ho⟩ rfl)

theorem kGate_join_apply (o : Nat) (ho : o < 3) (g : Fin 2) (c : Nat) (hc : c = g.val * 64)
    (h9 : S3x128x64.Slices ![o, 0, 0] S1x128x64) (h10 : S3x64.Slices ![o, 0] S1x64) (hs : S64x128.Slices ![0, c] S64x64) (b j : Fin 64) :
    kGate (F := Ideal) o h9 h10 (kJoin c hs (kMean p cn) x4) x9 x10 (ix2 b j)
      = GcnSpec.gatePre (fun b j => p (ix2 b (GcnSpec.half 64 g j))) (fun b => cn (ix2 0 b)) x4 x9 x10 (⟨o, ho⟩ : Fin 3) b j := by
  subst hc
  unfold kGate GcnSpec.gatePre
  refine (addf_apply _ _ _).trans ?_
  rw [dot_apply, bias_apply x10 o ho]
  exact congrArg (· + x10 (ix2 (⟨o, ho⟩ : Fin 3) j)) (Finset.sum_congr rfl fun k _ => by rw [kJoin_apply, slab_apply x9 o ho h9 k j])

theorem kTail_apply (b j : Fin 64) :
    kTail (F := Ideal) p cn x4 x9 x10 (ix2 b j)
      = GcnSpec.outSpec (fun b j => p (ix2 b (GcnSpec.half 64 0 j))) (fun b j => p (ix2 b (GcnSpec.half 64 1 j)))
          (fun b => cn (ix2 0 b)) x4 x9 x10 b j := by
  unfold kTail kZ Host.tanh Host.exp Host.negf
  rw [addf_apply, mulf_apply, mulf_apply, subf_apply, hostDivf_apply, addf_apply, kOnes_apply, kGate_join_apply p cn x4 x9 x10 0 (by decide) 0 0 rfl,
    kGate_join_apply p cn x4 x9 x10 2 (by decide) 1 64 rfl]
  rfl

end AtEntry

end Cert.KernelIdeal.KHost

end
-- ==== Proof.RefLayers.lean ====
import proofs.«415816_j88759794139277_3_alg».proof.Proof.Gen.ReferenceIdeal.Read
import proofs.«415816_j88759794139277_3_alg».proof.Proof.Spec
import proofs.«415816_j88759794139277_3_alg».proof.Proof.LibGather2
import proofs.«415816_j88759794139277_3_alg».proof.Proof.IdxOps

noncomputable section

namespace Cert.ReferenceIdeal.RefValue

open Cert.ReferenceIdeal Idealize.ShloMosaic Idealize.ShloMosaic.ValueIdx IndexOpsLib
open Cert.ReferenceIdeal.Read
open GcnSpec (wrapId gRow sRow? landing coef xw1R h1R xw2R h2R relu nN nE Se)

theorem wrap_word (w : BitVec 32) :
    Scalar.select (IntOp.cmpi .slt w 0#32) (IntOp.addi w 100000#32) w = wrapId w := by
  unfold Scalar.select IntOp.cmpi IntOp.addi wrapId
  by_cases h : w.toInt < 0
  · have hs : w.slt 0#32 = true := by simp [BitVec.slt, h]
    simp [hs, h]
  · have hs : w.slt 0#32 = false := by simp [BitVec.slt, h]
    simp [hs, h]

theorem ix2_of {n0 n1 : Nat} (j : (⟨2, ![n0, n1]⟩ : Shape).Idx) (a : Fin n0) (b : Fin n1)
    (h0 : (j 0).val = a.val) (h1 : (j 1).val = b.val) : j = ix2 a b := by
  funext d; match d with | ⟨0, _⟩ => exact Fin.ext h0 | ⟨1, _⟩ => exact Fin.ext h1

theorem ix3_of {n0 n1 n2 : Nat} (j : (⟨3, ![n0, n1, n2]⟩ : Shape).Idx) (a : Fin n0) (b : Fin n1) (c : Fin n2)
    (h0 : (j 0).val = a.val) (h1 : (j 1).val = b.val) (h2 : (j 2).val = c.val) : j = ix3 a b c := by
  funext d; match d with | ⟨0, _⟩ => exact Fin.ext h0 | ⟨1, _⟩ => exact Fin.ext h1 | ⟨2, _⟩ => exact Fin.ext h2

-- One round at any width: source rows of `P` scaled, added up onto zeros at the landing nodes, plus the bias, clamped at zero.
theorem round_at {n : Nat} {dg : GatherDims ⟨2, ![nN, n]⟩ ⟨2, ![nE, 1]⟩ ⟨2, ![nE, n]⟩}
    {ds : ScatterDims ⟨2, ![nN, n]⟩ ⟨2, ![nE, 1]⟩ ⟨2, ![nE, n]⟩}
    (g1 : dg.offsetDims = [1]) (g2 : dg.collapsedSliceDims = [0]) (g3 : dg.operandBatchingDims = [])
    (g4 : dg.startIndexMap = [0]) (g5 : dg.indexVectorDim = 1)
    (s1 : ds.updateWindowDims = [1]) (s2 : ds.insertedWindowDims = [0]) (s3 : ds.scatterDimsToOperandDims = [0])
    (s4 : ds.indexVectorDim = 1)
    {src dst : IVec Se 32} {sc dc : IVec ⟨2, ![nE, 1]⟩ 32} {P : FVec Ideal ⟨2, ![nN, n]⟩ .f32}
    {Z : FVec Ideal ⟨2, ![nN, n]⟩ .f32} {cb : FVec Ideal ⟨2, ![nE, n]⟩ .f32}
    {c : Fin nE → EReal} (p : Fin nN → EReal) {b bv zv : EReal} {v : Fin nN} {k : Fin n}
    (hsc : ∀ e, sc (ix2 e 0) = wrapId (src (ix1 e))) (hdc : ∀ e, dc (ix2 e 0) = dst (ix1 e))
    (hcb : ∀ e, cb (ix2 e k) = c e) (hP : ∀ u, P (ix2 u k) = p u)
    (hZ : Z (ix2 v k) = 0) (hbv : bv = b) (hzv : zv = 0) :
    FloatOps.maximumf (FloatOps.addf (Host.scatterAdd (F := Ideal) ds Z dc (mulf cb (Host.gather dg P sc)) (ix2 v k)) bv) zv
      = relu ((∑ e ∈ landing dst v, c e * p (gRow src e)) + b) := by
  rw [scatterAdd_rows ds s1 s2 s3 s4, hZ, zero_add, hbv, hzv, Ideal.maximumf_def, Ideal.addf_def]
  refine congrArg (fun t => max (t + b) 0) (Finset.sum_congr (Finset.filter_congr fun e _ => by rw [hdc]) fun e _ => ?_)
  rw [mulf_apply, gather_rows (by decide) dg g1 g2 g3 g4 g5, hsc, hcb]
  exact congrArg _ (hP _)

section Shared

variable (x1 : (⟨S2x800000, .i32⟩ : BufTy).Contents (Elt Ideal)) (x3 : (⟨S800000, .f32⟩ : BufTy).Contents (Elt Ideal))

theorem src_col_at (e : Fin 900000) :
    val_main_v23 x1 (ix2 e (0 : Fin 1)) = wrapId (val_main_v3 x1 (ix1 e)) := by
  rw [val_main_v23_apply, show idx_main_v23 (ix2 e 0) = ix1 e from eq_ix1 _, val_main_v22_apply, val_main_v19_apply,
    val_main_v21_apply, val_main_v18_apply, val_main_c_apply, val_main_v20_apply, val_main_c_4_apply]
  exact wrap_word _

theorem dst_col_at (e : Fin 900000) :
    val_main_v31 x1 (ix2 e (0 : Fin 1)) = wrapId (val_main_v6 x1 (ix1 e)) := by
  rw [val_main_v31_apply, show idx_main_v31 (ix2 e 0) = ix1 e from eq_ix1 _, val_main_v30_apply, val_main_v27_apply,
    val_main_v29_apply, val_main_v26_apply, val_main_c_5_apply, val_main_v28_apply, val_main_c_6_apply]
  exact wrap_word _

theorem coef_at (e : Fin 900000) :
    val_main_v33 x1 x3 (ix1 e)
      = coef (val_main_v3 x1) (val_main_v6 x1) (val_main_v8 x3) (val_main_v17 x1 x3) e := by
  have hg := gather_vec (N := 100000) (by decide) gather_S100000_S900000x1_S900000_n_0_n_n_0_1_1 rfl rfl rfl rfl rfl
    (w := 32) (val_main_v17 x1 x3)
  rw [val_main_v33_apply, val_main_v25_apply, Ideal.mulf_def, Ideal.mulf_def]
  unfold val_main_v24 val_main_v32
  rw [hg, hg, src_col_at, dst_col_at]
  rfl

end Shared

section Gates

variable (x0 : (⟨S100000x64, .f32⟩ : BufTy).Contents (Elt Ideal))
  (x1 : (⟨S2x800000, .i32⟩ : BufTy).Contents (Elt Ideal)) (x3 : (⟨S800000, .f32⟩ : BufTy).Contents (Elt Ideal))
  (x5 : (⟨S3x64x128, .f32⟩ : BufTy).Contents (Elt Ideal)) (x6 : (⟨S3x128, .f32⟩ : BufTy).Contents (Elt Ideal))
  (x7 : (⟨S3x128x64, .f32⟩ : BufTy).Contents (Elt Ideal)) (x8 : (⟨S3x64, .f32⟩ : BufTy).Contents (Elt Ideal))

theorem g0_w1_at (i : Fin 64) (k : Fin 128) : val_main_v41 x5 (ix2 i k) = x5 (ix3 (0 : Fin 3) i k) := by
  rw [val_main_v41_apply, val_main_v40_apply]
  exact congrArg x5 (ix3_of _ _ i k rfl (by have := i.isLt; have := k.isLt; show (i.val * 128 + k.val) / 128 % 64 = _; omega) (by have := i.isLt; have := k.isLt; show (i.val * 128 + k.val) % 128 = _; omega))

theorem g0_xw1_at (u : Fin 100000) (k : Fin 128) : val_main_v44 x0 x5 (ix2 u k) = xw1R x0 x5 0 u k := by
  rw [val_main_v44_apply]
  refine Finset.sum_congr rfl fun i _ => ?_
  rw [show lidx_main_v44 (ix2 u k) i = ix2 u i from eq_ix2 _, show ridx_main_v44 (ix2 u k) i = ix2 i k from eq_ix2 _, g0_w1_at]

theorem g0_h1_at (v : Fin 100000) (k : Fin 128) :
    val_main_v61 x0 x1 x3 x5 x6 (ix2 v k) = h1R x0 (val_main_v3 x1) (val_main_v6 x1) (val_main_v8 x3) (val_main_v17 x1 x3) x5 x6 0 v k := by
  rw [val_main_v61_apply, val_main_v60_apply]
  unfold val_main_v57 val_main_v54 val_main_v52 h1R
  exact round_at rfl rfl rfl rfl rfl rfl rfl rfl rfl (fun u => xw1R x0 x5 0 u k)
    (fun e => by
      rw [val_main_v51_apply, show idx_main_v51 (ix2 e 0) = ix1 e from eq_ix1 _, val_main_v50_apply, val_main_v47_apply, val_main_v49_apply,
        val_main_v46_apply, val_main_c_10_apply, val_main_v48_apply, val_main_c_11_apply]
      exact wrap_word _)
    (fun e => by rw [val_main_v56_apply, show idx_main_v56 (ix2 e 0) = ix1 e from eq_ix1 _])
    (fun e => by rw [val_main_v53_apply, val_main_v45_apply, show idx_main_v45 (idx_main_v53 (ix2 e k)) = ix1 e from eq_ix1 _, coef_at])
    (fun u => g0_xw1_at x0 x5 u k)
    (by rw [val_main_v55_apply, val_main_cst_12_apply]; exact Ideal.ofBits_zero_f32)
    (by
      rw [val_main_v59_apply, val_main_v58_apply, val_main_v43_apply, val_main_v42_apply]
      exact congrArg x6 (ix2_of _ _ k rfl (by have := k.isLt; show k.val % 128 = _; omega)))
    (by rw [val_main_call1_v0_apply, val_main_call1_cst_apply]; exact Ideal.ofBits_zero_f32)

theorem g0_w2_at (k : Fin 128) (j : Fin 64) : val_main_v63 x7 (ix2 k j) = x7 (ix3 (0 : Fin 3) k j) := by
  rw [val_main_v63_apply, val_main_v62_apply]
  exact congrArg x7 (ix3_of _ _ k j rfl (by have := k.isLt; have := j.isLt; show (k.val * 64 + j.val) / 64 % 128 = _; omega) (by have := k.isLt; have := j.isLt; show (k.val * 64 + j.val) % 64 = _; omega))

theorem g0_xw2_at (u : Fin 100000) (j : Fin 64) :
    val_main_v66 x0 x1 x3 x5 x6 x7 (ix2 u j) = xw2R x0 (val_main_v3 x1) (val_main_v6 x1) (val_main_v8 x3) (val_main_v17 x1 x3) x5 x6 x7 0 u j := by
  rw [val_main_v66_apply]
  refine Finset.sum_congr rfl fun k _ => ?_
  rw [show lidx_main_v66 (ix2 u j) k = ix2 u k from eq_ix2 _, show ridx_main_v66 (ix2 u j) k = ix2 k j from eq_ix2 _, g0_h1_at, g0_w2_at]

theorem gate0_h2_at (v : Fin 100000) (j : Fin 64) :
    val_main_v83 x0 x1 x3 x5 x6 x7 x8 (ix2 v j) = h2R x0 (val_main_v3 x1) (val_main_v6 x1) (val_main_v8 x3) (val_main_v17 x1 x3) x5 x6 x7 x8 0 v j := by
  rw [val_main_v83_apply, val_main_v82_apply]
  unfold val_main_v79 val_main_v76 val_main_v74 h2R
  exact round_at rfl rfl rfl rfl rfl rfl rfl rfl rfl (fun u => xw2R x0 (val_main_v3 x1) (val_main_v6 x1) (val_main_v8 x3) (val_main_v17 x1 x3) x5 x6 x7 0 u j)
    (fun e => by
      rw [val_main_v73_apply, show idx_main_v73 (ix2 e 0) = ix1 e from eq_ix1 _, val_main_v72_apply, val_main_v69_apply, val_main_v71_apply,
        val_main_v68_apply, val_main_c_13_apply, val_main_v70_apply, val_main_c_14_apply]
      exact wrap_word _)
    (fun e => by rw [val_main_v78_apply, show idx_main_v78 (ix2 e 0) = ix1 e from eq_ix1 _])
    (fun e => by rw [val_main_v75_apply, val_main_v67_apply, show idx_main_v67 (idx_main_v75 (ix2 e j)) = ix1 e from eq_ix1 _, coef_at])
    (fun u => g0_xw2_at x0 x1 x3 x5 x6 x7 u j)
    (by rw [val_main_v77_apply, val_main_cst_15_apply]; exact Ideal.ofBits_zero_f32)
    (by
      rw [val_main_v81_apply, val_main_v80_apply, val_main_v65_apply, val_main_v64_apply]
      exact congrArg x8 (ix2_of _ _ j rfl (by have := j.isLt; show j.val % 64 = _; omega)))
    (by rw [val_main_call2_v0_apply, val_main_call2_cst_apply]; exact Ideal.ofBits_zero_f32)

theorem g2_w1_at (i : Fin 64) (k : Fin 128) : val_main_v171 x5 (ix2 i k) = x5 (ix3 (2 : Fin 3) i k) := by
  rw [val_main_v171_apply, val_main_v170_apply]
  exact congrArg x5 (ix3_of _ _ i k rfl (by have := i.isLt; have := k.isLt; show (i.val * 128 + k.val) / 128 % 64 = _; omega) (by have := i.isLt; have := k.isLt; show (i.val * 128 + k.val) % 128 = _; omega))

theorem g2_xw1_at (u : Fin 100000) (k : Fin 128) : val_main_v174 x0 x5 (ix2 u k) = xw1R x0 x5 2 u k := by
  rw [val_main_v174_apply]
  refine Finset.sum_congr rfl fun i _ => ?_
  rw [show lidx_main_v174 (ix2 u k) i = ix2 u i from eq_ix2 _, show ridx_main_v174 (ix2 u k) i = ix2 i k from eq_ix2 _, g2_w1_at]

theorem g2_h1_at (v : Fin 100000) (k : Fin 128) :
    val_main_v191 x0 x1 x3 x5 x6 (ix2 v k) = h1R x0 (val_main_v3 x1) (val_main_v6 x1) (val_main_v8 x3) (val_main_v17 x1 x3) x5 x6 2 v k := by
  rw [val_main_v191_apply, val_main_v190_apply]
  unfold val_main_v187 val_main_v184 val_main_v182 h1R
  exact round_at rfl rfl rfl rfl rfl rfl rfl rfl rfl (fun u => xw1R x0 x5 2 u k)
    (fun e => by
      rw [val_main_v181_apply, show idx_main_v181 (ix2 e 0) = ix1 e from eq_ix1 _, val_main_v180_apply, val_main_v177_apply, val_main_v179_apply,
        val_main_v176_apply, val_main_c_28_apply, val_main_v178_apply, val_main_c_29_apply]
      exact wrap_word _)
    (fun e => by rw [val_main_v186_apply, show idx_main_v186 (ix2 e 0) = ix1 e from eq_ix1 _])
    (fun e => by rw [val_main_v183_apply, val_main_v175_apply, show idx_main_v175 (idx_main_v183 (ix2 e k)) = ix1 e from eq_ix1 _, coef_at])
    (fun u => g2_xw1_at x0 x5 u k)
    (by rw [val_main_v185_apply, val_main_cst_30_apply]; exact Ideal.ofBits_zero_f32)
    (by
      rw [val_main_v189_apply, val_main_v188_apply, val_main_v173_apply, val_main_v172_apply]
      exact congrArg x6 (ix2_of _ _ k rfl (by have := k.isLt; show k.val % 128 = _; omega)))
    (by rw [val_main_call5_v0_apply, val_main_call5_cst_apply]; exact Ideal.ofBits_zero_f32)

theorem g2_w2_at (k : Fin 128) (j : Fin 64) : val_main_v193 x7 (ix2 k j) = x7 (ix3 (2 : Fin 3) k j) := by
  rw [val_main_v193_apply, val_main_v192_apply]
  exact congrArg x7 (ix3_of _ _ k j rfl (by have := k.isLt; have := j.isLt; show (k.val * 64 + j.val) / 64 % 128 = _; omega) (by have := k.isLt; have := j.isLt; show (k.val * 64 + j.val) % 64 = _; omega))

theorem g2_xw2_at (u : Fin 100000) (j : Fin 64) :
    val_main_v196 x0 x1 x3 x5 x6 x7 (ix2 u j) = xw2R x0 (val_main_v3 x1) (val_main_v6 x1) (val_main_v8 x3) (val_main_v17 x1 x3) x5 x6 x7 2 u j := by
  rw [val_main_v196_apply]
  refine Finset.sum_congr rfl fun k _ => ?_
  rw [show lidx_main_v196 (ix2 u j) k = ix2 u k from eq_ix2 _, show ridx_main_v196 (ix2 u j) k = ix2 k j from eq_ix2 _, g2_h1_at, g2_w2_at]

theorem gate2_h2_at (v : Fin 100000) (j : Fin 64) :
    val_main_v213 x0 x1 x3 x5 x6 x7 x8 (ix2 v j) = h2R x0 (val_main_v3 x1) (val_main_v6 x1) (val_main_v8 x3) (val_main_v17 x1 x3) x5 x6 x7 x8 2 v j := by
  rw [val_main_v213_apply, val_main_v212_apply]
  unfold val_main_v209 val_main_v206 val_main_v204 h2R
  exact round_at rfl rfl rfl rfl rfl rfl rfl rfl rfl (fun u => xw2R x0 (val_main_v3 x1) (val_main_v6 x1) (val_main_v8 x3) (val_main_v17 x1 x3) x5 x6 x7 2 u j)
    (fun e => by
      rw [val_main_v203_apply, show idx_main_v203 (ix2 e 0) = ix1 e from eq_ix1 _, val_main_v202_apply, val_main_v199_apply, val_main_v201_apply,
        val_main_v198_apply, val_main_c_31_apply, val_main_v200_apply, val_main_c_32_apply]
      exact wrap_word _)
    (fun e => by rw [val_main_v208_apply, show idx_main_v208 (ix2 e 0) = ix1 e from eq_ix1 _])
    (fun e => by rw [val_main_v205_apply, val_main_v197_apply, show idx_main_v197 (idx_main_v205 (ix2 e j)) = ix1 e from eq_ix1 _, coef_at])
    (fun u => g2_xw2_at x0 x1 x3 x5 x6 x7 u j)
    (by rw [val_main_v207_apply, val_main_cst_33_apply]; exact Ideal.ofBits_zero_f32)
    (by
      rw [val_main_v211_apply, val_main_v210_apply, val_main_v195_apply, val_main_v194_apply]
      exact congrArg x8 (ix2_of _ _ j rfl (by have := j.isLt; show j.val % 64 = _; omega)))
    (by rw [val_main_call6_v0_apply, val_main_call6_cst_apply]; exact Ideal.ofBits_zero_f32)

end Gates

end Cert.ReferenceIdeal.RefValue

end
-- ==== Proof.RefLayersG2.lean ====
import proofs.«415816_j88759794139277_3_alg».proof.Proof.RefLayers
-- ==== Proof.RefTail.lean ====
import proofs.«415816_j88759794139277_3_alg».proof.Proof.Gen.ReferenceIdeal.Read
import Idealize.ShloMosaic.Lib.Pipeline.Value
import Idealize.ShloMosaic.PureOps.Ideal.Laws
import proofs.«415816_j88759794139277_3_alg».proof.Proof.Gen.ReferenceIdeal
import proofs.«415816_j88759794139277_3_alg».proof.Proof.Spec
import proofs.«415816_j88759794139277_3_alg».proof.Proof.IdxOps

noncomputable section

namespace Cert.ReferenceIdeal.RefValue

open Cert.ReferenceIdeal Cert.ReferenceIdeal.Gen Idealize.ShloMosaic Idealize.ShloMosaic.ValueIdx IndexOpsLib
open GcnSpec (outSpec gatePre poolR cntR members sRow? one)

theorem pool_at (z : S64x64.Idx → EReal) (hz : ∀ i, z i = 0) (ids : IVec S100000x1 32) (x2 : IVec S100000 32)
    (hids : ∀ e : Fin 100000, ids (ix2 e (0 : Fin 1)) = x2 (ix1 e)) (h : S100000x64.Idx → EReal) (b j : Fin 64) :
    Host.scatterAdd (F := Ideal) (φ := .f32) scatter_S64x64_S100000x1_S100000x64_1_0_0_1 z ids h (ix2 b j)
      = poolR x2 (fun v => h (ix2 v j)) b := by
  rw [scatterAdd_rows (N := 64) (C := 64) (E := 100000) scatter_S64x64_S100000x1_S100000x64_1_0_0_1 rfl rfl rfl rfl,
    hz, zero_add]
  unfold poolR members
  simp only [hids]

theorem concat_at (y x4 : S64x64.Idx → EReal) (hc : Shape.Concatenates [S64x64, S64x64] S64x128 1) (b : Fin 64) (k : Fin 128) :
    concatenate S64x128 1 [⟨S64x64, y⟩, ⟨S64x64, x4⟩] hc (ix2 b k)
      = if h : k.val < 64 then y (ix2 b ⟨k.val, h⟩) else x4 (ix2 b ⟨k.val - 64, by omega⟩) := by
  by_cases h : k.val < 64
  · rw [dif_pos h]
    exact concatenate_pair_apply_left 1 y x4 hc (ix2 b k) rfl (ix2 b ⟨k.val, h⟩)
      (fun a => match a with
        | ⟨0, _⟩ => rfl
        | ⟨1, _⟩ => rfl)
  · rw [dif_neg h]
    exact concatenate_pair_apply_right 1 y x4 hc (ix2 b k) rfl rfl (ix2 b ⟨k.val - 64, by omega⟩)
      (fun a ha => match a, ha with
        | ⟨0, _⟩, _ => rfl
        | ⟨1, _⟩, ha => absurd rfl ha)
      (by show (k.val - 64) + 64 = k.val; omega)

end Cert.ReferenceIdeal.RefValue

namespace Cert.ReferenceIdeal.RefValue

open Cert.ReferenceIdeal.Read
open Cert.ReferenceIdeal Cert.ReferenceIdeal.Gen Idealize.ShloMosaic Idealize.ShloMosaic.ValueIdx IndexOpsLib
open GcnSpec (outSpec gatePre poolR cntR members sRow? one)

variable (x0 : (⟨S100000x64, .f32⟩ : BufTy).Contents (Elt Ideal)) (x1 : (⟨S2x800000, .i32⟩ : BufTy).Contents (Elt Ideal)) (x2 : (⟨S100000, .i32⟩ : BufTy).Contents (Elt Ideal))
  (x3 : (⟨S800000, .f32⟩ : BufTy).Contents (Elt Ideal)) (x4 : (⟨S64x64, .f32⟩ : BufTy).Contents (Elt Ideal)) (x5 : (⟨S3x64x128, .f32⟩ : BufTy).Contents (Elt Ideal))
  (x6 : (⟨S3x128, .f32⟩ : BufTy).Contents (Elt Ideal)) (x7 : (⟨S3x128x64, .f32⟩ : BufTy).Contents (Elt Ideal)) (x8 : (⟨S3x64, .f32⟩ : BufTy).Contents (Elt Ideal))
  (x9 : (⟨S3x128x64, .f32⟩ : BufTy).Contents (Elt Ideal)) (x10 : (⟨S3x64, .f32⟩ : BufTy).Contents (Elt Ideal))

theorem one_eq : FloatOps.ofBits (F := Ideal) .f32 0x3F800000#32 = one := rfl

theorem v39_at (b : Fin 64) : val_main_v39 (F := Ideal) x2 (ix1 b) = max (cntR x2 b) one := by
  rw [val_main_v39_apply, val_main_v38_apply, val_main_cst_9_apply]
  unfold val_main_v37
  rw [scatterAdd_vec (N := 64) (E := 100000) scatter_S64_S100000x1_S100000_n_0_0_1 rfl rfl rfl rfl, val_main_v35_apply,
    val_main_cst_8_apply, Ideal.ofBits_def, Ideal.ofBits_zero_f32, zero_add]
  unfold cntR members
  simp only [val_main_v36_apply, val_main_v34_apply, val_main_cst_7_apply,
    show ∀ e : Fin 100000, idx_main_v36 (ix2 e 0) = ix1 e from fun e => eq_ix1 _]
  rfl

-- One gate's pre-activation: the per-graph means `Y` joined with H, times the gate's slab, plus its bias.
theorem gatePre_at (R : S100000x64.Idx → EReal) {Y : S64x64.Idx → EReal} {Wv : S128x64.Idx → EReal} {bv : EReal}
    (g : Fin 3) {b j : Fin 64}
    (hY : ∀ k : Fin 64, Y (ix2 b k) = Ideal.div (poolR x2 (fun v => R (ix2 v k)) b) (max (cntR x2 b) one))
    (hW : ∀ k, Wv (ix2 k j) = x9 (ix3 g k j)) (hb : bv = x10 (ix2 g j)) :
    (∑ k : Fin 128, concatenate S64x128 1 [⟨S64x64, Y⟩, ⟨S64x64, x4⟩] concatenates_S64x64_S64x64_S64x128_d1 (ix2 b k)
        * Wv (ix2 k j)) + bv
      = gatePre (fun b j => poolR x2 (fun v => R (ix2 v j)) b) (cntR x2) x4 x9 x10 g b j := by
  unfold gatePre
  rw [hb]
  refine congrArg (fun t => t + x10 (ix2 g j)) (Finset.sum_congr rfl fun k _ => ?_)
  rw [concat_at, hW]
  by_cases h : k.val < 64
  · rw [dif_pos h, dif_pos h, hY]
  · rw [dif_neg h, dif_neg h]

theorem v98_at (b j : Fin 64) :
    val_main_v98 (F := Ideal) x0 x1 x2 x3 x4 x5 x6 x7 x8 x9 x10 (ix2 b j)
      = gatePre (fun b j => poolR x2 (fun v => val_main_v83 (F := Ideal) x0 x1 x3 x5 x6 x7 x8 (ix2 v j)) b) (cntR x2) x4 x9 x10 0 b j := by
  have hj := j.isLt
  rw [val_main_v98_apply, val_main_v93_apply, Ideal.addf_def]
  simp only [show ∀ k, lidx_main_v93 (ix2 b j) k = ix2 b k from fun k => eq_ix2 _,
    show ∀ k, ridx_main_v93 (ix2 b j) k = ix2 k j from fun k => eq_ix2 _]
  unfold val_main_v90
  exact gatePre_at x2 x4 x9 x10 (val_main_v83 (F := Ideal) x0 x1 x3 x5 x6 x7 x8) 0
    (fun k => by
      rw [val_main_v89_apply, val_main_v88_apply, val_main_v87_apply, show idx_main_v87 (idx_main_v88 (ix2 b k)) = ix1 b from eq_ix1 _, v39_at]
      unfold val_main_v86
      rw [pool_at _ (fun i => by rw [val_main_v84_apply, val_main_cst_16_apply]; exact Ideal.ofBits_zero_f32) _ x2
        (fun e => by rw [val_main_v85_apply]; exact congrArg x2 (eq_ix1 _))]
      rfl)
    (fun k => by
      have hk := k.isLt
      rw [val_main_v92_apply, val_main_v91_apply]
      exact congrArg x9 (funext fun a => match a with
        | ⟨0, _⟩ => rfl
        | ⟨1, _⟩ => Fin.ext (by show (k.val * 64 + j.val) / 64 % 128 = k.val; omega)
        | ⟨2, _⟩ => Fin.ext (by show (k.val * 64 + j.val) % 64 = j.val; omega)))
    (by
      rw [val_main_v97_apply, val_main_v96_apply, val_main_v95_apply, val_main_v94_apply]
      exact congrArg x10 (funext fun a => match a with
        | ⟨0, _⟩ => rfl
        | ⟨1, _⟩ => Fin.ext (by show j.val % 64 = j.val; omega)))

theorem v228_at (b j : Fin 64) :
    val_main_v228 (F := Ideal) x0 x1 x2 x3 x4 x5 x6 x7 x8 x9 x10 (ix2 b j)
      = gatePre (fun b j => poolR x2 (fun v => val_main_v213 (F := Ideal) x0 x1 x3 x5 x6 x7 x8 (ix2 v j)) b) (cntR x2) x4 x9 x10 2 b j := by
  have hj := j.isLt
  rw [val_main_v228_apply, val_main_v223_apply, Ideal.addf_def]
  simp only [show ∀ k, lidx_main_v223 (ix2 b j) k = ix2 b k from fun k => eq_ix2 _,
    show ∀ k, ridx_main_v223 (ix2 b j) k = ix2 k j from fun k => eq_ix2 _]
  unfold val_main_v220
  exact gatePre_at x2 x4 x9 x10 (val_main_v213 (F := Ideal) x0 x1 x3 x5 x6 x7 x8) 2
    (fun k => by
      rw [val_main_v219_apply, val_main_v218_apply, val_main_v217_apply, show idx_main_v217 (idx_main_v218 (ix2 b k)) = ix1 b from eq_ix1 _, v39_at]
      unfold val_main_v216
      rw [pool_at _ (fun i => by rw [val_main_v214_apply, val_main_cst_34_apply]; exact Ideal.ofBits_zero_f32) _ x2
        (fun e => by rw [val_main_v215_apply]; exact congrArg x2 (eq_ix1 _))]
      rfl)
    (fun k => by
      have hk := k.isLt
      rw [val_main_v222_apply, val_main_v221_apply]
      exact congrArg x9 (funext fun a => match a with
        | ⟨0, _⟩ => rfl
        | ⟨1, _⟩ => Fin.ext (by show (k.val * 64 + j.val) / 64 % 128 = k.val; omega)
        | ⟨2, _⟩ => Fin.ext (by show (k.val * 64 + j.val) % 64 = j.val; omega)))
    (by
      rw [val_main_v227_apply, val_main_v226_apply, val_main_v225_apply, val_main_v224_apply]
      exact congrArg x10 (funext fun a => match a with
        | ⟨0, _⟩ => rfl
        | ⟨1, _⟩ => Fin.ext (by show j.val % 64 = j.val; omega)))

-- The update gate is the logistic of gate 0's pre-activation, the candidate the hyperbolic tangent of gate 2's.
theorem v234_at (b j : Fin 64) :
    val_main_v234 (F := Ideal) x0 x1 x2 x3 x4 x5 x6 x7 x8 x9 x10 (ix2 b j)
      = outSpec (fun b j => poolR x2 (fun v => val_main_v83 (F := Ideal) x0 x1 x3 x5 x6 x7 x8 (ix2 v j)) b)
          (fun b j => poolR x2 (fun v => val_main_v213 (F := Ideal) x0 x1 x3 x5 x6 x7 x8 (ix2 v j)) b)
          (cntR x2) x4 x9 x10 b j := by
  rw [val_main_v234_apply, val_main_v230_apply, val_main_v233_apply, val_main_v232_apply, val_main_v229_apply,
    val_main_v231_apply, val_main_cst_35_apply, val_main_v104_apply, val_main_v103_apply, val_main_cst_18_apply,
    val_main_v102_apply, val_main_v101_apply, val_main_cst_17_apply, val_main_v100_apply, val_main_v99_apply, v98_at, v228_at]
  simp only [outSpec, one_eq, Ideal.hostDivf_def, Ideal.addf_def, Ideal.hostUnary_exp_def, Ideal.hostNegf_def,
    Ideal.negf_def, Ideal.mulf_def, Ideal.subf_def, Ideal.hostUnary_tanh_def]

end Cert.ReferenceIdeal.RefValue

end
-- ==== Proof.Finite.lean ====
import Idealize.ShloMosaic.Lib.ReduceAll
import Idealize.ShloMosaic.Lib.ValueIdx
import Idealize.ShloMosaic.Lib.IdealHost
import Idealize.ShloMosaic.PureOps.Ideal
import Idealize.ShloMosaic.PureOps.Contract
import proofs.«415816_j88759794139277_3_alg».proof.Pre_finite_inputs
import proofs.«415816_j88759794139277_3_alg».proof.KernelIdeal

noncomputable section

namespace Cert.KernelIdeal.Finite

open Idealize.ShloMosaic Idealize.ShloMosaic.ValueIdx

instance : Subsingleton Cert.Pre_finite_inputs.S_.Idx := ⟨fun a b => funext fun d => d.elim0⟩

-- |x| < ⊤ rules out both x = ⊤ and x = ⊥.
theorem real_of_abs_lt_inf (x : EReal)
    (h : Ideal.cmp .olt (max x (-x)) (Ideal.ofBits .f32 0x7F800000#32) = 1#1) : ∃ r : ℝ, x = (r : EReal) := by
  rw [show Ideal.ofBits .f32 0x7F800000#32 = (⊤ : EReal) by simp [Ideal.ofBits, Ideal.ieee]] at h
  induction x using EReal.rec with
  | bot => simp [Ideal.cmp] at h
  | coe r => exact ⟨r, rfl⟩
  | top => simp [Ideal.cmp] at h

theorem reals_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (h : Host.reduce IntOp.andi
        (cmpf .olt (Host.absf x) (broadcastInDim s ![] hb (constant (F := Ideal) Cert.Pre_finite_inputs.S_ .f32 0x7F800000#32)))
        (constantI Cert.Pre_finite_inputs.S_ 1 1#1) hr hu ix0 = 1#1) :
    ∀ i, ∃ r : ℝ, x i = (r : EReal) := by
  intro i
  have e := Host.reduce_andi_all _ _ hr hu ix0 h i
  exact real_of_abs_lt_inf (x i) e

theorem reals_of_pre [Cert.Pre_finite_inputs.Facts] (x0 : FVec Ideal Cert.Pre_finite_inputs.S100000x64 .f32) (x1 : IVec Cert.Pre_finite_inputs.S2x800000 32)
    (x2 : IVec Cert.Pre_finite_inputs.S100000 32) (x3 : FVec Ideal Cert.Pre_finite_inputs.S800000 .f32)
    (x4 : FVec Ideal Cert.Pre_finite_inputs.S64x64 .f32) (x5 : FVec Ideal Cert.Pre_finite_inputs.S3x64x128 .f32)
    (x6 : FVec Ideal Cert.Pre_finite_inputs.S3x128 .f32) (x7 : FVec Ideal Cert.Pre_finite_inputs.S3x128x64 .f32)
    (x8 : FVec Ideal Cert.Pre_finite_inputs.S3x64 .f32) (x9 : FVec Ideal Cert.Pre_finite_inputs.S3x128x64 .f32)
    (x10 : FVec Ideal Cert.Pre_finite_inputs.S3x64 .f32)
    (h : Cert.Pre_finite_inputs.fn (F := Ideal) x0 x1 x2 x3 x4 x5 x6 x7 x8 x9 x10 = fun _ => 1#1) :
    (∀ i, ∃ r : ℝ, x0 i = (r : EReal)) ∧ (∀ i, ∃ r : ℝ, x3 i = (r : EReal)) ∧ (∀ i, ∃ r : ℝ, x4 i = (r : EReal))
    ∧ (∀ i, ∃ r : ℝ, x5 i = (r : EReal)) ∧ (∀ i, ∃ r : ℝ, x6 i = (r : EReal)) ∧ (∀ i, ∃ r : ℝ, x7 i = (r : EReal))
    ∧ (∀ i, ∃ r : ℝ, x8 i = (r : EReal)) ∧ (∀ i, ∃ r : ℝ, x9 i = (r : EReal)) ∧ (∀ i, ∃ r : ℝ, x10 i = (r : EReal)) := by
  have h0 := congrFun h ix0
  dsimp only [Cert.Pre_finite_inputs.fn, Cert.Pre_finite_inputs.fn_part1, Cert.Pre_finite_inputs.fn_part2, andi] at h0
  simp only [IntOp.andi_eq_one] at h0
  obtain ⟨⟨⟨⟨⟨⟨⟨⟨a0, a3⟩, a4⟩, a5⟩, a6⟩, a7⟩, a8⟩, a9⟩, a10⟩ := h0
  exact ⟨reals_of_all x0 _ _ _ a0, reals_of_all x3 _ _ _ a3, reals_of_all x4 _ _ _ a4, reals_of_all x5 _ _ _ a5,
    reals_of_all x6 _ _ _ a6, reals_of_all x7 _ _ _ a7, reals_of_all x8 _ _ _ a8, reals_of_all x9 _ _ _ a9,
    reals_of_all x10 _ _ _ a10⟩

theorem real_sum {ι : Type} (S : Finset ι) (f : ι → EReal) (hf : ∀ i ∈ S, ∃ r : ℝ, f i = (r : EReal)) :
    ∃ r : ℝ, ∑ i ∈ S, f i = (r : EReal) := by
  classical
  induction S using Finset.induction_on with
  | empty => exact ⟨0, by simp⟩
  | insert a S ha ih =>
    obtain ⟨ra, hra⟩ := hf a (Finset.mem_insert_self a S)
    obtain ⟨rs, hrs⟩ := ih (fun i hi => hf i (Finset.mem_insert_of_mem hi))
    exact ⟨ra + rs, by rw [Finset.sum_insert ha, hra, hrs, EReal.coe_add]⟩

theorem concatenate_mem {α : Type} (P : α → Prop) (t : Shape) (a : Fin t.rank) (xs : List ((s : Shape) × (s.Idx → α)))
    (h : Shape.Concatenates (xs.map (·.1)) t a) (hall : ∀ p ∈ xs, ∀ i, P (p.2 i)) (j : t.Idx) :
    P (concatenate t a xs h j) := by
  unfold concatenate
  exact hall _ (List.getElem_mem _) _

theorem real_add_sum {ι : Type} (a : EReal) (ha : ∃ r : ℝ, a = (r : EReal)) (S : Finset ι) (f : ι → EReal)
    (hf : ∀ i, ∃ r : ℝ, f i = (r : EReal)) : ∃ r : ℝ, a + ∑ i ∈ S, f i = (r : EReal) := by
  obtain ⟨ra, hra⟩ := ha
  obtain ⟨rs, hrs⟩ := real_sum S f (fun i _ => hf i)
  exact ⟨ra + rs, by rw [hra, hrs, EReal.coe_add]⟩

theorem reals_scatterAdd {s si su : Shape} {w : Nat} (d : ScatterDims s si su) (x : FVec Ideal s .f32) (idx : IVec si w)
    (upd : FVec Ideal su .f32) (hx : ∀ i, ∃ r : ℝ, x i = (r : EReal)) (hu : ∀ j, ∃ r : ℝ, upd j = (r : EReal)) (i : s.Idx) :
    ∃ r : ℝ, Host.scatterAdd d x idx upd i = (r : EReal) :=
  real_add_sum (x i) (hx i) _ upd hu

theorem ofBits_tiny : ∃ r : ℝ, 0 < r ∧ Ideal.ofBits .f32 0x0DA24260#32 = (r : EReal) := by
  refine ⟨_, ?_, by simp [Ideal.ofBits, Ideal.ieee]; rfl⟩
  positivity

theorem real_rsqrt_pos (p : ℝ) (hp : 0 < p) : ∃ r : ℝ, Ideal.rsqrt (p : EReal) = (r : EReal) := by
  rw [Ideal.rsqrt_coe, if_neg (not_lt.2 hp.le), if_neg hp.ne']
  exact ⟨_, rfl⟩

-- max d ε with ε > 0 is a positive real, so its inverse square root is a real; the other branch is the literal 0.
theorem real_dinv_elt (d : EReal) (hd : ∃ r : ℝ, d = (r : EReal)) (c : BitVec 1) :
    ∃ r : ℝ, Scalar.select c (Ideal.rsqrt (max d (Ideal.ofBits .f32 0x0DA24260#32))) (Ideal.ofBits .f32 0x00000000#32) = (r : EReal) := by
  obtain ⟨rd, rfl⟩ := hd
  obtain ⟨e, he, hE⟩ := ofBits_tiny
  unfold Scalar.select
  split
  · rw [hE, ← EReal.coe_strictMono.monotone.map_max]
    exact real_rsqrt_pos _ (lt_max_of_lt_right he)
  · exact ⟨0, Ideal.ofBits_zero_f32⟩

theorem bcast_constant_apply {S0 t : Shape} (dims : Fin S0.rank → Fin t.rank) (hb : S0.BroadcastsInDim t dims) (w : BitVec 32) (i : t.Idx) :
    broadcastInDim t dims hb (constant (F := Ideal) S0 .f32 w) i = Ideal.ofBits .f32 w := rfl

theorem hostRsqrt_apply {s : Shape} (x : FVec Ideal s .f32) (i : s.Idx) : Host.rsqrt x i = Ideal.rsqrt (x i) := rfl

section Prefix

open Cert.KernelIdeal Cert.KernelIdeal.Facts₀

variable [Cert.KernelIdeal.Facts₀]

theorem reals_ew (x3 : FVec Ideal S800000 .f32) (h3 : ∀ i, ∃ r : ℝ, x3 i = (r : EReal)) (i : S900000.Idx) :
    ∃ r : ℝ, (concatenate S900000 0 [⟨S800000, x3⟩,
        ⟨S100000, broadcastInDim S100000 ![] bcast_S_S100000 (constant (F := Ideal) S_ .f32 0x3F800000#32)⟩]
        concatenates_S800000_S100000_S900000_d0 : FVec Ideal S900000 .f32) i = (r : EReal) := by
  refine concatenate_mem (fun y : EReal => ∃ r : ℝ, y = (r : EReal)) _ _ _ _ ?_ i
  intro p hp
  simp only [List.mem_cons, List.not_mem_nil, or_false] at hp
  rcases hp with rfl | rfl
  · exact h3
  · exact fun _ => ⟨1, Ideal.ofBits_one_f32⟩

abbrev deg (idx : IVec S900000x1 32) (ew : FVec Ideal S900000 .f32) : FVec Ideal S100000 .f32 :=
  Host.scatterAdd scatter_S100000_S900000x1_S900000_n_0_0_1
    (broadcastInDim S100000 ![] bcast_S_S100000 (constant (F := Ideal) S_ .f32 0x00000000#32)) idx ew

theorem reals_deg (idx : IVec S900000x1 32) (ew : FVec Ideal S900000 .f32) (hew : ∀ i, ∃ r : ℝ, ew i = (r : EReal))
    (i : S100000.Idx) : ∃ r : ℝ, deg idx ew i = (r : EReal) :=
  reals_scatterAdd _ _ idx ew (fun _ => ⟨0, Ideal.ofBits_zero_f32⟩) hew i

theorem reals_dinv (idx : IVec S900000x1 32) (ew : FVec Ideal S900000 .f32) (hew : ∀ i, ∃ r : ℝ, ew i = (r : EReal))
    (i : S100000.Idx) :
    ∃ r : ℝ, (select
        (cmpf .ogt (deg idx ew) (broadcastInDim S100000 ![] bcast_S_S100000 (constant (F := Ideal) S_ .f32 0x00000000#32)))
        (Host.rsqrt (maximumf (deg idx ew)
          (broadcastInDim S100000 ![] bcast_S_S100000 (constant (F := Ideal) S_ .f32 0x0DA24260#32))))
        (broadcastInDim S100000 ![] bcast_S_S100000 (constant (F := Ideal) S_ .f32 0x00000000#32)) :
          FVec Ideal S100000 .f32) i = (r : EReal) := by
  rw [select_apply, hostRsqrt_apply, maximumf_apply, bcast_constant_apply, bcast_constant_apply]
  exact real_dinv_elt (deg idx ew i) (reals_deg idx ew hew i) _

end Prefix

end Cert.KernelIdeal.Finite

end
-- ==== Proof.FiniteK.lean ====
import proofs.«415816_j88759794139277_3_alg».proof.Proof.Finite
import proofs.«415816_j88759794139277_3_alg».proof.Proof.KHostA

namespace Cert.KernelIdeal.Finite

open Idealize.ShloMosaic Idealize.ShloMosaic.ValueIdx Cert.KernelIdeal.KHost

theorem reals_kDinv (x1 : IVec S2x800000 32) (x3 : FVec Ideal S800000 .f32) (h3 : ∀ i, ∃ r : ℝ, x3 i = (r : EReal)) :
    ∀ i, ∃ r : ℝ, kDinv x1 x3 i = (r : EReal) := by
  intro i
  unfold kDinv dinvOf degOf
  exact reals_dinv _ (kEw x3) (reals_ew x3 h3) i

end Cert.KernelIdeal.Finite
-- ==== Proof.Math.lean ====
import proofs.«415816_j88759794139277_3_alg».proof.Proof.IdxOps
import Idealize.ShloMosaic.Lib.IdealHost
import Mathlib.Data.EReal.Basic
import Mathlib.Order.MinMax
import Mathlib.Algebra.BigOperators.Group.Finset.Basic
import Mathlib.Algebra.BigOperators.Group.Finset.Sigma
import Mathlib.Algebra.BigOperators.Ring.Finset
import Mathlib.Tactic.Ring
import Mathlib.Tactic.NormNum

noncomputable section

namespace GcnSpec

open Idealize.ShloMosaic Idealize.ShloMosaic.ValueIdx IndexOpsLib

theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem relu_coe (r : ℝ) : relu (r : EReal) = ((max r 0 : ℝ) : EReal) := by
  unfold relu
  rw [EReal.coe_strictMono.monotone.map_max, EReal.coe_zero]

theorem one_eq : one = 1 := Ideal.ofBits_one_f32

-- The destination id of an edge landing at `v` is `v` as a signed word, so wrapping and clamping leave it alone.
theorem gRow_dst_of_landing (dst : IVec Se 32) (e : Fin nE) (v : Fin nN) (h : e ∈ landing dst v) : gRow dst e = v := by
  have hv := (sRow?_eq_some_iff _ v).1 (Finset.mem_filter.1 h).2
  have := v.isLt
  unfold gRow wrapId
  rw [if_neg (by omega)]
  apply Fin.ext
  show min (dst (ix1 e)).toInt.toNat (nN - 1) = v.val
  simp only [nN] at this ⊢
  omega

-- The two finite sums commute and the factors that do not depend on the edge come out.
theorem layer1_real {ι κ : Type} (L : Finset ι) (I : Finset κ) (x : ι → κ → ℝ) (c ds : ι → ℝ) (dv : ℝ) (W : κ → ℝ) :
    ∑ i ∈ I, ((∑ e ∈ L, x e i * (c e * ds e)) * dv) * W i
      = ∑ e ∈ L, (ds e * c e * dv) * ∑ i ∈ I, x e i * W i := by
  simp only [Finset.sum_mul, Finset.mul_sum]
  rw [Finset.sum_comm]
  exact Finset.sum_congr rfl fun e _ => Finset.sum_congr rfl fun i _ => by ring

theorem layer2_real {ι : Type} (L : Finset ι) (c ds y : ι → ℝ) (dv : ℝ) :
    (∑ e ∈ L, c e * (y e * ds e)) * dv = ∑ e ∈ L, (ds e * c e * dv) * y e := by
  rw [Finset.sum_mul]
  exact Finset.sum_congr rfl fun e _ => by ring

-- An array of reals read in the extended reals.
abbrev up {ι : Type} (f : ι → ℝ) : ι → EReal := fun i => (f i : EReal)

theorem exists_up {ι : Type} {f : ι → EReal} (h : ∀ i, ∃ r : ℝ, f i = (r : EReal)) : ∃ g : ι → ℝ, f = up g :=
  ⟨fun i => (h i).choose, funext fun i => (h i).choose_spec⟩

section Real

variable (Xr : Sn64.Idx → ℝ) (src dst : IVec Se 32) (ewr : Se.Idx → ℝ) (dr : Sn.Idx → ℝ)
  (W1r : S3x64x128.Idx → ℝ) (b1r : S3x128.Idx → ℝ) (W2r : S3x128x64.Idx → ℝ) (b2r : S3x64.Idx → ℝ)

-- Real-valued copy of the reference's first-layer formula; `h2r` below is the second layer's.
def h1r (g : Fin 3) (v : Fin nN) (k : Fin 128) : ℝ :=
  max ((∑ e ∈ landing dst v, (dr (ix1 (gRow src e)) * ewr (ix1 e) * dr (ix1 v))
      * ∑ i : Fin 64, Xr (ix2 (gRow src e) i) * W1r (ix3 g i k)) + b1r (ix2 g k)) 0

def h2r (g : Fin 3) (v : Fin nN) (j : Fin 64) : ℝ :=
  max ((∑ e ∈ landing dst v, (dr (ix1 (gRow src e)) * ewr (ix1 e) * dr (ix1 v))
      * ∑ k : Fin 128, h1r Xr src dst ewr dr W1r b1r g (gRow src e) k * W2r (ix3 g k j)) + b2r (ix2 g j)) 0

theorem h1K_coe (g : Fin 3) (v : Fin nN) (k : Fin 128) :
    h1K (up Xr) src dst (up ewr) (up dr) (up W1r) (up b1r) g v k = ((h1r Xr src dst ewr dr W1r b1r g v k : ℝ) : EReal) := by
  unfold h1K aggxK h1r
  simp only [up, ← EReal.coe_mul, coe_sum, ← EReal.coe_add, relu_coe]
  rw [layer1_real]

theorem h1R_coe (g : Fin 3) (v : Fin nN) (k : Fin 128) :
    h1R (up Xr) src dst (up ewr) (up dr) (up W1r) (up b1r) g v k = ((h1r Xr src dst ewr dr W1r b1r g v k : ℝ) : EReal) := by
  unfold h1R h1r coef xw1R
  simp only [up, ← EReal.coe_mul, coe_sum, ← EReal.coe_add, relu_coe]
  rw [Finset.sum_congr rfl fun e he => by rw [gRow_dst_of_landing dst e v he]]

theorem h2K_coe (g : Fin 3) (v : Fin nN) (j : Fin 64) :
    h2K (up Xr) src dst (up ewr) (up dr) (up W1r) (up b1r) (up W2r) (up b2r) g v j
      = ((h2r Xr src dst ewr dr W1r b1r W2r b2r g v j : ℝ) : EReal) := by
  unfold h2K agg2K xw2sK h2r
  simp only [h1K_coe, up, ← EReal.coe_mul, coe_sum, ← EReal.coe_add, relu_coe]
  rw [layer2_real]

theorem h2R_coe (g : Fin 3) (v : Fin nN) (j : Fin 64) :
    h2R (up Xr) src dst (up ewr) (up dr) (up W1r) (up b1r) (up W2r) (up b2r) g v j
      = ((h2r Xr src dst ewr dr W1r b1r W2r b2r g v j : ℝ) : EReal) := by
  unfold h2R h2r coef xw2R
  simp only [h1R_coe, up, ← EReal.coe_mul, coe_sum, ← EReal.coe_add, relu_coe]
  rw [Finset.sum_congr rfl fun e he => by rw [gRow_dst_of_landing dst e v he]]

end Real

section Layers

variable (X : Sn64.Idx → EReal) (src dst : IVec Se 32) (ew : Se.Idx → EReal) (dinv : Sn.Idx → EReal)
  (W1 : S3x64x128.Idx → EReal) (b1 : S3x128.Idx → EReal) (W2 : S3x128x64.Idx → EReal) (b2 : S3x64.Idx → EReal)

-- At real inputs both programs' second-layer features are the same real.
theorem h2K_eq_h2R' (hX : ∀ i, ∃ r : ℝ, X i = (r : EReal)) (hew : ∀ i, ∃ r : ℝ, ew i = (r : EReal))
    (hdinv : ∀ i, ∃ r : ℝ, dinv i = (r : EReal)) (hW1 : ∀ i, ∃ r : ℝ, W1 i = (r : EReal))
    (hb1 : ∀ i, ∃ r : ℝ, b1 i = (r : EReal)) (hW2 : ∀ i, ∃ r : ℝ, W2 i = (r : EReal))
    (hb2 : ∀ i, ∃ r : ℝ, b2 i = (r : EReal)) (g : Fin 3) (v : Fin nN) (j : Fin 64) :
    h2K X src dst ew dinv W1 b1 W2 b2 g v j = h2R X src dst ew dinv W1 b1 W2 b2 g v j := by
  obtain ⟨Xr, rfl⟩ := exists_up hX
  obtain ⟨ewr, rfl⟩ := exists_up hew
  obtain ⟨dr, rfl⟩ := exists_up hdinv
  obtain ⟨W1r, rfl⟩ := exists_up hW1
  obtain ⟨b1r, rfl⟩ := exists_up hb1
  obtain ⟨W2r, rfl⟩ := exists_up hW2
  obtain ⟨b2r, rfl⟩ := exists_up hb2
  rw [h2K_coe, h2R_coe]

end Layers

-- A word equals the number b < 64 exactly when its signed value is b.
theorem ite_isIn (rb2 : IVec Sn1 32) (rb : IVec Sn 32) (hrb : ∀ v, rb2 (ix2 v 0) = rb (ix1 v)) (v : Fin nN) (b : Fin 64)
    (x y : EReal) : (if isIn rb2 v b then x else y) = if sRow? 64 (rb (ix1 v)) = some b then x else y := by
  refine if_congr ?_ rfl rfl
  unfold isIn
  rw [hrb v, sRow?_eq_some_iff, ← StableHlo.Predicate.toInt_ofNat_small b.val (by have := b.isLt; omega)]
  exact ⟨congrArg _, BitVec.eq_of_toInt_eq⟩

theorem poolK_eq_poolR (rb2 : IVec Sn1 32) (rb : IVec Sn 32) (hrb : ∀ v, rb2 (ix2 v 0) = rb (ix1 v))
    (agg2 : Sn128.Idx → EReal) (b2c : S1x128.Idx → EReal) (dinv2 : Sn1.Idx → EReal) (b : Fin 64) (f : Fin 128) :
    poolK rb2 agg2 b2c dinv2 b f
      = poolR rb (fun v => relu (agg2 (ix2 v f) * dinv2 (ix2 v 0) + b2c (ix2 0 f))) b := by
  unfold poolK poolR members
  rw [Finset.sum_filter]
  refine Finset.sum_congr rfl fun v _ => ?_
  rw [ite_isIn rb2 rb hrb, ite_mul, one_mul, zero_mul]

theorem cntK_eq_cntR (rb2 : IVec Sn1 32) (rb : IVec Sn 32) (hrb : ∀ v, rb2 (ix2 v 0) = rb (ix1 v)) (b : Fin 64) :
    cntK rb2 b = cntR rb b := by
  unfold cntK cntR members
  rw [one_eq, Finset.sum_filter]
  exact Finset.sum_congr rfl fun v _ => ite_isIn rb2 rb hrb v b _ _

end GcnSpec

end
-- ==== Proof.Bridge.lean ====
import proofs.«415816_j88759794139277_3_alg».proof.Proof.Spec
import proofs.«415816_j88759794139277_3_alg».proof.Proof.Math

noncomputable section

namespace GcnSpec

open Idealize.ShloMosaic Idealize.ShloMosaic.ValueIdx IndexOpsLib

section Bridge

variable (x0 : Sn64.Idx → EReal) (x2 : IVec Sn 32) (x4 : S64x64.Idx → EReal)
  (x5 : S3x64x128.Idx → EReal) (x6 : S3x128.Idx → EReal) (x7 : S3x128x64.Idx → EReal) (x8 : S3x64.Idx → EReal)
  (x9 : S3x128x64.Idx → EReal) (x10 : S3x64.Idx → EReal)
  (src dst : IVec Se 32) (ew : Se.Idx → EReal) (dinv : Sn.Idx → EReal)
  (br : Fin 2 → Fin 3)
  (aggx : Sn64.Idx → EReal) (dinv2 : Sn1.Idx → EReal) (w1c : S64x256.Idx → EReal) (b1c : S1x256.Idx → EReal)
  (w2c : S2x128x64.Idx → EReal) (agg2 : Sn128.Idx → EReal) (rb2 : IVec Sn1 32) (b2c : S1x128.Idx → EReal)
  (o : Sn128.Idx → EReal) (P : (⟨2, ![64, 128]⟩ : Shape).Idx → EReal) (C : (⟨2, ![1, 64]⟩ : Shape).Idx → EReal)
  (K Rf : S64x64.Idx → EReal) (R0 R2 : Sn64.Idx → EReal)

-- Both results are one function of pooled sums and counts, and over the reals the kernel's second-layer feature is the reference's.
theorem bridge (hbr0 : br 0 = 0) (hbr1 : br 1 = 2)
    (H0 : ∀ (v : Fin nN) (g : Fin 2) (j : Fin 64), o (ix2 v (half 64 g j)) = layer1K aggx dinv2 w1c b1c w2c v g j)
    (HA : ∀ (v : Fin nN) (g : Fin 2) (j : Fin 64), layer1K aggx dinv2 w1c b1c w2c v g j = xw2sK x0 src dst ew dinv x5 x6 x7 (br g) v j)
    (HB1 : ∀ (v : Fin nN) (f : Fin 128), agg2 (ix2 v f) = ∑ e ∈ landing dst v, ew (ix1 e) * o (ix2 (gRow src e) f))
    (HB2 : ∀ v : Fin nN, rb2 (ix2 v 0) = x2 (ix1 v))
    (HB3 : ∀ (g : Fin 2) (j : Fin 64), b2c (ix2 0 (half 64 g j)) = x8 (ix2 (br g) j))
    (HB4 : ∀ v : Fin nN, dinv2 (ix2 v 0) = dinv (ix1 v))
    (H1a : ∀ (b : Fin 64) (f : Fin 128), P (ix2 b f) = poolK rb2 agg2 b2c dinv2 b f)
    (H1b : ∀ b : Fin 64, C (ix2 0 b) = cntK rb2 b)
    (HC : ∀ b j : Fin 64, K (ix2 b j) = outSpec (fun b j => P (ix2 b (half 64 0 j))) (fun b j => P (ix2 b (half 64 1 j)))
      (fun b => C (ix2 0 b)) x4 x9 x10 b j)
    (HR1 : ∀ (v : Fin nN) (j : Fin 64), R0 (ix2 v j) = h2R x0 src dst ew dinv x5 x6 x7 x8 0 v j)
    (HR2 : ∀ (v : Fin nN) (j : Fin 64), R2 (ix2 v j) = h2R x0 src dst ew dinv x5 x6 x7 x8 2 v j)
    (HR3 : ∀ b j : Fin 64, Rf (ix2 b j) = outSpec (fun b j => poolR x2 (fun v => R0 (ix2 v j)) b)
      (fun b j => poolR x2 (fun v => R2 (ix2 v j)) b) (cntR x2) x4 x9 x10 b j)
    (hX : ∀ i, ∃ r : ℝ, x0 i = (r : EReal)) (hew : ∀ i, ∃ r : ℝ, ew i = (r : EReal))
    (hdinv : ∀ i, ∃ r : ℝ, dinv i = (r : EReal)) (hW1 : ∀ i, ∃ r : ℝ, x5 i = (r : EReal))
    (hb1 : ∀ i, ∃ r : ℝ, x6 i = (r : EReal)) (hW2 : ∀ i, ∃ r : ℝ, x7 i = (r : EReal))
    (hb2 : ∀ i, ∃ r : ℝ, x8 i = (r : EReal)) :
    K = Rf := by
  have hp : ∀ (g : Fin 2) (b j : Fin 64),
      P (ix2 b (half 64 g j)) = poolR x2 (fun v => h2R x0 src dst ew dinv x5 x6 x7 x8 (br g) v j) b := by
    intro g b j
    rw [H1a b (half 64 g j), poolK_eq_poolR rb2 x2 HB2]
    unfold poolR
    refine Finset.sum_congr rfl fun v _ => Eq.trans ?_
      (h2K_eq_h2R' x0 src dst ew dinv x5 x6 x7 x8 hX hew hdinv hW1 hb1 hW2 hb2 (br g) v j)
    have ho : ∀ e : Fin nE, o (ix2 (gRow src e) (half 64 g j))
        = xw2sK x0 src dst ew dinv x5 x6 x7 (br g) (gRow src e) j := fun e => by rw [H0, HA]
    show relu (agg2 (ix2 v (half 64 g j)) * dinv2 (ix2 v 0) + b2c (ix2 0 (half 64 g j))) = _
    rw [HB1 v (half 64 g j), HB4 v, HB3 g j]
    simp only [ho]
    rfl
  funext idx
  obtain ⟨b, j, rfl⟩ : ∃ b j : Fin 64, idx = ix2 b j := ⟨idx 0, idx 1, eq_ix2 idx⟩
  rw [HC b j, HR3 b j]
  simp only [hp, hbr0, hbr1, HR1, HR2, H1b, cntK_eq_cntR rb2 x2 HB2]

end Bridge

end GcnSpec

end
-- ==== Proof.ValEq.lean ====
import proofs.«415816_j88759794139277_3_alg».proof.Proof.Assemble
import proofs.«415816_j88759794139277_3_alg».proof.Proof.KiRun
import proofs.«415816_j88759794139277_3_alg».proof.Proof.KiV0
import proofs.«415816_j88759794139277_3_alg».proof.Proof.KiV1
import proofs.«415816_j88759794139277_3_alg».proof.Proof.KHostA
import proofs.«415816_j88759794139277_3_alg».proof.Proof.KHostAV
import proofs.«415816_j88759794139277_3_alg».proof.Proof.KHostB
import proofs.«415816_j88759794139277_3_alg».proof.Proof.KHostC
import proofs.«415816_j88759794139277_3_alg».proof.Proof.RefLayers
import proofs.«415816_j88759794139277_3_alg».proof.Proof.RefLayersG2
import proofs.«415816_j88759794139277_3_alg».proof.Proof.RefTail
import proofs.«415816_j88759794139277_3_alg».proof.Proof.Finite
import proofs.«415816_j88759794139277_3_alg».proof.Proof.FiniteK
import proofs.«415816_j88759794139277_3_alg».proof.Proof.Bridge
import proofs.«415816_j88759794139277_3_alg».proof.Proof.Gen.ReferenceIdeal.Run
import proofs.«415816_j88759794139277_3_alg».proof.Proof.Gen.ReferenceIdeal.Read

noncomputable section

namespace Cert.Proof.Parts

open Idealize.ShloMosaic Idealize.ShloMosaic.TcCoe Idealize.SL.Sem Idealize.ShloMosaic.ValueIdx
open Cert.KernelIdeal Cert.KernelIdeal.Gen Cert.KernelIdeal.Hand Cert.KernelIdeal.KHost

abbrev resR : ResR := fun m' c => Cert.ReferenceIdeal.Value.res_main_v234 (F := Ideal) m' c

-- On finite arguments, if the regions' results are the layer and pooling formulas on the host's terms, the last stretch's value is the reference's.
theorem tail_eq_ref {x0 : FVec Ideal S100000x64 .f32} {x1 : IVec S2x800000 32} {x2 : IVec S100000 32} {x3 : FVec Ideal S800000 .f32}
    {x4 : FVec Ideal S64x64 .f32} {x5 : FVec Ideal S3x64x128 .f32} {x6 : FVec Ideal S3x128 .f32} {x7 : FVec Ideal S3x128x64 .f32}
    {x8 : FVec Ideal S3x64 .f32} {x9 : FVec Ideal S3x128x64 .f32} {x10 : FVec Ideal S3x64 .f32}
    {o : FVec Ideal S100000x128 .f32} {P : FVec Ideal S64x128 .f32} {C : FVec Ideal S1x64 .f32}
    (hpre : Cert.Pre_finite_inputs.fn (F := Ideal) x0 x1 x2 x3 x4 x5 x6 x7 x8 x9 x10 = fun _ => 1#1)
    (H0 : ∀ v g j, o (ix2 v (GcnSpec.half 64 g j))
      = GcnSpec.layer1K (kAggX x0 x1 x3) (kDinv2 x1 x3) (kW1c x5) (kB1c x6) (kW2c x7) v g j)
    (H1a : ∀ b f, P (ix2 b f) = GcnSpec.poolK (kRb2 x2) (kAgg2 o x1 x3) (kB2c x8) (kDinv2 x1 x3) b f)
    (H1b : ∀ b, C (ix2 0 b) = GcnSpec.cntK (kRb2 x2) b) :
    (kTail (F := Ideal) P C x4 x9 x10 : S64x64.Idx → EReal) = Cert.ReferenceIdeal.Read.val_main_v234 (F := Ideal) x0 x1 x2 x3 x4 x5 x6 x7 x8 x9 x10 := by
  obtain ⟨h0, h3, _, h5, h6, h7, h8, _, _⟩ := Finite.reals_of_pre x0 x1 x2 x3 x4 x5 x6 x7 x8 x9 x10 hpre
  exact GcnSpec.bridge (br := br) (hbr0 := rfl) (hbr1 := rfl) (H0 := H0) (HA := layer1K_host x0 x1 x3 x5 x6 x7)
    (HB1 := kAgg2_apply o x1 x3) (HB2 := kRb2_apply x2) (HB3 := kB2c_apply x8) (HB4 := kDinv2_apply x1 x3)
    (H1a := H1a) (H1b := H1b) (HC := kTail_apply P C x4 x9 x10)
    (HR1 := Cert.ReferenceIdeal.RefValue.gate0_h2_at x0 x1 x3 x5 x6 x7 x8)
    (HR2 := Cert.ReferenceIdeal.RefValue.gate2_h2_at x0 x1 x3 x5 x6 x7 x8)
    (HR3 := Cert.ReferenceIdeal.RefValue.v234_at x0 x1 x2 x3 x4 x5 x6 x7 x8 x9 x10)
    (hX := h0) (hew := Finite.reals_ew x3 h3) (hdinv := Finite.reals_kDinv x1 x3 h3)
    (hW1 := h5) (hb1 := h6) (hW2 := h7) (hb2 := h8)

-- Each region's operands at its entry are host terms of the arguments, so its result is the formula on those terms.
theorem hval : ValEq (outsOf (F := Ideal)) resR := by
  intro m hpre m' hagree c
  have h := hagree c
  dsimp only [atR, atI] at h
  obtain ⟨a0, a1, a2, a3, a4, a5, a6, a7, a8, a9, a10⟩ := h
  refine (V7_main_v116 m (outsOf m) c).trans ?_
  refine Eq.trans ?_ (Cert.ReferenceIdeal.Read.val_main_v234_eq (F := Ideal) m' c).symm
  rw [a0, a1, a2, a3, a4, a5, a6, a7, a8, a9, a10]
  refine tail_eq_ref (o := outsOf m 4 main_v64 c) (hpre c) (fun v g j => ?_) (fun b f => ?_) (fun b => ?_)
  · refine (congrFun (outsOf_64 m c) _).trans ((final0 (T3 m) c v g j).trans ?_)
    rw [← V3_main_v63 m c, ← V3_main_v18 m c, ← V3_main_v23 m c, ← V3_main_v29 m c, ← V3_main_v36 m c]
  · refine (congrFun (outsOf_79_0 m c) _).trans ((final1_4 (T5 m (outsOf m)) c b f).trans ?_)
    rw [← V5_main_v78 m (outsOf m) c, ← V5_main_v77 m (outsOf m) c, ← V5_main_v42 m (outsOf m) c, ← V5_main_v18 m (outsOf m) c]
  · refine (congrFun (outsOf_79_1 m c) _).trans ((final1_5 (T5 m (outsOf m)) c b).trans ?_)
    rw [← V5_main_v78 m (outsOf m) c]

end Cert.Proof.Parts

end
-- ==== Proof.lean ====
-- the claim from its parts: each program's frame, the reference's run, and the equality of the two values on finite inputs
import proofs.«415816_j88759794139277_3_alg».proof.Defs
import proofs.«415816_j88759794139277_3_alg».proof.Proof.KbRun
import proofs.«415816_j88759794139277_3_alg».proof.Proof.ValEq
import Idealize.ShloMosaic.Adequacy
import Idealize.ShloMosaic.Init

noncomputable section

namespace Cert.Proof

open Idealize.ShloMosaic Idealize.SL.Sem

theorem claim : Cert.Claim :=
  Parts.claim
    (fun m g => Cert.Kernel.Hand.frame (F := Bits) m g)
    (fun m g => Cert.KernelIdeal.Hand.run_main (F := Ideal) m g)
    (fun m' g' => Cert.ReferenceIdeal.Value.run (F := Ideal) m' g')
    Parts.hval

end Cert.Proof

end
